-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x88 : Shape := ⟨2, ![50000, 88]⟩
abbrev S2x800000 : Shape := ⟨2, ![2, 800000]⟩
abbrev S88x70 : Shape := ⟨2, ![88, 70]⟩
abbrev S70 : Shape := ⟨1, ![70]⟩
abbrev S70x60 : Shape := ⟨2, ![70, 60]⟩
abbrev S60 : Shape := ⟨1, ![60]⟩
abbrev S60x50 : Shape := ⟨2, ![60, 50]⟩
abbrev S50 : Shape := ⟨1, ![50]⟩
abbrev S50x60 : Shape := ⟨2, ![50, 60]⟩
abbrev S60x70 : Shape := ⟨2, ![60, 70]⟩
abbrev S70x88 : Shape := ⟨2, ![70, 88]⟩
abbrev S88 : Shape := ⟨1, ![88]⟩
abbrev S_ : Shape := ⟨0, ![]⟩

class Facts : Prop where
  bcast_S_S50000x88 : S_.BroadcastsInDim S50000x88 (![] : Fin 0 → Fin S50000x88.rank)
  reducesTo_S50000x88_S_d0_1 : S50000x88.ReducesTo [0, 1] S_
  h_S_ : 0 < S_.numel
  bcast_S_S88x70 : S_.BroadcastsInDim S88x70 (![] : Fin 0 → Fin S88x70.rank)
  reducesTo_S88x70_S_d0_1 : S88x70.ReducesTo [0, 1] S_
  bcast_S_S70 : S_.BroadcastsInDim S70 (![] : Fin 0 → Fin S70.rank)
  reducesTo_S70_S_d0 : S70.ReducesTo [0] S_
  bcast_S_S70x60 : S_.BroadcastsInDim S70x60 (![] : Fin 0 → Fin S70x60.rank)
  reducesTo_S70x60_S_d0_1 : S70x60.ReducesTo [0, 1] S_
  bcast_S_S60 : S_.BroadcastsInDim S60 (![] : Fin 0 → Fin S60.rank)
  reducesTo_S60_S_d0 : S60.ReducesTo [0] S_
  bcast_S_S60x50 : S_.BroadcastsInDim S60x50 (![] : Fin 0 → Fin S60x50.rank)
  reducesTo_S60x50_S_d0_1 : S60x50.ReducesTo [0, 1] S_
  bcast_S_S50 : S_.BroadcastsInDim S50 (![] : Fin 0 → Fin S50.rank)
  reducesTo_S50_S_d0 : S50.ReducesTo [0] S_
  bcast_S_S50x60 : S_.BroadcastsInDim S50x60 (![] : Fin 0 → Fin S50x60.rank)
  reducesTo_S50x60_S_d0_1 : S50x60.ReducesTo [0, 1] S_
  bcast_S_S60x70 : S_.BroadcastsInDim S60x70 (![] : Fin 0 → Fin S60x70.rank)
  reducesTo_S60x70_S_d0_1 : S60x70.ReducesTo [0, 1] S_
  bcast_S_S70x88 : S_.BroadcastsInDim S70x88 (![] : Fin 0 → Fin S70x88.rank)
  reducesTo_S70x88_S_d0_1 : S70x88.ReducesTo [0, 1] S_
  bcast_S_S88 : S_.BroadcastsInDim S88 (![] : Fin 0 → Fin S88.rank)
  reducesTo_S88_S_d0 : S88.ReducesTo [0] S_
  bcast_S_S2x800000 : S_.BroadcastsInDim S2x800000 (![] : Fin 0 → Fin S2x800000.rank)
  reducesTo_S2x800000_S_d0_1 : S2x800000.ReducesTo [0, 1] S_

variable [Facts]

def fn_part6 {F : FTy → Type} [FloatOps F] (main_arg1 : IVec S2x800000 32) (main_v98 : IVec S_ 1) (main_v101 : IVec S70 1) (main_c_39 : IVec S_ 1) : IVec S_ 1 :=
  let main_v102 : IVec S_ 1 := (fun x v => Host.reduce IntOp.andi x v reducesTo_S70_S_d0 h_S_) main_v101 main_c_39
  let main_v103 : IVec S_ 1 := andi main_v98 main_v102
  let main_c_40 : IVec S_ 32 := constantI S_ 32 0#32
  let main_v104 : IVec S2x800000 32 := broadcastInDim S2x800000 ![] bcast_S_S2x800000 main_c_40
  let main_v105 : IVec S2x800000 1 := cmpi .sge main_arg1 main_v104
  let main_c_41 : IVec S_ 32 := constantI S_ 32 50000#32
  let main_v106 : IVec S2x800000 32 := broadcastInDim S2x800000 ![] bcast_S_S2x800000 main_c_41
  let main_v107 : IVec S2x800000 1 := cmpi .slt main_arg1 main_v106
  let main_v108 : IVec S2x800000 1 := andi main_v105 main_v107
  let main_c_42 : IVec S_ 1 := constantI S_ 1 1#1
  let main_v109 : IVec S_ 1 := (fun x v => Host.reduce IntOp.andi x v reducesTo_S2x800000_S_d0_1 h_S_) main_v108 main_c_42
  let main_v110 : IVec S_ 1 := andi main_v103 main_v109
  main_v110

def fn_part5 {F : FTy → Type} [FloatOps F] (main_arg1 : IVec S2x800000 32) (main_arg19 : FVec F S60 .f32) (main_arg20 : FVec F S70 .f32) (main_arg21 : FVec F S70 .f32) (main_v83 : IVec S_ 1) (main_v84 : FVec F S60 .f32) (main_cst_32 : FVec F S_ .f32) : IVec S_ 1 :=
  let main_v85 : FVec F S60 .f32 := broadcastInDim S60 ![] bcast_S_S60 main_cst_32
  let main_v86 : IVec S60 1 := cmpf .olt main_v84 main_v85
  let main_c_33 : IVec S_ 1 := constantI S_ 1 1#1
  let main_v87 : IVec S_ 1 := (fun x v => Host.reduce IntOp.andi x v reducesTo_S60_S_d0 h_S_) main_v86 main_c_33
  let main_v88 : IVec S_ 1 := andi main_v83 main_v87
  let main_v89 : FVec F S60 .f32 := Host.absf main_arg19
  let main_cst_34 : FVec F S_ .f32 := constant S_ .f32 0x7F800000#32
  let main_v90 : FVec F S60 .f32 := broadcastInDim S60 ![] bcast_S_S60 main_cst_34
  let main_v91 : IVec S60 1 := cmpf .olt main_v89 main_v90
  let main_c_35 : IVec S_ 1 := constantI S_ 1 1#1
  let main_v92 : IVec S_ 1 := (fun x v => Host.reduce IntOp.andi x v reducesTo_S60_S_d0 h_S_) main_v91 main_c_35
  let main_v93 : IVec S_ 1 := andi main_v88 main_v92
  let main_v94 : FVec F S70 .f32 := Host.absf main_arg20
  let main_cst_36 : FVec F S_ .f32 := constant S_ .f32 0x7F800000#32
  let main_v95 : FVec F S70 .f32 := broadcastInDim S70 ![] bcast_S_S70 main_cst_36
  let main_v96 : IVec S70 1 := cmpf .olt main_v94 main_v95
  let main_c_37 : IVec S_ 1 := constantI S_ 1 1#1
  let main_v97 : IVec S_ 1 := (fun x v => Host.reduce IntOp.andi x v reducesTo_S70_S_d0 h_S_) main_v96 main_c_37
  let main_v98 : IVec S_ 1 := andi main_v93 main_v97
  let main_v99 : FVec F S70 .f32 := Host.absf main_arg21
  let main_cst_38 : FVec F S_ .f32 := constant S_ .f32 0x7F800000#32
  let main_v100 : FVec F S70 .f32 := broadcastInDim S70 ![] bcast_S_S70 main_cst_38
  let main_v101 : IVec S70 1 := cmpf .olt main_v99 main_v100
  let main_c_39 : IVec S_ 1 := constantI S_ 1 1#1
  fn_part6 (F := F) main_arg1 main_v98 main_v101 main_c_39

def fn_part4 {F : FTy → Type} [FloatOps F] (main_arg1 : IVec S2x800000 32) (main_arg15 : FVec F S70 .f32) (main_arg16 : FVec F S60 .f32) (main_arg17 : FVec F S60 .f32) (main_arg18 : FVec F S60 .f32) (main_arg19 : FVec F S60 .f32) (main_arg20 : FVec F S70 .f32) (main_arg21 : FVec F S70 .f32) (main_v63 : IVec S_ 1) (main_v67 : IVec S_ 1) : IVec S_ 1 :=
  let main_v68 : IVec S_ 1 := andi main_v63 main_v67
  let main_v69 : FVec F S70 .f32 := Host.absf main_arg15
  let main_cst_26 : FVec F S_ .f32 := constant S_ .f32 0x7F800000#32
  let main_v70 : FVec F S70 .f32 := broadcastInDim S70 ![] bcast_S_S70 main_cst_26
  let main_v71 : IVec S70 1 := cmpf .olt main_v69 main_v70
  let main_c_27 : IVec S_ 1 := constantI S_ 1 1#1
  let main_v72 : IVec S_ 1 := (fun x v => Host.reduce IntOp.andi x v reducesTo_S70_S_d0 h_S_) main_v71 main_c_27
  let main_v73 : IVec S_ 1 := andi main_v68 main_v72
  let main_v74 : FVec F S60 .f32 := Host.absf main_arg16
  let main_cst_28 : FVec F S_ .f32 := constant S_ .f32 0x7F800000#32
  let main_v75 : FVec F S60 .f32 := broadcastInDim S60 ![] bcast_S_S60 main_cst_28
  let main_v76 : IVec S60 1 := cmpf .olt main_v74 main_v75
  let main_c_29 : IVec S_ 1 := constantI S_ 1 1#1
  let main_v77 : IVec S_ 1 := (fun x v => Host.reduce IntOp.andi x v reducesTo_S60_S_d0 h_S_) main_v76 main_c_29
  let main_v78 : IVec S_ 1 := andi main_v73 main_v77
  let main_v79 : FVec F S60 .f32 := Host.absf main_arg17
  let main_cst_30 : FVec F S_ .f32 := constant S_ .f32 0x7F800000#32
  let main_v80 : FVec F S60 .f32 := broadcastInDim S60 ![] bcast_S_S60 main_cst_30
  let main_v81 : IVec S60 1 := cmpf .olt main_v79 main_v80
  let main_c_31 : IVec S_ 1 := constantI S_ 1 1#1
  let main_v82 : IVec S_ 1 := (fun x v => Host.reduce IntOp.andi x v reducesTo_S60_S_d0 h_S_) main_v81 main_c_31
  let main_v83 : IVec S_ 1 := andi main_v78 main_v82
  let main_v84 : FVec F S60 .f32 := Host.absf main_arg18
  let main_cst_32 : FVec F S_ .f32 := constant S_ .f32 0x7F800000#32
  fn_part5 (F := F) main_arg1 main_arg19 main_arg20 main_arg21 main_v83 main_v84 main_cst_32

def fn_part3 {F : FTy → Type} [FloatOps F] (main_arg1 : IVec S2x800000 32) (main_arg12 : FVec F S70x88 .f32) (main_arg13 : FVec F S88 .f32) (main_arg14 : FVec F S70 .f32) (main_arg15 : FVec F S70 .f32) (main_arg16 : FVec F S60 .f32) (main_arg17 : FVec F S60 .f32) (main_arg18 : FVec F S60 .f32) (main_arg19 : FVec F S60 .f32) (main_arg20 : FVec F S70 .f32) (main_arg21 : FVec F S70 .f32) (main_v48 : IVec S_ 1) (main_v49 : FVec F S70 .f32) (main_v50 : FVec F S70 .f32) : IVec S_ 1 :=
  let main_v51 : IVec S70 1 := cmpf .olt main_v49 main_v50
  let main_c_19 : IVec S_ 1 := constantI S_ 1 1#1
  let main_v52 : IVec S_ 1 := (fun x v => Host.reduce IntOp.andi x v reducesTo_S70_S_d0 h_S_) main_v51 main_c_19
  let main_v53 : IVec S_ 1 := andi main_v48 main_v52
  let main_v54 : FVec F S70x88 .f32 := Host.absf main_arg12
  let main_cst_20 : FVec F S_ .f32 := constant S_ .f32 0x7F800000#32
  let main_v55 : FVec F S70x88 .f32 := broadcastInDim S70x88 ![] bcast_S_S70x88 main_cst_20
  let main_v56 : IVec S70x88 1 := cmpf .olt main_v54 main_v55
  let main_c_21 : IVec S_ 1 := constantI S_ 1 1#1
  let main_v57 : IVec S_ 1 := (fun x v => Host.reduce IntOp.andi x v reducesTo_S70x88_S_d0_1 h_S_) main_v56 main_c_21
  let main_v58 : IVec S_ 1 := andi main_v53 main_v57
  let main_v59 : FVec F S88 .f32 := Host.absf main_arg13
  let main_cst_22 : FVec F S_ .f32 := constant S_ .f32 0x7F800000#32
  let main_v60 : FVec F S88 .f32 := broadcastInDim S88 ![] bcast_S_S88 main_cst_22
  let main_v61 : IVec S88 1 := cmpf .olt main_v59 main_v60
  let main_c_23 : IVec S_ 1 := constantI S_ 1 1#1
  let main_v62 : IVec S_ 1 := (fun x v => Host.reduce IntOp.andi x v reducesTo_S88_S_d0 h_S_) main_v61 main_c_23
  let main_v63 : IVec S_ 1 := andi main_v58 main_v62
  let main_v64 : FVec F S70 .f32 := Host.absf main_arg14
  let main_cst_24 : FVec F S_ .f32 := constant S_ .f32 0x7F800000#32
  let main_v65 : FVec F S70 .f32 := broadcastInDim S70 ![] bcast_S_S70 main_cst_24
  let main_v66 : IVec S70 1 := cmpf .olt main_v64 main_v65
  let main_c_25 : IVec S_ 1 := constantI S_ 1 1#1
  let main_v67 : IVec S_ 1 := (fun x v => Host.reduce IntOp.andi x v reducesTo_S70_S_d0 h_S_) main_v66 main_c_25
  fn_part4 (F := F) main_arg1 main_arg15 main_arg16 main_arg17 main_arg18 main_arg19 main_arg20 main_arg21 main_v63 main_v67

def fn_part2 {F : FTy → Type} [FloatOps F] (main_arg1 : IVec S2x800000 32) (main_arg8 : FVec F S50x60 .f32) (main_arg9 : FVec F S60 .f32) (main_arg10 : FVec F S60x70 .f32) (main_arg11 : FVec F S70 .f32) (main_arg12 : FVec F S70x88 .f32) (main_arg13 : FVec F S88 .f32) (main_arg14 : FVec F S70 .f32) (main_arg15 : FVec F S70 .f32) (main_arg16 : FVec F S60 .f32) (main_arg17 : FVec F S60 .f32) (main_arg18 : FVec F S60 .f32) (main_arg19 : FVec F S60 .f32) (main_arg20 : FVec F S70 .f32) (main_arg21 : FVec F S70 .f32) (main_v33 : IVec S_ 1) : IVec S_ 1 :=
  let main_v34 : FVec F S50x60 .f32 := Host.absf main_arg8
  let main_cst_12 : FVec F S_ .f32 := constant S_ .f32 0x7F800000#32
  let main_v35 : FVec F S50x60 .f32 := broadcastInDim S50x60 ![] bcast_S_S50x60 main_cst_12
  let main_v36 : IVec S50x60 1 := cmpf .olt main_v34 main_v35
  let main_c_13 : IVec S_ 1 := constantI S_ 1 1#1
  let main_v37 : IVec S_ 1 := (fun x v => Host.reduce IntOp.andi x v reducesTo_S50x60_S_d0_1 h_S_) main_v36 main_c_13
  let main_v38 : IVec S_ 1 := andi main_v33 main_v37
  let main_v39 : FVec F S60 .f32 := Host.absf main_arg9
  let main_cst_14 : FVec F S_ .f32 := constant S_ .f32 0x7F800000#32
  let main_v40 : FVec F S60 .f32 := broadcastInDim S60 ![] bcast_S_S60 main_cst_14
  let main_v41 : IVec S60 1 := cmpf .olt main_v39 main_v40
  let main_c_15 : IVec S_ 1 := constantI S_ 1 1#1
  let main_v42 : IVec S_ 1 := (fun x v => Host.reduce IntOp.andi x v reducesTo_S60_S_d0 h_S_) main_v41 main_c_15
  let main_v43 : IVec S_ 1 := andi main_v38 main_v42
  let main_v44 : FVec F S60x70 .f32 := Host.absf main_arg10
  let main_cst_16 : FVec F S_ .f32 := constant S_ .f32 0x7F800000#32
  let main_v45 : FVec F S60x70 .f32 := broadcastInDim S60x70 ![] bcast_S_S60x70 main_cst_16
  let main_v46 : IVec S60x70 1 := cmpf .olt main_v44 main_v45
  let main_c_17 : IVec S_ 1 := constantI S_ 1 1#1
  let main_v47 : IVec S_ 1 := (fun x v => Host.reduce IntOp.andi x v reducesTo_S60x70_S_d0_1 h_S_) main_v46 main_c_17
  let main_v48 : IVec S_ 1 := andi main_v43 main_v47
  let main_v49 : FVec F S70 .f32 := Host.absf main_arg11
  let main_cst_18 : FVec F S_ .f32 := constant S_ .f32 0x7F800000#32
  let main_v50 : FVec F S70 .f32 := broadcastInDim S70 ![] bcast_S_S70 main_cst_18
  fn_part3 (F := F) main_arg1 main_arg12 main_arg13 main_arg14 main_arg15 main_arg16 main_arg17 main_arg18 main_arg19 main_arg20 main_arg21 main_v48 main_v49 main_v50

def fn_part1 {F : FTy → Type} [FloatOps F] (main_arg1 : IVec S2x800000 32) (main_arg5 : FVec F S60 .f32) (main_arg6 : FVec F S60x50 .f32) (main_arg7 : FVec F S50 .f32) (main_arg8 : FVec F S50x60 .f32) (main_arg9 : FVec F S60 .f32) (main_arg10 : FVec F S60x70 .f32) (main_arg11 : FVec F S70 .f32) (main_arg12 : FVec F S70x88 .f32) (main_arg13 : FVec F S88 .f32) (main_arg14 : FVec F S70 .f32) (main_arg15 : FVec F S70 .f32) (main_arg16 : FVec F S60 .f32) (main_arg17 : FVec F S60 .f32) (main_arg18 : FVec F S60 .f32) (main_arg19 : FVec F S60 .f32) (main_arg20 : FVec F S70 .f32) (main_arg21 : FVec F S70 .f32) (main_v13 : IVec S_ 1) (main_v16 : IVec S70x60 1) : IVec S_ 1 :=
  let main_c_5 : IVec S_ 1 := constantI S_ 1 1#1
  let main_v17 : IVec S_ 1 := (fun x v => Host.reduce IntOp.andi x v reducesTo_S70x60_S_d0_1 h_S_) main_v16 main_c_5
  let main_v18 : IVec S_ 1 := andi main_v13 main_v17
  let main_v19 : FVec F S60 .f32 := Host.absf main_arg5
  let main_cst_6 : FVec F S_ .f32 := constant S_ .f32 0x7F800000#32
  let main_v20 : FVec F S60 .f32 := broadcastInDim S60 ![] bcast_S_S60 main_cst_6
  let main_v21 : IVec S60 1 := cmpf .olt main_v19 main_v20
  let main_c_7 : IVec S_ 1 := constantI S_ 1 1#1
  let main_v22 : IVec S_ 1 := (fun x v => Host.reduce IntOp.andi x v reducesTo_S60_S_d0 h_S_) main_v21 main_c_7
  let main_v23 : IVec S_ 1 := andi main_v18 main_v22
  let main_v24 : FVec F S60x50 .f32 := Host.absf main_arg6
  let main_cst_8 : FVec F S_ .f32 := constant S_ .f32 0x7F800000#32
  let main_v25 : FVec F S60x50 .f32 := broadcastInDim S60x50 ![] bcast_S_S60x50 main_cst_8
  let main_v26 : IVec S60x50 1 := cmpf .olt main_v24 main_v25
  let main_c_9 : IVec S_ 1 := constantI S_ 1 1#1
  let main_v27 : IVec S_ 1 := (fun x v => Host.reduce IntOp.andi x v reducesTo_S60x50_S_d0_1 h_S_) main_v26 main_c_9
  let main_v28 : IVec S_ 1 := andi main_v23 main_v27
  let main_v29 : FVec F S50 .f32 := Host.absf main_arg7
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x88 .f32) (main_arg1 : IVec S2x800000 32) (main_arg2 : FVec F S88x70 .f32) (main_arg3 : FVec F S70 .f32) (main_arg4 : FVec F S70x60 .f32) (main_arg5 : FVec F S60 .f32) (main_arg6 : FVec F S60x50 .f32) (main_arg7 : FVec F S50 .f32) (main_arg8 : FVec F S50x60 .f32) (main_arg9 : FVec F S60 .f32) (main_arg10 : FVec F S60x70 .f32) (main_arg11 : FVec F S70 .f32) (main_arg12 : FVec F S70x88 .f32) (main_arg13 : FVec F S88 .f32) (main_arg14 : FVec F S70 .f32) (main_arg15 : FVec F S70 .f32) (main_arg16 : FVec F S60 .f32) (main_arg17 : FVec F S60 .f32) (main_arg18 : FVec F S60 .f32) (main_arg19 : FVec F S60 .f32) (main_arg20 : FVec F S70 .f32) (main_arg21 : FVec F S70 .f32) : IVec S_ 1 :=
  let main_v0 : FVec F S50000x88 .f32 := Host.absf main_arg0
  let main_cst : FVec F S_ .f32 := constant S_ .f32 0x7F800000#32
  let main_v1 : FVec F S50000x88 .f32 := broadcastInDim S50000x88 ![] bcast_S_S50000x88 main_cst
  let main_v2 : IVec S50000x88 1 := cmpf .olt main_v0 main_v1
  let main_c : IVec S_ 1 := constantI S_ 1 1#1
  let main_v3 : IVec S_ 1 := (fun x v => Host.reduce IntOp.andi x v reducesTo_S50000x88_S_d0_1 h_S_) main_v2 main_c
  let main_v4 : FVec F S88x70 .f32 := Host.absf main_arg2
  let main_cst_0 : FVec F S_ .f32 := constant S_ .f32 0x7F800000#32
  let main_v5 : FVec F S88x70 .f32 := broadcastInDim S88x70 ![] bcast_S_S88x70 main_cst_0
  let main_v6 : IVec S88x70 1 := cmpf .olt main_v4 main_v5
  let main_c_1 : IVec S_ 1 := constantI S_ 1 1#1
  let main_v7 : IVec S_ 1 := (fun x v => Host.reduce IntOp.andi x v reducesTo_S88x70_S_d0_1 h_S_) main_v6 main_c_1
  let main_v8 : IVec S_ 1 := andi main_v3 main_v7
  let main_v9 : FVec F S70 .f32 := Host.absf main_arg3
  let main_cst_2 : FVec F S_ .f32 := constant S_ .f32 0x7F800000#32
  let main_v10 : FVec F S70 .f32 := broadcastInDim S70 ![] bcast_S_S70 main_cst_2
  let main_v11 : IVec S70 1 := cmpf .olt main_v9 main_v10
  let main_c_3 : IVec S_ 1 := constantI S_ 1 1#1
  let main_v12 : IVec S_ 1 := (fun x v => Host.reduce IntOp.andi x v reducesTo_S70_S_d0 h_S_) main_v11 main_c_3
  let main_v13 : IVec S_ 1 := andi main_v8 main_v12
  let main_v14 : FVec F S70x60 .f32 := Host.absf main_arg4
  let main_cst_4 : FVec F S_ .f32 := constant S_ .f32 0x7F800000#32
  let main_v15 : FVec F S70x60 .f32 := broadcastInDim S70x60 ![] bcast_S_S70x60 main_cst_4
  let main_v16 : IVec S70x60 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x88 : Shape := ⟨2, ![50000, 88]⟩
abbrev S2x800000 : Shape := ⟨2, ![2, 800000]⟩
abbrev S88x70 : Shape := ⟨2, ![88, 70]⟩
abbrev S70 : Shape := ⟨1, ![70]⟩
abbrev S70x60 : Shape := ⟨2, ![70, 60]⟩
abbrev S60 : Shape := ⟨1, ![60]⟩
abbrev S60x50 : Shape := ⟨2, ![60, 50]⟩
abbrev S50 : Shape := ⟨1, ![50]⟩
abbrev S50x60 : Shape := ⟨2, ![50, 60]⟩
abbrev S60x70 : Shape := ⟨2, ![60, 70]⟩
abbrev S70x88 : Shape := ⟨2, ![70, 88]⟩
abbrev S88 : Shape := ⟨1, ![88]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x70 : Shape := ⟨2, ![50000, 70]⟩
abbrev S5000x88 : Shape := ⟨2, ![5000, 88]⟩
abbrev S5000x70 : Shape := ⟨2, ![5000, 70]⟩
abbrev S1 : Shape := ⟨1, ![1]⟩
abbrev S1x1 : Shape := ⟨2, ![1, 1]⟩
abbrev S850000x70 : Shape := ⟨2, ![850000, 70]⟩
abbrev S10000x70 : Shape := ⟨2, ![10000, 70]⟩
abbrev S10000x1 : Shape := ⟨2, ![10000, 1]⟩
abbrev S1x70 : Shape := ⟨2, ![1, 70]⟩
abbrev S50000x60 : Shape := ⟨2, ![50000, 60]⟩
abbrev S5000x60 : Shape := ⟨2, ![5000, 60]⟩
abbrev S850000x60 : Shape := ⟨2, ![850000, 60]⟩
abbrev S10000x60 : Shape := ⟨2, ![10000, 60]⟩
abbrev S1x60 : Shape := ⟨2, ![1, 60]⟩
abbrev S50000x50 : Shape := ⟨2, ![50000, 50]⟩
abbrev S5000x50 : Shape := ⟨2, ![5000, 50]⟩
abbrev S850000x50 : Shape := ⟨2, ![850000, 50]⟩
abbrev S10000x50 : Shape := ⟨2, ![10000, 50]⟩
abbrev S1x50 : Shape := ⟨2, ![1, 50]⟩
abbrev S850000x88 : Shape := ⟨2, ![850000, 88]⟩
abbrev S10000x88 : Shape := ⟨2, ![10000, 88]⟩
abbrev S1x88 : Shape := ⟨2, ![1, 88]⟩

abbrev nBuf : Space → Nat
  | .hbm => 346
  | .vmem => 128
  | .smem => 0
  | _ => 0

abbrev hbmTy0_0 (i : Nat) : BufTy := match i % 128 with
  | 0 => ⟨S50000x88, .f32⟩
  | 1 => ⟨S2x800000, .i32⟩
  | 2 => ⟨S88x70, .f32⟩
  | 3 => ⟨S70, .f32⟩
  | 4 => ⟨S70x60, .f32⟩
  | 5 => ⟨S60, .f32⟩
  | 6 => ⟨S60x50, .f32⟩
  | 7 => ⟨S50, .f32⟩
  | 8 => ⟨S50x60, .f32⟩
  | 9 => ⟨S60, .f32⟩
  | 10 => ⟨S60x70, .f32⟩
  | 11 => ⟨S70, .f32⟩
  | 12 => ⟨S70x88, .f32⟩
  | 13 => ⟨S88, .f32⟩
  | 14 => ⟨S70, .f32⟩
  | 15 => ⟨S70, .f32⟩
  | 16 => ⟨S60, .f32⟩
  | 17 => ⟨S60, .f32⟩
  | 18 => ⟨S60, .f32⟩
  | 19 => ⟨S60, .f32⟩
  | 20 => ⟨S70, .f32⟩
  | 21 => ⟨S70, .f32⟩
  | 22 => ⟨S50000, .i32⟩
  | 23 => ⟨S1x800000, .i32⟩
  | 24 => ⟨S800000, .i32⟩
  | 25 => ⟨S850000, .i32⟩
  | 26 => ⟨S1x800000, .i32⟩
  | 27 => ⟨S800000, .i32⟩
  | 28 => ⟨S850000, .i32⟩
  | 29 => ⟨S_, .f32⟩
  | 30 => ⟨S850000, .f32⟩
  | 31 => ⟨S_, .f32⟩
  | 32 => ⟨S50000, .f32⟩
  | 33 => ⟨S850000x1, .i32⟩
  | 34 => ⟨S50000, .f32⟩
  | 35 => ⟨S_, .f32⟩
  | 36 => ⟨S50000, .f32⟩
  | 37 => ⟨S50000, .i1⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S50000x70, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S1, .i32⟩
  | 72 => ⟨S_, .i32⟩
  | 73 => ⟨S850000x1, .i32⟩
  | 74 => ⟨S850000x1, .i1⟩
  | 75 => ⟨S1x1, .i32⟩
  | 76 => ⟨S850000x1, .i32⟩
  | 77 => ⟨S850000x1, .i1⟩
  | 78 => ⟨S850000x1, .i1⟩
  | 79 => ⟨S_, .i1⟩
  | 80 => ⟨S850000, .i1⟩
  | 81 => ⟨S850000x70, .f32⟩
  | 82 => ⟨S850000x70, .i1⟩
  | 83 => ⟨S_, .f32⟩
  | 84 => ⟨S850000x70, .f32⟩
  | 85 => ⟨S850000x70, .f32⟩
  | 86 => ⟨S850000x1, .f32⟩
  | 87 => ⟨S850000x70, .f32⟩
  | 88 => ⟨S_, .f32⟩
  | 89 => ⟨S50000x70, .f32⟩
  | 90 => ⟨S850000x1, .i32⟩
  | 91 => ⟨S50000x70, .f32⟩
  | 92 => ⟨S1x70, .f32⟩
  | 93 => ⟨S50000x70, .f32⟩
  | 94 => ⟨S_, .f32⟩
  | 95 => ⟨S70, .f32⟩
  | 96 => ⟨S_, .f32⟩
  | 97 => ⟨S70, .f32⟩
  | 98 => ⟨S70, .f32⟩
  | 99 => ⟨S1x70, .f32⟩
  | 100 => ⟨S50000x70, .f32⟩
  | 101 => ⟨S50000x70, .f32⟩
  | 102 => ⟨S50000x70, .f32⟩
  | 103 => ⟨S_, .f32⟩
  | 104 => ⟨S70, .f32⟩
  | 105 => ⟨S_, .f32⟩
  | 106 => ⟨S70, .f32⟩
  | 107 => ⟨S70, .f32⟩
  | 108 => ⟨S_, .f32⟩
  | 109 => ⟨S70, .f32⟩
  | 110 => ⟨S70, .f32⟩
  | 111 => ⟨S70, .f32⟩
  | 112 => ⟨S1x70, .f32⟩
  | 113 => ⟨S1x70, .f32⟩
  | 114 => ⟨S1x70, .f32⟩
  | 115 => ⟨S1x70, .f32⟩
  | 116 => ⟨S50000x70, .f32⟩
  | 117 => ⟨S50000x60, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S1, .i32⟩
  | 127 => ⟨S_, .i32⟩
  | _ => ⟨S50000x88, .f32⟩

abbrev hbmTy0_1 (i : Nat) : BufTy := match i % 128 with
  | 0 => ⟨S850000x1, .i32⟩
  | 1 => ⟨S850000x1, .i1⟩
  | 2 => ⟨S1x1, .i32⟩
  | 3 => ⟨S850000x1, .i32⟩
  | 4 => ⟨S850000x1, .i1⟩
  | 5 => ⟨S850000x1, .i1⟩
  | 6 => ⟨S_, .i1⟩
  | 7 => ⟨S850000, .i1⟩
  | 8 => ⟨S850000x60, .f32⟩
  | 9 => ⟨S850000x60, .i1⟩
  | 10 => ⟨S_, .f32⟩
  | 11 => ⟨S850000x60, .f32⟩
  | 12 => ⟨S850000x60, .f32⟩
  | 13 => ⟨S850000x1, .f32⟩
  | 14 => ⟨S850000x60, .f32⟩
  | 15 => ⟨S_, .f32⟩
  | 16 => ⟨S50000x60, .f32⟩
  | 17 => ⟨S850000x1, .i32⟩
  | 18 => ⟨S50000x60, .f32⟩
  | 19 => ⟨S1x60, .f32⟩
  | 20 => ⟨S50000x60, .f32⟩
  | 21 => ⟨S_, .f32⟩
  | 22 => ⟨S60, .f32⟩
  | 23 => ⟨S_, .f32⟩
  | 24 => ⟨S60, .f32⟩
  | 25 => ⟨S60, .f32⟩
  | 26 => ⟨S1x60, .f32⟩
  | 27 => ⟨S50000x60, .f32⟩
  | 28 => ⟨S50000x60, .f32⟩
  | 29 => ⟨S50000x60, .f32⟩
  | 30 => ⟨S_, .f32⟩
  | 31 => ⟨S60, .f32⟩
  | 32 => ⟨S_, .f32⟩
  | 33 => ⟨S60, .f32⟩
  | 34 => ⟨S60, .f32⟩
  | 35 => ⟨S_, .f32⟩
  | 36 => ⟨S60, .f32⟩
  | 37 => ⟨S60, .f32⟩
  | 38 => ⟨S60, .f32⟩
  | 39 => ⟨S1x60, .f32⟩
  | 40 => ⟨S1x60, .f32⟩
  | 41 => ⟨S1x60, .f32⟩
  | 42 => ⟨S1x60, .f32⟩
  | 43 => ⟨S50000x60, .f32⟩
  | 44 => ⟨S50000x50, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S1, .i32⟩
  | 54 => ⟨S_, .i32⟩
  | 55 => ⟨S850000x1, .i32⟩
  | 56 => ⟨S850000x1, .i1⟩
  | 57 => ⟨S1x1, .i32⟩
  | 58 => ⟨S850000x1, .i32⟩
  | 59 => ⟨S850000x1, .i1⟩
  | 60 => ⟨S850000x1, .i1⟩
  | 61 => ⟨S_, .i1⟩
  | 62 => ⟨S850000, .i1⟩
  | 63 => ⟨S850000x50, .f32⟩
  | 64 => ⟨S850000x50, .i1⟩
  | 65 => ⟨S_, .f32⟩
  | 66 => ⟨S850000x50, .f32⟩
  | 67 => ⟨S850000x50, .f32⟩
  | 68 => ⟨S850000x1, .f32⟩
  | 69 => ⟨S850000x50, .f32⟩
  | 70 => ⟨S_, .f32⟩
  | 71 => ⟨S50000x50, .f32⟩
  | 72 => ⟨S850000x1, .i32⟩
  | 73 => ⟨S50000x50, .f32⟩
  | 74 => ⟨S1x50, .f32⟩
  | 75 => ⟨S50000x50, .f32⟩
  | 76 => ⟨S50000x60, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S1, .i32⟩
  | 86 => ⟨S_, .i32⟩
  | 87 => ⟨S850000x1, .i32⟩
  | 88 => ⟨S850000x1, .i1⟩
  | 89 => ⟨S1x1, .i32⟩
  | 90 => ⟨S850000x1, .i32⟩
  | 91 => ⟨S850000x1, .i1⟩
  | 92 => ⟨S850000x1, .i1⟩
  | 93 => ⟨S_, .i1⟩
  | 94 => ⟨S850000, .i1⟩
  | 95 => ⟨S850000x60, .f32⟩
  | 96 => ⟨S850000x60, .i1⟩
  | 97 => ⟨S_, .f32⟩
  | 98 => ⟨S850000x60, .f32⟩
  | 99 => ⟨S850000x60, .f32⟩
  | 100 => ⟨S850000x1, .f32⟩
  | 101 => ⟨S850000x60, .f32⟩
  | 102 => ⟨S_, .f32⟩
  | 103 => ⟨S50000x60, .f32⟩
  | 104 => ⟨S850000x1, .i32⟩
  | 105 => ⟨S50000x60, .f32⟩
  | 106 => ⟨S1x60, .f32⟩
  | 107 => ⟨S50000x60, .f32⟩
  | 108 => ⟨S_, .f32⟩
  | 109 => ⟨S60, .f32⟩
  | 110 => ⟨S_, .f32⟩
  | 111 => ⟨S60, .f32⟩
  | 112 => ⟨S60, .f32⟩
  | 113 => ⟨S1x60, .f32⟩
  | 114 => ⟨S50000x60, .f32⟩
  | 115 => ⟨S50000x60, .f32⟩
  | 116 => ⟨S50000x60, .f32⟩
  | 117 => ⟨S_, .f32⟩
  | 118 => ⟨S60, .f32⟩
  | 119 => ⟨S_, .f32⟩
  | 120 => ⟨S60, .f32⟩
  | 121 => ⟨S60, .f32⟩
  | 122 => ⟨S_, .f32⟩
  | 123 => ⟨S60, .f32⟩
  | 124 => ⟨S60, .f32⟩
  | 125 => ⟨S60, .f32⟩
  | 126 => ⟨S1x60, .f32⟩
  | 127 => ⟨S1x60, .f32⟩
  | _ => ⟨S50000x88, .f32⟩

abbrev hbmTy0_2 (i : Nat) : BufTy := match i % 128 with
  | 0 => ⟨S1x60, .f32⟩
  | 1 => ⟨S1x60, .f32⟩
  | 2 => ⟨S50000x60, .f32⟩
  | 3 => ⟨S50000x70, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S1, .i32⟩
  | 13 => ⟨S_, .i32⟩
  | 14 => ⟨S850000x1, .i32⟩
  | 15 => ⟨S850000x1, .i1⟩
  | 16 => ⟨S1x1, .i32⟩
  | 17 => ⟨S850000x1, .i32⟩
  | 18 => ⟨S850000x1, .i1⟩
  | 19 => ⟨S850000x1, .i1⟩
  | 20 => ⟨S_, .i1⟩
  | 21 => ⟨S850000, .i1⟩
  | 22 => ⟨S850000x70, .f32⟩
  | 23 => ⟨S850000x70, .i1⟩
  | 24 => ⟨S_, .f32⟩
  | 25 => ⟨S850000x70, .f32⟩
  | 26 => ⟨S850000x70, .f32⟩
  | 27 => ⟨S850000x1, .f32⟩
  | 28 => ⟨S850000x70, .f32⟩
  | 29 => ⟨S_, .f32⟩
  | 30 => ⟨S50000x70, .f32⟩
  | 31 => ⟨S850000x1, .i32⟩
  | 32 => ⟨S50000x70, .f32⟩
  | 33 => ⟨S1x70, .f32⟩
  | 34 => ⟨S50000x70, .f32⟩
  | 35 => ⟨S_, .f32⟩
  | 36 => ⟨S70, .f32⟩
  | 37 => ⟨S_, .f32⟩
  | 38 => ⟨S70, .f32⟩
  | 39 => ⟨S70, .f32⟩
  | 40 => ⟨S1x70, .f32⟩
  | 41 => ⟨S50000x70, .f32⟩
  | 42 => ⟨S50000x70, .f32⟩
  | 43 => ⟨S50000x70, .f32⟩
  | 44 => ⟨S_, .f32⟩
  | 45 => ⟨S70, .f32⟩
  | 46 => ⟨S_, .f32⟩
  | 47 => ⟨S70, .f32⟩
  | 48 => ⟨S70, .f32⟩
  | 49 => ⟨S_, .f32⟩
  | 50 => ⟨S70, .f32⟩
  | 51 => ⟨S70, .f32⟩
  | 52 => ⟨S70, .f32⟩
  | 53 => ⟨S1x70, .f32⟩
  | 54 => ⟨S1x70, .f32⟩
  | 55 => ⟨S1x70, .f32⟩
  | 56 => ⟨S1x70, .f32⟩
  | 57 => ⟨S50000x70, .f32⟩
  | 58 => ⟨S50000x88, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S1, .i32⟩
  | 68 => ⟨S_, .i32⟩
  | 69 => ⟨S850000x1, .i32⟩
  | 70 => ⟨S850000x1, .i1⟩
  | 71 => ⟨S1x1, .i32⟩
  | 72 => ⟨S850000x1, .i32⟩
  | 73 => ⟨S850000x1, .i1⟩
  | 74 => ⟨S850000x1, .i1⟩
  | 75 => ⟨S_, .i1⟩
  | 76 => ⟨S850000, .i1⟩
  | 77 => ⟨S850000x88, .f32⟩
  | 78 => ⟨S850000x88, .i1⟩
  | 79 => ⟨S_, .f32⟩
  | 80 => ⟨S850000x88, .f32⟩
  | 81 => ⟨S850000x88, .f32⟩
  | 82 => ⟨S850000x1, .f32⟩
  | 83 => ⟨S850000x88, .f32⟩
  | 84 => ⟨S_, .f32⟩
  | 85 => ⟨S50000x88, .f32⟩
  | 86 => ⟨S850000x1, .i32⟩
  | 87 => ⟨S50000x88, .f32⟩
  | 88 => ⟨S1x88, .f32⟩
  | 89 => ⟨S50000x88, .f32⟩
  | _ => ⟨S50000x88, .f32⟩

abbrev hbmTy (i : Nat) : BufTy := match i / 128 with
  | 0 => hbmTy0_0 i
  | 1 => hbmTy0_1 i
  | 2 => hbmTy0_2 i
  | _ => ⟨S50000x88, .f32⟩

abbrev bufTy : (tb : Table) → Fin (tcTables nBuf tb) → BufTy
  | .hbm, ⟨i, _⟩ => hbmTy i
  | .local _ .vmem, ⟨0, _⟩ => ⟨S5000x88, .f32⟩
  | .local _ .vmem, ⟨1, _⟩ => ⟨S5000x88, .f32⟩
  | .local _ .vmem, ⟨2, _⟩ => ⟨S88x70, .f32⟩
  | .local _ .vmem, ⟨3, _⟩ => ⟨S5000x70, .f32⟩
  | .local _ .vmem, ⟨4, _⟩ => ⟨S5000x70, .f32⟩
  | .local _ .vmem, ⟨5, _⟩ => ⟨S10000x70, .f32⟩
  | .local _ .vmem, ⟨6, _⟩ => ⟨S10000x70, .f32⟩
  | .local _ .vmem, ⟨7, _⟩ => ⟨S10000x1, .f32⟩
  | .local _ .vmem, ⟨8, _⟩ => ⟨S10000x1, .f32⟩
  | .local _ .vmem, ⟨9, _⟩ => ⟨S10000x70, .f32⟩
  | .local _ .vmem, ⟨10, _⟩ => ⟨S10000x70, .f32⟩
  | .local _ .vmem, ⟨11, _⟩ => ⟨S5000x70, .f32⟩
  | .local _ .vmem, ⟨12, _⟩ => ⟨S5000x70, .f32⟩
  | .local _ .vmem, ⟨13, _⟩ => ⟨S1x70, .f32⟩
  | .local _ .vmem, ⟨14, _⟩ => ⟨S5000x70, .f32⟩
  | .local _ .vmem, ⟨15, _⟩ => ⟨S5000x70, .f32⟩
  | .local _ .vmem, ⟨16, _⟩ => ⟨S5000x70, .f32⟩
  | .local _ .vmem, ⟨17, _⟩ => ⟨S5000x70, .f32⟩
  | .local _ .vmem, ⟨18, _⟩ => ⟨S1x70, .f32⟩
  | .local _ .vmem, ⟨19, _⟩ => ⟨S1x70, .f32⟩
  | .local _ .vmem, ⟨20, _⟩ => ⟨S1x70, .f32⟩
  | .local _ .vmem, ⟨21, _⟩ => ⟨S1x70, .f32⟩
  | .local _ .vmem, ⟨22, _⟩ => ⟨S5000x70, .f32⟩
  | .local _ .vmem, ⟨23, _⟩ => ⟨S5000x70, .f32⟩
  | .local _ .vmem, ⟨24, _⟩ => ⟨S5000x70, .f32⟩
  | .local _ .vmem, ⟨25, _⟩ => ⟨S5000x70, .f32⟩
  | .local _ .vmem, ⟨26, _⟩ => ⟨S70x60, .f32⟩
  | .local _ .vmem, ⟨27, _⟩ => ⟨S5000x60, .f32⟩
  | .local _ .vmem, ⟨28, _⟩ => ⟨S5000x60, .f32⟩
  | .local _ .vmem, ⟨29, _⟩ => ⟨S10000x60, .f32⟩
  | .local _ .vmem, ⟨30, _⟩ => ⟨S10000x60, .f32⟩
  | .local _ .vmem, ⟨31, _⟩ => ⟨S10000x1, .f32⟩
  | .local _ .vmem, ⟨32, _⟩ => ⟨S10000x1, .f32⟩
  | .local _ .vmem, ⟨33, _⟩ => ⟨S10000x60, .f32⟩
  | .local _ .vmem, ⟨34, _⟩ => ⟨S10000x60, .f32⟩
  | .local _ .vmem, ⟨35, _⟩ => ⟨S5000x60, .f32⟩
  | .local _ .vmem, ⟨36, _⟩ => ⟨S5000x60, .f32⟩
  | .local _ .vmem, ⟨37, _⟩ => ⟨S1x60, .f32⟩
  | .local _ .vmem, ⟨38, _⟩ => ⟨S5000x60, .f32⟩
  | .local _ .vmem, ⟨39, _⟩ => ⟨S5000x60, .f32⟩
  | .local _ .vmem, ⟨40, _⟩ => ⟨S5000x60, .f32⟩
  | .local _ .vmem, ⟨41, _⟩ => ⟨S5000x60, .f32⟩
  | .local _ .vmem, ⟨42, _⟩ => ⟨S1x60, .f32⟩
  | .local _ .vmem, ⟨43, _⟩ => ⟨S1x60, .f32⟩
  | .local _ .vmem, ⟨44, _⟩ => ⟨S1x60, .f32⟩
  | .local _ .vmem, ⟨45, _⟩ => ⟨S1x60, .f32⟩
  | .local _ .vmem, ⟨46, _⟩ => ⟨S5000x60, .f32⟩
  | .local _ .vmem, ⟨47, _⟩ => ⟨S5000x60, .f32⟩
  | .local _ .vmem, ⟨48, _⟩ => ⟨S5000x60, .f32⟩
  | .local _ .vmem, ⟨49, _⟩ => ⟨S5000x60, .f32⟩
  | .local _ .vmem, ⟨50, _⟩ => ⟨S60x50, .f32⟩
  | .local _ .vmem, ⟨51, _⟩ => ⟨S5000x50, .f32⟩
  | .local _ .vmem, ⟨52, _⟩ => ⟨S5000x50, .f32⟩
  | .local _ .vmem, ⟨53, _⟩ => ⟨S10000x50, .f32⟩
  | .local _ .vmem, ⟨54, _⟩ => ⟨S10000x50, .f32⟩
  | .local _ .vmem, ⟨55, _⟩ => ⟨S10000x1, .f32⟩
  | .local _ .vmem, ⟨56, _⟩ => ⟨S10000x1, .f32⟩
  | .local _ .vmem, ⟨57, _⟩ => ⟨S10000x50, .f32⟩
  | .local _ .vmem, ⟨58, _⟩ => ⟨S10000x50, .f32⟩
  | .local _ .vmem, ⟨59, _⟩ => ⟨S5000x50, .f32⟩
  | .local _ .vmem, ⟨60, _⟩ => ⟨S5000x50, .f32⟩
  | .local _ .vmem, ⟨61, _⟩ => ⟨S1x50, .f32⟩
  | .local _ .vmem, ⟨62, _⟩ => ⟨S5000x50, .f32⟩
  | .local _ .vmem, ⟨63, _⟩ => ⟨S5000x50, .f32⟩
  | .local _ .vmem, ⟨64, _⟩ => ⟨S5000x50, .f32⟩
  | .local _ .vmem, ⟨65, _⟩ => ⟨S5000x50, .f32⟩
  | .local _ .vmem, ⟨66, _⟩ => ⟨S50x60, .f32⟩
  | .local _ .vmem, ⟨67, _⟩ => ⟨S5000x60, .f32⟩
  | .local _ .vmem, ⟨68, _⟩ => ⟨S5000x60, .f32⟩
  | .local _ .vmem, ⟨69, _⟩ => ⟨S10000x60, .f32⟩
  | .local _ .vmem, ⟨70, _⟩ => ⟨S10000x60, .f32⟩
  | .local _ .vmem, ⟨71, _⟩ => ⟨S10000x1, .f32⟩
  | .local _ .vmem, ⟨72, _⟩ => ⟨S10000x1, .f32⟩
  | .local _ .vmem, ⟨73, _⟩ => ⟨S10000x60, .f32⟩
  | .local _ .vmem, ⟨74, _⟩ => ⟨S10000x60, .f32⟩
  | .local _ .vmem, ⟨75, _⟩ => ⟨S5000x60, .f32⟩
  | .local _ .vmem, ⟨76, _⟩ => ⟨S5000x60, .f32⟩
  | .local _ .vmem, ⟨77, _⟩ => ⟨S1x60, .f32⟩
  | .local _ .vmem, ⟨78, _⟩ => ⟨S5000x60, .f32⟩
  | .local _ .vmem, ⟨79, _⟩ => ⟨S5000x60, .f32⟩
  | .local _ .vmem, ⟨80, _⟩ => ⟨S5000x60, .f32⟩
  | .local _ .vmem, ⟨81, _⟩ => ⟨S5000x60, .f32⟩
  | .local _ .vmem, ⟨82, _⟩ => ⟨S1x60, .f32⟩
  | .local _ .vmem, ⟨83, _⟩ => ⟨S1x60, .f32⟩
  | .local _ .vmem, ⟨84, _⟩ => ⟨S1x60, .f32⟩
  | .local _ .vmem, ⟨85, _⟩ => ⟨S1x60, .f32⟩
  | .local _ .vmem, ⟨86, _⟩ => ⟨S5000x60, .f32⟩
  | .local _ .vmem, ⟨87, _⟩ => ⟨S5000x60, .f32⟩
  | .local _ .vmem, ⟨88, _⟩ => ⟨S5000x60, .f32⟩
  | .local _ .vmem, ⟨89, _⟩ => ⟨S5000x60, .f32⟩
  | .local _ .vmem, ⟨90, _⟩ => ⟨S60x70, .f32⟩
  | .local _ .vmem, ⟨91, _⟩ => ⟨S5000x70, .f32⟩
  | .local _ .vmem, ⟨92, _⟩ => ⟨S5000x70, .f32⟩
  | .local _ .vmem, ⟨93, _⟩ => ⟨S10000x70, .f32⟩
  | .local _ .vmem, ⟨94, _⟩ => ⟨S10000x70, .f32⟩
  | .local _ .vmem, ⟨95, _⟩ => ⟨S10000x1, .f32⟩
  | .local _ .vmem, ⟨96, _⟩ => ⟨S10000x1, .f32⟩
  | .local _ .vmem, ⟨97, _⟩ => ⟨S10000x70, .f32⟩
  | .local _ .vmem, ⟨98, _⟩ => ⟨S10000x70, .f32⟩
  | .local _ .vmem, ⟨99, _⟩ => ⟨S5000x70, .f32⟩
  | .local _ .vmem, ⟨100, _⟩ => ⟨S5000x70, .f32⟩
  | .local _ .vmem, ⟨101, _⟩ => ⟨S1x70, .f32⟩
  | .local _ .vmem, ⟨102, _⟩ => ⟨S5000x70, .f32⟩
  | .local _ .vmem, ⟨103, _⟩ => ⟨S5000x70, .f32⟩
  | .local _ .vmem, ⟨104, _⟩ => ⟨S5000x70, .f32⟩
  | .local _ .vmem, ⟨105, _⟩ => ⟨S5000x70, .f32⟩
  | .local _ .vmem, ⟨106, _⟩ => ⟨S1x70, .f32⟩
  | .local _ .vmem, ⟨107, _⟩ => ⟨S1x70, .f32⟩
  | .local _ .vmem, ⟨108, _⟩ => ⟨S1x70, .f32⟩
  | .local _ .vmem, ⟨109, _⟩ => ⟨S1x70, .f32⟩
  | .local _ .vmem, ⟨110, _⟩ => ⟨S5000x70, .f32⟩
  | .local _ .vmem, ⟨111, _⟩ => ⟨S5000x70, .f32⟩
  | .local _ .vmem, ⟨112, _⟩ => ⟨S5000x70, .f32⟩
  | .local _ .vmem, ⟨113, _⟩ => ⟨S5000x70, .f32⟩
  | .local _ .vmem, ⟨114, _⟩ => ⟨S70x88, .f32⟩
  | .local _ .vmem, ⟨115, _⟩ => ⟨S5000x88, .f32⟩
  | .local _ .vmem, ⟨116, _⟩ => ⟨S5000x88, .f32⟩
  | .local _ .vmem, ⟨117, _⟩ => ⟨S10000x88, .f32⟩
  | .local _ .vmem, ⟨118, _⟩ => ⟨S10000x88, .f32⟩
  | .local _ .vmem, ⟨119, _⟩ => ⟨S10000x1, .f32⟩
  | .local _ .vmem, ⟨120, _⟩ => ⟨S10000x1, .f32⟩
  | .local _ .vmem, ⟨121, _⟩ => ⟨S10000x88, .f32⟩
  | .local _ .vmem, ⟨122, _⟩ => ⟨S10000x88, .f32⟩
  | .local _ .vmem, ⟨123, _⟩ => ⟨S5000x88, .f32⟩
  | .local _ .vmem, ⟨124, _⟩ => ⟨S5000x88, .f32⟩
  | .local _ .vmem, ⟨125, _⟩ => ⟨S1x88, .f32⟩
  | .local _ .vmem, ⟨126, _⟩ => ⟨S5000x88, .f32⟩
  | .local _ .vmem, ⟨127, _⟩ => ⟨S5000x88, .f32⟩
  | _, _ => ⟨S50000x88, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst_6 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_cst_7 : Ref sig .tc := ⟨.hbm, 94, rfl⟩
abbrev main_v39 : Ref sig .tc := ⟨.hbm, 95, rfl⟩
abbrev main_cst_8 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_9 : Ref sig .tc := ⟨.hbm, 103, rfl⟩
abbrev main_v46 : Ref sig .tc := ⟨.hbm, 104, rfl⟩
abbrev main_cst_10 : Ref sig .tc := ⟨.hbm, 105, rfl⟩
abbrev main_v47 : Ref sig .tc := ⟨.hbm, 106, rfl⟩
abbrev main_v48 : Ref sig .tc := ⟨.hbm, 107, rfl⟩
abbrev main_cst_11 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_call2_c : Ref sig .tc := ⟨.hbm, 118, rfl⟩
abbrev main_call2_v0 : Ref sig .tc := ⟨.hbm, 119, rfl⟩
abbrev main_call2_v1 : Ref sig .tc := ⟨.hbm, 120, rfl⟩
abbrev main_call2_c_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_c_1 : Ref sig .tc := ⟨.hbm, 126, rfl⟩
abbrev main_call2_c_2 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_3 : Ref sig .tc := ⟨.hbm, 134, rfl⟩
abbrev main_call2_v12 : Ref sig .tc := ⟨.hbm, 135, rfl⟩
abbrev main_call2_v13 : Ref sig .tc := ⟨.hbm, 136, rfl⟩
abbrev main_call2_v14 : Ref sig .tc := ⟨.hbm, 137, rfl⟩
abbrev main_call2_cst : Ref sig .tc := ⟨.hbm, 138, rfl⟩
abbrev main_call2_v15 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_cst_12 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_cst_13 : Ref sig .tc := ⟨.hbm, 149, rfl⟩
abbrev main_v66 : Ref sig .tc := ⟨.hbm, 150, rfl⟩
abbrev main_cst_14 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_cst_15 : Ref sig .tc := ⟨.hbm, 158, rfl⟩
abbrev main_v73 : Ref sig .tc := ⟨.hbm, 159, rfl⟩
abbrev main_cst_16 : Ref sig .tc := ⟨.hbm, 160, rfl⟩
abbrev main_v74 : Ref sig .tc := ⟨.hbm, 161, rfl⟩
abbrev main_v75 : Ref sig .tc := ⟨.hbm, 162, rfl⟩
abbrev main_cst_17 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_call3_c : Ref sig .tc := ⟨.hbm, 173, rfl⟩
abbrev main_call3_v0 : Ref sig .tc := ⟨.hbm, 174, rfl⟩
abbrev main_call3_v1 : Ref sig .tc := ⟨.hbm, 175, rfl⟩
abbrev main_call3_c_0 : Ref sig .tc := ⟨.hbm, 176, rfl⟩
abbrev main_call3_v2 : Ref sig .tc := ⟨.hbm, 177, rfl⟩
abbrev main_call3_v3 : Ref sig .tc := ⟨.hbm, 178, rfl⟩
abbrev main_call3_v4 : Ref sig .tc := ⟨.hbm, 179, rfl⟩
abbrev main_call3_v5 : Ref sig .tc := ⟨.hbm, 180, rfl⟩
abbrev main_call3_c_1 : Ref sig .tc := ⟨.hbm, 181, rfl⟩
abbrev main_call3_c_2 : Ref sig .tc := ⟨.hbm, 182, rfl⟩
abbrev main_call3_v6 : Ref sig .tc := ⟨.hbm, 183, rfl⟩
abbrev main_call3_v7 : Ref sig .tc := ⟨.hbm, 184, rfl⟩
abbrev main_call3_v8 : Ref sig .tc := ⟨.hbm, 185, rfl⟩
abbrev main_call3_v9 : Ref sig .tc := ⟨.hbm, 186, rfl⟩
abbrev main_call3_v10 : Ref sig .tc := ⟨.hbm, 187, rfl⟩
abbrev main_call3_v11 : Ref sig .tc := ⟨.hbm, 188, rfl⟩
abbrev main_call3_c_3 : Ref sig .tc := ⟨.hbm, 189, rfl⟩
abbrev main_call3_v12 : Ref sig .tc := ⟨.hbm, 190, rfl⟩
abbrev main_call3_v13 : Ref sig .tc := ⟨.hbm, 191, rfl⟩
abbrev main_call3_v14 : Ref sig .tc := ⟨.hbm, 192, rfl⟩
abbrev main_call3_cst : Ref sig .tc := ⟨.hbm, 193, rfl⟩
abbrev main_call3_v15 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_cst_18 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_call4_c : Ref sig .tc := ⟨.hbm, 205, rfl⟩
abbrev main_call4_v0 : Ref sig .tc := ⟨.hbm, 206, rfl⟩
abbrev main_call4_v1 : Ref sig .tc := ⟨.hbm, 207, rfl⟩
abbrev main_call4_c_0 : Ref sig .tc := ⟨.hbm, 208, rfl⟩
abbrev main_call4_v2 : Ref sig .tc := ⟨.hbm, 209, rfl⟩
abbrev main_call4_v3 : Ref sig .tc := ⟨.hbm, 210, rfl⟩
abbrev main_call4_v4 : Ref sig .tc := ⟨.hbm, 211, rfl⟩
abbrev main_call4_v5 : Ref sig .tc := ⟨.hbm, 212, rfl⟩
abbrev main_call4_c_1 : Ref sig .tc := ⟨.hbm, 213, rfl⟩
abbrev main_call4_c_2 : Ref sig .tc := ⟨.hbm, 214, rfl⟩
abbrev main_call4_v6 : Ref sig .tc := ⟨.hbm, 215, rfl⟩
abbrev main_call4_v7 : Ref sig .tc := ⟨.hbm, 216, rfl⟩
abbrev main_call4_v8 : Ref sig .tc := ⟨.hbm, 217, rfl⟩
abbrev main_call4_v9 : Ref sig .tc := ⟨.hbm, 218, rfl⟩
abbrev main_call4_v10 : Ref sig .tc := ⟨.hbm, 219, rfl⟩
abbrev main_call4_v11 : Ref sig .tc := ⟨.hbm, 220, rfl⟩
abbrev main_call4_c_3 : Ref sig .tc := ⟨.hbm, 221, rfl⟩
abbrev main_call4_v12 : Ref sig .tc := ⟨.hbm, 222, rfl⟩
abbrev main_call4_v13 : Ref sig .tc := ⟨.hbm, 223, rfl⟩
abbrev main_call4_v14 : Ref sig .tc := ⟨.hbm, 224, rfl⟩
abbrev main_call4_cst : Ref sig .tc := ⟨.hbm, 225, rfl⟩
abbrev main_call4_v15 : Ref sig .tc := ⟨.hbm, 226, rfl⟩
abbrev main_v94 : Ref sig .tc := ⟨.hbm, 227, rfl⟩
abbrev main_v95 : Ref sig .tc := ⟨.hbm, 228, rfl⟩
abbrev main_v96 : Ref sig .tc := ⟨.hbm, 229, rfl⟩
abbrev main_cst_19 : Ref sig .tc := ⟨.hbm, 230, rfl⟩
abbrev main_v97 : Ref sig .tc := ⟨.hbm, 231, rfl⟩
abbrev main_v98 : Ref sig .tc := ⟨.hbm, 232, rfl⟩
abbrev main_v99 : Ref sig .tc := ⟨.hbm, 233, rfl⟩
abbrev main_v100 : Ref sig .tc := ⟨.hbm, 234, rfl⟩
abbrev main_v101 : Ref sig .tc := ⟨.hbm, 235, rfl⟩
abbrev main_cst_20 : Ref sig .tc := ⟨.hbm, 236, rfl⟩
abbrev main_v102 : Ref sig .tc := ⟨.hbm, 237, rfl⟩
abbrev main_cst_21 : Ref sig .tc := ⟨.hbm, 238, rfl⟩
abbrev main_v103 : Ref sig .tc := ⟨.hbm, 239, rfl⟩
abbrev main_v104 : Ref sig .tc := ⟨.hbm, 240, rfl⟩
abbrev main_v105 : Ref sig .tc := ⟨.hbm, 241, rfl⟩
abbrev main_v106 : Ref sig .tc := ⟨.hbm, 242, rfl⟩
abbrev main_v107 : Ref sig .tc := ⟨.hbm, 243, rfl⟩
abbrev main_v108 : Ref sig .tc := ⟨.hbm, 244, rfl⟩
abbrev main_cst_22 : Ref sig .tc := ⟨.hbm, 245, rfl⟩
abbrev main_v109 : Ref sig .tc := ⟨.hbm, 246, rfl⟩
abbrev main_cst_23 : Ref sig .tc := ⟨.hbm, 247, rfl⟩
abbrev main_v110 : Ref sig .tc := ⟨.hbm, 248, rfl⟩
abbrev main_v111 : Ref sig .tc := ⟨.hbm, 249, rfl⟩
abbrev main_cst_24 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_v116 : Ref sig .tc := ⟨.hbm, 255, rfl⟩
abbrev main_v117 : Ref sig .tc := ⟨.hbm, 256, rfl⟩
abbrev main_v118 : Ref sig .tc := ⟨.hbm, 257, rfl⟩
abbrev main_v119 : Ref sig .tc := ⟨.hbm, 258, rfl⟩
abbrev main_v120 : Ref sig .tc := ⟨.hbm, 259, rfl⟩
abbrev main_call5_c : Ref sig .tc := ⟨.hbm, 260, rfl⟩
abbrev main_call5_v0 : Ref sig .tc := ⟨.hbm, 261, rfl⟩
abbrev main_call5_v1 : Ref sig .tc := ⟨.hbm, 262, rfl⟩
abbrev main_call5_c_0 : Ref sig .tc := ⟨.hbm, 263, rfl⟩
abbrev main_call5_v2 : Ref sig .tc := ⟨.hbm, 264, rfl⟩
abbrev main_call5_v3 : Ref sig .tc := ⟨.hbm, 265, rfl⟩
abbrev main_call5_v4 : Ref sig .tc := ⟨.hbm, 266, rfl⟩
abbrev main_call5_v5 : Ref sig .tc := ⟨.hbm, 267, rfl⟩
abbrev main_call5_c_1 : Ref sig .tc := ⟨.hbm, 268, rfl⟩
abbrev main_call5_c_2 : Ref sig .tc := ⟨.hbm, 269, rfl⟩
abbrev main_call5_v6 : Ref sig .tc := ⟨.hbm, 270, rfl⟩
abbrev main_call5_v7 : Ref sig .tc := ⟨.hbm, 271, rfl⟩
abbrev main_call5_v8 : Ref sig .tc := ⟨.hbm, 272, rfl⟩
abbrev main_call5_v9 : Ref sig .tc := ⟨.hbm, 273, rfl⟩
abbrev main_call5_v10 : Ref sig .tc := ⟨.hbm, 274, rfl⟩
abbrev main_call5_v11 : Ref sig .tc := ⟨.hbm, 275, rfl⟩
abbrev main_call5_c_3 : Ref sig .tc := ⟨.hbm, 276, rfl⟩
abbrev main_call5_v12 : Ref sig .tc := ⟨.hbm, 277, rfl⟩
abbrev main_call5_v13 : Ref sig .tc := ⟨.hbm, 278, rfl⟩
abbrev main_call5_v14 : Ref sig .tc := ⟨.hbm, 279, rfl⟩
abbrev main_call5_cst : Ref sig .tc := ⟨.hbm, 280, rfl⟩
abbrev main_call5_v15 : Ref sig .tc := ⟨.hbm, 281, rfl⟩
abbrev main_v121 : Ref sig .tc := ⟨.hbm, 282, rfl⟩
abbrev main_v122 : Ref sig .tc := ⟨.hbm, 283, rfl⟩
abbrev main_v123 : Ref sig .tc := ⟨.hbm, 284, rfl⟩
abbrev main_cst_25 : Ref sig .tc := ⟨.hbm, 285, rfl⟩
abbrev main_v124 : Ref sig .tc := ⟨.hbm, 286, rfl⟩
abbrev main_v125 : Ref sig .tc := ⟨.hbm, 287, rfl⟩
abbrev main_v126 : Ref sig .tc := ⟨.hbm, 288, rfl⟩
abbrev main_v127 : Ref sig .tc := ⟨.hbm, 289, rfl⟩
abbrev main_v128 : Ref sig .tc := ⟨.hbm, 290, rfl⟩
abbrev main_cst_26 : Ref sig .tc := ⟨.hbm, 291, rfl⟩
abbrev main_v129 : Ref sig .tc := ⟨.hbm, 292, rfl⟩
abbrev main_cst_27 : Ref sig .tc := ⟨.hbm, 293, rfl⟩
abbrev main_v130 : Ref sig .tc := ⟨.hbm, 294, rfl⟩
abbrev main_v131 : Ref sig .tc := ⟨.hbm, 295, rfl⟩
abbrev main_v132 : Ref sig .tc := ⟨.hbm, 296, rfl⟩
abbrev main_v133 : Ref sig .tc := ⟨.hbm, 297, rfl⟩
abbrev main_v134 : Ref sig .tc := ⟨.hbm, 298, rfl⟩
abbrev main_v135 : Ref sig .tc := ⟨.hbm, 299, rfl⟩
abbrev main_cst_28 : Ref sig .tc := ⟨.hbm, 300, rfl⟩
abbrev main_v136 : Ref sig .tc := ⟨.hbm, 301, rfl⟩
abbrev main_cst_29 : Ref sig .tc := ⟨.hbm, 302, rfl⟩
abbrev main_v137 : Ref sig .tc := ⟨.hbm, 303, rfl⟩
abbrev main_v138 : Ref sig .tc := ⟨.hbm, 304, rfl⟩
abbrev main_cst_30 : Ref sig .tc := ⟨.hbm, 305, rfl⟩
abbrev main_v139 : Ref sig .tc := ⟨.hbm, 306, rfl⟩
abbrev main_v140 : Ref sig .tc := ⟨.hbm, 307, rfl⟩
abbrev main_v141 : Ref sig .tc := ⟨.hbm, 308, rfl⟩
abbrev main_v142 : Ref sig .tc := ⟨.hbm, 309, rfl⟩
abbrev main_v143 : Ref sig .tc := ⟨.hbm, 310, rfl⟩
abbrev main_v144 : Ref sig .tc := ⟨.hbm, 311, rfl⟩
abbrev main_v145 : Ref sig .tc := ⟨.hbm, 312, rfl⟩
abbrev main_v146 : Ref sig .tc := ⟨.hbm, 313, rfl⟩
abbrev main_v147 : Ref sig .tc := ⟨.hbm, 314, rfl⟩
abbrev main_call6_c : Ref sig .tc := ⟨.hbm, 315, rfl⟩
abbrev main_call6_v0 : Ref sig .tc := ⟨.hbm, 316, rfl⟩
abbrev main_call6_v1 : Ref sig .tc := ⟨.hbm, 317, rfl⟩
abbrev main_call6_c_0 : Ref sig .tc := ⟨.hbm, 318, rfl⟩
abbrev main_call6_v2 : Ref sig .tc := ⟨.hbm, 319, rfl⟩
abbrev main_call6_v3 : Ref sig .tc := ⟨.hbm, 320, rfl⟩
abbrev main_call6_v4 : Ref sig .tc := ⟨.hbm, 321, rfl⟩
abbrev main_call6_v5 : Ref sig .tc := ⟨.hbm, 322, rfl⟩
abbrev main_call6_c_1 : Ref sig .tc := ⟨.hbm, 323, rfl⟩
abbrev main_call6_c_2 : Ref sig .tc := ⟨.hbm, 324, rfl⟩
abbrev main_call6_v6 : Ref sig .tc := ⟨.hbm, 325, rfl⟩
abbrev main_call6_v7 : Ref sig .tc := ⟨.hbm, 326, rfl⟩
abbrev main_call6_v8 : Ref sig .tc := ⟨.hbm, 327, rfl⟩
abbrev main_call6_v9 : Ref sig .tc := ⟨.hbm, 328, rfl⟩
abbrev main_call6_v10 : Ref sig .tc := ⟨.hbm, 329, rfl⟩
abbrev main_call6_v11 : Ref sig .tc := ⟨.hbm, 330, rfl⟩
abbrev main_call6_c_3 : Ref sig .tc := ⟨.hbm, 331, rfl⟩
abbrev main_call6_v12 : Ref sig .tc := ⟨.hbm, 332, rfl⟩
abbrev main_call6_v13 : Ref sig .tc := ⟨.hbm, 333, rfl⟩
abbrev main_call6_v14 : Ref sig .tc := ⟨.hbm, 334, rfl⟩
abbrev main_call6_cst : Ref sig .tc := ⟨.hbm, 335, rfl⟩
abbrev main_call6_v15 : Ref sig .tc := ⟨.hbm, 336, rfl⟩
abbrev main_v148 : Ref sig .tc := ⟨.hbm, 337, rfl⟩
abbrev main_v149 : Ref sig .tc := ⟨.hbm, 338, rfl⟩
abbrev main_v150 : Ref sig .tc := ⟨.hbm, 339, rfl⟩
abbrev main_cst_31 : Ref sig .tc := ⟨.hbm, 340, rfl⟩
abbrev main_v151 : Ref sig .tc := ⟨.hbm, 341, rfl⟩
abbrev main_v152 : Ref sig .tc := ⟨.hbm, 342, rfl⟩
abbrev main_v153 : Ref sig .tc := ⟨.hbm, 343, rfl⟩
abbrev main_v154 : Ref sig .tc := ⟨.hbm, 344, rfl⟩
abbrev main_v155 : Ref sig .tc := ⟨.hbm, 345, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg5_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg3_0 : Ref sig .tc := ⟨.vmem, 44, rfl⟩
abbrev cc7_stg4_0 : Ref sig .tc := ⟨.vmem, 45, rfl⟩
abbrev cc7_stg5_0 : Ref sig .tc := ⟨.vmem, 46, rfl⟩
abbrev cc7_stg5_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg1_1 : Ref sig .tc := ⟨.vmem, 56, rfl⟩
abbrev cc9_stg2_0 : Ref sig .tc := ⟨.vmem, 57, rfl⟩
abbrev cc9_stg2_1 : Ref sig .tc := ⟨.vmem, 58, rfl⟩
abbrev cc10_stg0_0 : Ref sig .tc := ⟨.vmem, 59, rfl⟩
abbrev cc10_stg0_1 : Ref sig .tc := ⟨.vmem, 60, rfl⟩
abbrev cc10_stg1_0 : Ref sig .tc := ⟨.vmem, 61, rfl⟩
abbrev cc10_stg2_0 : Ref sig .tc := ⟨.vmem, 62, rfl⟩
abbrev cc10_stg2_1 : Ref sig .tc := ⟨.vmem, 63, rfl⟩
abbrev cc11_stg0_0 : Ref sig .tc := ⟨.vmem, 64, rfl⟩
abbrev cc11_stg0_1 : Ref sig .tc := ⟨.vmem, 65, rfl⟩
abbrev cc11_stg1_0 : Ref sig .tc := ⟨.vmem, 66, rfl⟩
abbrev cc11_stg2_0 : Ref sig .tc := ⟨.vmem, 67, rfl⟩
abbrev cc11_stg2_1 : Ref sig .tc := ⟨.vmem, 68, rfl⟩
abbrev cc12_stg0_0 : Ref sig .tc := ⟨.vmem, 69, rfl⟩
abbrev cc12_stg0_1 : Ref sig .tc := ⟨.vmem, 70, rfl⟩
abbrev cc12_stg1_0 : Ref sig .tc := ⟨.vmem, 71, rfl⟩
abbrev cc12_stg1_1 : Ref sig .tc := ⟨.vmem, 72, rfl⟩
abbrev cc12_stg2_0 : Ref sig .tc := ⟨.vmem, 73, rfl⟩
abbrev cc12_stg2_1 : Ref sig .tc := ⟨.vmem, 74, rfl⟩
abbrev cc13_stg0_0 : Ref sig .tc := ⟨.vmem, 75, rfl⟩
abbrev cc13_stg0_1 : Ref sig .tc := ⟨.vmem, 76, rfl⟩
abbrev cc13_stg1_0 : Ref sig .tc := ⟨.vmem, 77, rfl⟩
abbrev cc13_stg2_0 : Ref sig .tc := ⟨.vmem, 78, rfl⟩
abbrev cc13_stg2_1 : Ref sig .tc := ⟨.vmem, 79, rfl⟩
abbrev cc14_stg0_0 : Ref sig .tc := ⟨.vmem, 80, rfl⟩
abbrev cc14_stg0_1 : Ref sig .tc := ⟨.vmem, 81, rfl⟩
abbrev cc14_stg1_0 : Ref sig .tc := ⟨.vmem, 82, rfl⟩
abbrev cc14_stg2_0 : Ref sig .tc := ⟨.vmem, 83, rfl⟩
abbrev cc14_stg3_0 : Ref sig .tc := ⟨.vmem, 84, rfl⟩
abbrev cc14_stg4_0 : Ref sig .tc := ⟨.vmem, 85, rfl⟩
abbrev cc14_stg5_0 : Ref sig .tc := ⟨.vmem, 86, rfl⟩
abbrev cc14_stg5_1 : Ref sig .tc := ⟨.vmem, 87, rfl⟩
abbrev cc15_stg0_0 : Ref sig .tc := ⟨.vmem, 88, rfl⟩
abbrev cc15_stg0_1 : Ref sig .tc := ⟨.vmem, 89, rfl⟩
abbrev cc15_stg1_0 : Ref sig .tc := ⟨.vmem, 90, rfl⟩
abbrev cc15_stg2_0 : Ref sig .tc := ⟨.vmem, 91, rfl⟩
abbrev cc15_stg2_1 : Ref sig .tc := ⟨.vmem, 92, rfl⟩
abbrev cc16_stg0_0 : Ref sig .tc := ⟨.vmem, 93, rfl⟩
abbrev cc16_stg0_1 : Ref sig .tc := ⟨.vmem, 94, rfl⟩
abbrev cc16_stg1_0 : Ref sig .tc := ⟨.vmem, 95, rfl⟩
abbrev cc16_stg1_1 : Ref sig .tc := ⟨.vmem, 96, rfl⟩
abbrev cc16_stg2_0 : Ref sig .tc := ⟨.vmem, 97, rfl⟩
abbrev cc16_stg2_1 : Ref sig .tc := ⟨.vmem, 98, rfl⟩
abbrev cc17_stg0_0 : Ref sig .tc := ⟨.vmem, 99, rfl⟩
abbrev cc17_stg0_1 : Ref sig .tc := ⟨.vmem, 100, rfl⟩
abbrev cc17_stg1_0 : Ref sig .tc := ⟨.vmem, 101, rfl⟩
abbrev cc17_stg2_0 : Ref sig .tc := ⟨.vmem, 102, rfl⟩
abbrev cc17_stg2_1 : Ref sig .tc := ⟨.vmem, 103, rfl⟩
abbrev cc18_stg0_0 : Ref sig .tc := ⟨.vmem, 104, rfl⟩
abbrev cc18_stg0_1 : Ref sig .tc := ⟨.vmem, 105, rfl⟩
abbrev cc18_stg1_0 : Ref sig .tc := ⟨.vmem, 106, rfl⟩
abbrev cc18_stg2_0 : Ref sig .tc := ⟨.vmem, 107, rfl⟩
abbrev cc18_stg3_0 : Ref sig .tc := ⟨.vmem, 108, rfl⟩
abbrev cc18_stg4_0 : Ref sig .tc := ⟨.vmem, 109, rfl⟩
abbrev cc18_stg5_0 : Ref sig .tc := ⟨.vmem, 110, rfl⟩
abbrev cc18_stg5_1 : Ref sig .tc := ⟨.vmem, 111, rfl⟩
abbrev cc19_stg0_0 : Ref sig .tc := ⟨.vmem, 112, rfl⟩
abbrev cc19_stg0_1 : Ref sig .tc := ⟨.vmem, 113, rfl⟩
abbrev cc19_stg1_0 : Ref sig .tc := ⟨.vmem, 114, rfl⟩
abbrev cc19_stg2_0 : Ref sig .tc := ⟨.vmem, 115, rfl⟩
abbrev cc19_stg2_1 : Ref sig .tc := ⟨.vmem, 116, rfl⟩
abbrev cc20_stg0_0 : Ref sig .tc := ⟨.vmem, 117, rfl⟩
abbrev cc20_stg0_1 : Ref sig .tc := ⟨.vmem, 118, rfl⟩
abbrev cc20_stg1_0 : Ref sig .tc := ⟨.vmem, 119, rfl⟩
abbrev cc20_stg1_1 : Ref sig .tc := ⟨.vmem, 120, rfl⟩
abbrev cc20_stg2_0 : Ref sig .tc := ⟨.vmem, 121, rfl⟩
abbrev cc20_stg2_1 : Ref sig .tc := ⟨.vmem, 122, rfl⟩
abbrev cc21_stg0_0 : Ref sig .tc := ⟨.vmem, 123, rfl⟩
abbrev cc21_stg0_1 : Ref sig .tc := ⟨.vmem, 124, rfl⟩
abbrev cc21_stg1_0 : Ref sig .tc := ⟨.vmem, 125, rfl⟩
abbrev cc21_stg2_0 : Ref sig .tc := ⟨.vmem, 126, rfl⟩
abbrev cc21_stg2_1 : Ref sig .tc := ⟨.vmem, 127, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem5_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem3_0 : DmaSem sig := 44
abbrev cc7_sem4_0 : DmaSem sig := 45
abbrev cc7_sem5_0 : DmaSem sig := 46
abbrev cc7_sem5_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem1_1 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem2_0 : DmaSem sig := 62
abbrev cc10_sem2_1 : DmaSem sig := 63
abbrev cc11_sem0_0 : DmaSem sig := 64
abbrev cc11_sem0_1 : DmaSem sig := 65
abbrev cc11_sem1_0 : DmaSem sig := 66
abbrev cc11_sem2_0 : DmaSem sig := 67
abbrev cc11_sem2_1 : DmaSem sig := 68
abbrev cc12_sem0_0 : DmaSem sig := 69
abbrev cc12_sem0_1 : DmaSem sig := 70
abbrev cc12_sem1_0 : DmaSem sig := 71
abbrev cc12_sem1_1 : DmaSem sig := 72
abbrev cc12_sem2_0 : DmaSem sig := 73
abbrev cc12_sem2_1 : DmaSem sig := 74
abbrev cc13_sem0_0 : DmaSem sig := 75
abbrev cc13_sem0_1 : DmaSem sig := 76
abbrev cc13_sem1_0 : DmaSem sig := 77
abbrev cc13_sem2_0 : DmaSem sig := 78
abbrev cc13_sem2_1 : DmaSem sig := 79
abbrev cc14_sem0_0 : DmaSem sig := 80
abbrev cc14_sem0_1 : DmaSem sig := 81
abbrev cc14_sem1_0 : DmaSem sig := 82
abbrev cc14_sem2_0 : DmaSem sig := 83
abbrev cc14_sem3_0 : DmaSem sig := 84
abbrev cc14_sem4_0 : DmaSem sig := 85
abbrev cc14_sem5_0 : DmaSem sig := 86
abbrev cc14_sem5_1 : DmaSem sig := 87
abbrev cc15_sem0_0 : DmaSem sig := 88
abbrev cc15_sem0_1 : DmaSem sig := 89
abbrev cc15_sem1_0 : DmaSem sig := 90
abbrev cc15_sem2_0 : DmaSem sig := 91
abbrev cc15_sem2_1 : DmaSem sig := 92
abbrev cc16_sem0_0 : DmaSem sig := 93
abbrev cc16_sem0_1 : DmaSem sig := 94
abbrev cc16_sem1_0 : DmaSem sig := 95
abbrev cc16_sem1_1 : DmaSem sig := 96
abbrev cc16_sem2_0 : DmaSem sig := 97
abbrev cc16_sem2_1 : DmaSem sig := 98
abbrev cc17_sem0_0 : DmaSem sig := 99
abbrev cc17_sem0_1 : DmaSem sig := 100
abbrev cc17_sem1_0 : DmaSem sig := 101
abbrev cc17_sem2_0 : DmaSem sig := 102
abbrev cc17_sem2_1 : DmaSem sig := 103
abbrev cc18_sem0_0 : DmaSem sig := 104
abbrev cc18_sem0_1 : DmaSem sig := 105
abbrev cc18_sem1_0 : DmaSem sig := 106
abbrev cc18_sem2_0 : DmaSem sig := 107
abbrev cc18_sem3_0 : DmaSem sig := 108
abbrev cc18_sem4_0 : DmaSem sig := 109
abbrev cc18_sem5_0 : DmaSem sig := 110
abbrev cc18_sem5_1 : DmaSem sig := 111
abbrev cc19_sem0_0 : DmaSem sig := 112
abbrev cc19_sem0_1 : DmaSem sig := 113
abbrev cc19_sem1_0 : DmaSem sig := 114
abbrev cc19_sem2_0 : DmaSem sig := 115
abbrev cc19_sem2_1 : DmaSem sig := 116
abbrev cc20_sem0_0 : DmaSem sig := 117
abbrev cc20_sem0_1 : DmaSem sig := 118
abbrev cc20_sem1_0 : DmaSem sig := 119
abbrev cc20_sem1_1 : DmaSem sig := 120
abbrev cc20_sem2_0 : DmaSem sig := 121
abbrev cc20_sem2_1 : DmaSem sig := 122
abbrev cc21_sem0_0 : DmaSem sig := 123
abbrev cc21_sem0_1 : DmaSem sig := 124
abbrev cc21_sem1_0 : DmaSem sig := 125
abbrev cc21_sem2_0 : DmaSem sig := 126
abbrev cc21_sem2_1 : DmaSem sig := 127

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x88 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S88x70 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x70 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![85], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x70 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x70 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x70 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x70 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x70 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x70 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x70 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x70 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x70 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x70 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x70 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x70 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S70x60 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x60 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![85], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x60 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x60 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x60 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x60 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x60 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x60 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x60 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x60 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x60 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x60 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x60 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x60 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S60x50 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x50 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![85], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x50 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S10000x50 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x50 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x50 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x50 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x50 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S50x60 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x60 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![85], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x60 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S10000x60 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x60 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x60 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S5000x60 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x60 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x60 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x60 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x60 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x60 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x60 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x60 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S60x70 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S5000x70 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![85], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S10000x70 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S10000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S10000x70 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x70 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x70 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S5000x70 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x70 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S1x70 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x70 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x70 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x70 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S5000x70 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x70 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S70x88 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S5000x88 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![85], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S10000x88 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S10000x1 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S10000x88 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![10], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S5000x88 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S1x88 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 2 → Memref sig .tc .vmem S5000x88 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x88_S5000x88_0_0 : ∀ a, (![0, 0] : Fin 2 → Nat) a + S5000x88.size a ≤ S5000x88.size a
  h_S5000x88 : 0 < S5000x88.numel
  bitsLt_bf16_f32 : FTy.bits .bf16 < FTy.bits .f32
  inb_S88x70_S88x70_0_0 : ∀ a, (![0, 0] : Fin 2 → Nat) a + S88x70.size a ≤ S88x70.size a
  h_S88x70 : 0 < S88x70.numel
  inb_S5000x70_S5000x70_0_0 : ∀ a, (![0, 0] : Fin 2 → Nat) a + S5000x70.size a ≤ S5000x70.size a
  h_S5000x70 : 0 < S5000x70.numel
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x70_0 : S850000.BroadcastsInDim S850000x70 (![0] : Fin 1 → Fin S850000x70.rank)
  bcast_S_S850000x70 : S_.BroadcastsInDim S850000x70 (![] : Fin 0 → Fin S850000x70.rank)
  inb_S10000x70_S10000x70_0_0 : ∀ a, (![0, 0] : Fin 2 → Nat) a + S10000x70.size a ≤ S10000x70.size a
  h_S10000x70 : 0 < S10000x70.numel
  shapeCasts_S10000x70_S10000x70 : S10000x70.ShapeCasts S10000x70
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x70 : S10000x1.Broadcasts S10000x70
  bcast_S_S50000x70 : S_.BroadcastsInDim S50000x70 (![] : Fin 0 → Fin S50000x70.rank)
  shapeCasts_S70_S1x70 : S70.ShapeCasts S1x70
  shapeCasts_S5000x70_S5000x70 : S5000x70.ShapeCasts S5000x70
  inb_S1x70_S1x70_0_0 : ∀ a, (![0, 0] : Fin 2 → Nat) a + S1x70.size a ≤ S1x70.size a
  h_S1x70 : 0 < S1x70.numel
  shapeCasts_S1x70_S1x70 : S1x70.ShapeCasts S1x70
  broadcasts_S1x70_S5000x70 : S1x70.Broadcasts S5000x70
  reducesTo_S50000x70_S70_d0 : S50000x70.ReducesTo [0] S70
  bcast_S_S70 : S_.BroadcastsInDim S70 (![] : Fin 0 → Fin S70.rank)
  bcast_S70_S1x70_1 : S70.BroadcastsInDim S1x70 (![1] : Fin 1 → Fin S1x70.rank)
  bcast_S1x70_S50000x70_0_1 : S1x70.BroadcastsInDim S50000x70 (![0, 1] : Fin 2 → Fin S50000x70.rank)
  inb_S70x60_S70x60_0_0 : ∀ a, (![0, 0] : Fin 2 → Nat) a + S70x60.size a ≤ S70x60.size a
  h_S70x60 : 0 < S70x60.numel
  inb_S5000x60_S5000x60_0_0 : ∀ a, (![0, 0] : Fin 2 → Nat) a + S5000x60.size a ≤ S5000x60.size a
  h_S5000x60 : 0 < S5000x60.numel
  bcast_S850000_S850000x60_0 : S850000.BroadcastsInDim S850000x60 (![0] : Fin 1 → Fin S850000x60.rank)
  bcast_S_S850000x60 : S_.BroadcastsInDim S850000x60 (![] : Fin 0 → Fin S850000x60.rank)
  inb_S10000x60_S10000x60_0_0 : ∀ a, (![0, 0] : Fin 2 → Nat) a + S10000x60.size a ≤ S10000x60.size a
  h_S10000x60 : 0 < S10000x60.numel
  shapeCasts_S10000x60_S10000x60 : S10000x60.ShapeCasts S10000x60
  broadcasts_S10000x1_S10000x60 : S10000x1.Broadcasts S10000x60
  bcast_S_S50000x60 : S_.BroadcastsInDim S50000x60 (![] : Fin 0 → Fin S50000x60.rank)
  shapeCasts_S60_S1x60 : S60.ShapeCasts S1x60
  shapeCasts_S5000x60_S5000x60 : S5000x60.ShapeCasts S5000x60
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S5000x60 : S1x60.Broadcasts S5000x60
  reducesTo_S50000x60_S60_d0 : S50000x60.ReducesTo [0] S60
  bcast_S_S60 : S_.BroadcastsInDim S60 (![] : Fin 0 → Fin S60.rank)
  bcast_S60_S1x60_1 : S60.BroadcastsInDim S1x60 (![1] : Fin 1 → Fin S1x60.rank)
  bcast_S1x60_S50000x60_0_1 : S1x60.BroadcastsInDim S50000x60 (![0, 1] : Fin 2 → Fin S50000x60.rank)
  inb_S60x50_S60x50_0_0 : ∀ a, (![0, 0] : Fin 2 → Nat) a + S60x50.size a ≤ S60x50.size a
  h_S60x50 : 0 < S60x50.numel
  inb_S5000x50_S5000x50_0_0 : ∀ a, (![0, 0] : Fin 2 → Nat) a + S5000x50.size a ≤ S5000x50.size a
  h_S5000x50 : 0 < S5000x50.numel
  bcast_S850000_S850000x50_0 : S850000.BroadcastsInDim S850000x50 (![0] : Fin 1 → Fin S850000x50.rank)
  bcast_S_S850000x50 : S_.BroadcastsInDim S850000x50 (![] : Fin 0 → Fin S850000x50.rank)
  inb_S10000x50_S10000x50_0_0 : ∀ a, (![0, 0] : Fin 2 → Nat) a + S10000x50.size a ≤ S10000x50.size a
  h_S10000x50 : 0 < S10000x50.numel
  shapeCasts_S10000x50_S10000x50 : S10000x50.ShapeCasts S10000x50
  broadcasts_S10000x1_S10000x50 : S10000x1.Broadcasts S10000x50
  bcast_S_S50000x50 : S_.BroadcastsInDim S50000x50 (![] : Fin 0 → Fin S50000x50.rank)
  shapeCasts_S50_S1x50 : S50.ShapeCasts S1x50
  shapeCasts_S5000x50_S5000x50 : S5000x50.ShapeCasts S5000x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S5000x50 : S1x50.Broadcasts S5000x50
  inb_S50x60_S50x60_0_0 : ∀ a, (![0, 0] : Fin 2 → Nat) a + S50x60.size a ≤ S50x60.size a
  h_S50x60 : 0 < S50x60.numel
  inb_S60x70_S60x70_0_0 : ∀ a, (![0, 0] : Fin 2 → Nat) a + S60x70.size a ≤ S60x70.size a
  h_S60x70 : 0 < S60x70.numel
  inb_S70x88_S70x88_0_0 : ∀ a, (![0, 0] : Fin 2 → Nat) a + S70x88.size a ≤ S70x88.size a
  h_S70x88 : 0 < S70x88.numel
  bcast_S850000_S850000x88_0 : S850000.BroadcastsInDim S850000x88 (![0] : Fin 1 → Fin S850000x88.rank)
  bcast_S_S850000x88 : S_.BroadcastsInDim S850000x88 (![] : Fin 0 → Fin S850000x88.rank)
  inb_S10000x88_S10000x88_0_0 : ∀ a, (![0, 0] : Fin 2 → Nat) a + S10000x88.size a ≤ S10000x88.size a
  h_S10000x88 : 0 < S10000x88.numel
  shapeCasts_S10000x88_S10000x88 : S10000x88.ShapeCasts S10000x88
  broadcasts_S10000x1_S10000x88 : S10000x1.Broadcasts S10000x88
  bcast_S_S50000x88 : S_.BroadcastsInDim S50000x88 (![] : Fin 0 → Fin S50000x88.rank)
  shapeCasts_S88_S1x88 : S88.ShapeCasts S1x88
  shapeCasts_S5000x88_S5000x88 : S5000x88.ShapeCasts S5000x88
  inb_S1x88_S1x88_0_0 : ∀ a, (![0, 0] : Fin 2 → Nat) a + S1x88.size a ≤ S1x88.size a
  h_S1x88 : 0 < S1x88.numel
  shapeCasts_S1x88_S1x88 : S1x88.ShapeCasts S1x88
  broadcasts_S1x88_S5000x88 : S1x88.Broadcasts S5000x88
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x88_S88x70_S5000x70_1_0_0_1_n_n_wf : DotDims.WF S5000x88 S88x70 S5000x70 [1] [0] [0] [1] [] []
  gather_S50000x70_S850000x1_S850000x70_1_0_n_n_0_1_170_wf : GatherDims.WF S50000x70 S850000x1 S850000x70 [1] [0] [] [0] [] 1 ![1, 70]
  scatter_S50000x70_S850000x1_S850000x70_1_0_0_1_wf : ScatterDims.WF S50000x70 S850000x1 S850000x70 [1] [0] [0] 1
  dot_S5000x70_S70x60_S5000x60_1_0_0_1_n_n_wf : DotDims.WF S5000x70 S70x60 S5000x60 [1] [0] [0] [1] [] []
  gather_S50000x60_S850000x1_S850000x60_1_0_n_n_0_1_160_wf : GatherDims.WF S50000x60 S850000x1 S850000x60 [1] [0] [] [0] [] 1 ![1, 60]
  scatter_S50000x60_S850000x1_S850000x60_1_0_0_1_wf : ScatterDims.WF S50000x60 S850000x1 S850000x60 [1] [0] [0] 1
  dot_S5000x60_S60x50_S5000x50_1_0_0_1_n_n_wf : DotDims.WF S5000x60 S60x50 S5000x50 [1] [0] [0] [1] [] []
  gather_S50000x50_S850000x1_S850000x50_1_0_n_n_0_1_150_wf : GatherDims.WF S50000x50 S850000x1 S850000x50 [1] [0] [] [0] [] 1 ![1, 50]
  scatter_S50000x50_S850000x1_S850000x50_1_0_0_1_wf : ScatterDims.WF S50000x50 S850000x1 S850000x50 [1] [0] [0] 1
  dot_S5000x50_S50x60_S5000x60_1_0_0_1_n_n_wf : DotDims.WF S5000x50 S50x60 S5000x60 [1] [0] [0] [1] [] []
  dot_S5000x60_S60x70_S5000x70_1_0_0_1_n_n_wf : DotDims.WF S5000x60 S60x70 S5000x70 [1] [0] [0] [1] [] []
  dot_S5000x70_S70x88_S5000x88_1_0_0_1_n_n_wf : DotDims.WF S5000x70 S70x88 S5000x88 [1] [0] [0] [1] [] []
  gather_S50000x88_S850000x1_S850000x88_1_0_n_n_0_1_188_wf : GatherDims.WF S50000x88 S850000x1 S850000x88 [1] [0] [] [0] [] 1 ![1, 88]
  scatter_S50000x88_S850000x1_S850000x88_1_0_0_1_wf : ScatterDims.WF S50000x88 S850000x1 S850000x88 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x88.size a ≤ S50000x88.size a
  hwx0_0 : ∀ i : grid0.Coords, EltTy.bits .f32 = 32 ∨ (Rect.block (s := S50000x88) S5000x88.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S88x70.size a ≤ S88x70.size a
  hwx0_1 : ∀ i : grid0.Coords, EltTy.bits .f32 = 32 ∨ (Rect.block (s := S88x70) S88x70.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x70.size a ≤ S50000x70.size a
  hwx0_2 : ∀ i : grid0.Coords, EltTy.bits .f32 = 32 ∨ (Rect.block (s := S50000x70) S5000x70.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x70.size a ≤ S850000x70.size a
  hwx1_0 : ∀ i : grid1.Coords, EltTy.bits .f32 = 32 ∨ (Rect.block (s := S850000x70) S10000x70.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S850000x1.size a
  hwx1_1 : ∀ i : grid1.Coords, EltTy.bits .f32 = 32 ∨ (Rect.block (s := S850000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x70.size a ≤ S850000x70.size a
  hwx1_2 : ∀ i : grid1.Coords, EltTy.bits .f32 = 32 ∨ (Rect.block (s := S850000x70) S10000x70.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x70.size a ≤ S50000x70.size a
  hwx2_0 : ∀ i : grid2.Coords, EltTy.bits .f32 = 32 ∨ (Rect.block (s := S50000x70) S5000x70.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x70.size a ≤ S1x70.size a
  hwx2_1 : ∀ i : grid2.Coords, EltTy.bits .f32 = 32 ∨ (Rect.block (s := S1x70) S1x70.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x70.size a ≤ S50000x70.size a
  hwx2_2 : ∀ i : grid2.Coords, EltTy.bits .f32 = 32 ∨ (Rect.block (s := S50000x70) S5000x70.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x70.size a ≤ S50000x70.size a
  hwx3_0 : ∀ i : grid3.Coords, EltTy.bits .f32 = 32 ∨ (Rect.block (s := S50000x70) S5000x70.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x70.size a ≤ S1x70.size a
  hwx3_1 : ∀ i : grid3.Coords, EltTy.bits .f32 = 32 ∨ (Rect.block (s := S1x70) S1x70.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x70.size a ≤ S1x70.size a
  hwx3_2 : ∀ i : grid3.Coords, EltTy.bits .f32 = 32 ∨ (Rect.block (s := S1x70) S1x70.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x70.size a ≤ S1x70.size a
  hwx3_3 : ∀ i : grid3.Coords, EltTy.bits .f32 = 32 ∨ (Rect.block (s := S1x70) S1x70.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x70.size a ≤ S1x70.size a
  hwx3_4 : ∀ i : grid3.Coords, EltTy.bits .f32 = 32 ∨ (Rect.block (s := S1x70) S1x70.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x70.size a ≤ S50000x70.size a
  hwx3_5 : ∀ i : grid3.Coords, EltTy.bits .f32 = 32 ∨ (Rect.block (s := S50000x70) S5000x70.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x70.size a ≤ S50000x70.size a
  hwx4_0 : ∀ i : grid4.Coords, EltTy.bits .f32 = 32 ∨ (Rect.block (s := S50000x70) S5000x70.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S70x60.size a ≤ S70x60.size a
  hwx4_1 : ∀ i : grid4.Coords, EltTy.bits .f32 = 32 ∨ (Rect.block (s := S70x60) S70x60.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x60.size a ≤ S50000x60.size a
  hwx4_2 : ∀ i : grid4.Coords, EltTy.bits .f32 = 32 ∨ (Rect.block (s := S50000x60) S5000x60.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x60.size a ≤ S850000x60.size a
  hwx5_0 : ∀ i : grid5.Coords, EltTy.bits .f32 = 32 ∨ (Rect.block (s := S850000x60) S10000x60.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S850000x1.size a
  hwx5_1 : ∀ i : grid5.Coords, EltTy.bits .f32 = 32 ∨ (Rect.block (s := S850000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x60.size a ≤ S850000x60.size a
  hwx5_2 : ∀ i : grid5.Coords, EltTy.bits .f32 = 32 ∨ (Rect.block (s := S850000x60) S10000x60.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x60.size a ≤ S50000x60.size a
  hwx6_0 : ∀ i : grid6.Coords, EltTy.bits .f32 = 32 ∨ (Rect.block (s := S50000x60) S5000x60.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x60.size a ≤ S1x60.size a
  hwx6_1 : ∀ i : grid6.Coords, EltTy.bits .f32 = 32 ∨ (Rect.block (s := S1x60) S1x60.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x60.size a ≤ S50000x60.size a
  hwx6_2 : ∀ i : grid6.Coords, EltTy.bits .f32 = 32 ∨ (Rect.block (s := S50000x60) S5000x60.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x60.size a ≤ S50000x60.size a
  hwx7_0 : ∀ i : grid7.Coords, EltTy.bits .f32 = 32 ∨ (Rect.block (s := S50000x60) S5000x60.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x60.size a ≤ S1x60.size a
  hwx7_1 : ∀ i : grid7.Coords, EltTy.bits .f32 = 32 ∨ (Rect.block (s := S1x60) S1x60.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x60.size a ≤ S1x60.size a
  hwx7_2 : ∀ i : grid7.Coords, EltTy.bits .f32 = 32 ∨ (Rect.block (s := S1x60) S1x60.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x60.size a ≤ S1x60.size a
  hwx7_3 : ∀ i : grid7.Coords, EltTy.bits .f32 = 32 ∨ (Rect.block (s := S1x60) S1x60.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x60.size a ≤ S1x60.size a
  hwx7_4 : ∀ i : grid7.Coords, EltTy.bits .f32 = 32 ∨ (Rect.block (s := S1x60) S1x60.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x60.size a ≤ S50000x60.size a
  hwx7_5 : ∀ i : grid7.Coords, EltTy.bits .f32 = 32 ∨ (Rect.block (s := S50000x60) S5000x60.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x60.size a ≤ S50000x60.size a
  hwx8_0 : ∀ i : grid8.Coords, EltTy.bits .f32 = 32 ∨ (Rect.block (s := S50000x60) S5000x60.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S60x50.size a ≤ S60x50.size a
  hwx8_1 : ∀ i : grid8.Coords, EltTy.bits .f32 = 32 ∨ (Rect.block (s := S60x50) S60x50.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x50.size a ≤ S50000x50.size a
  hwx8_2 : ∀ i : grid8.Coords, EltTy.bits .f32 = 32 ∨ (Rect.block (s := S50000x50) S5000x50.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x50.size a ≤ S850000x50.size a
  hwx9_0 : ∀ i : grid9.Coords, EltTy.bits .f32 = 32 ∨ (Rect.block (s := S850000x50) S10000x50.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x1.size a ≤ S850000x1.size a
  hwx9_1 : ∀ i : grid9.Coords, EltTy.bits .f32 = 32 ∨ (Rect.block (s := S850000x1) S10000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x50.size a ≤ S850000x50.size a
  hwx9_2 : ∀ i : grid9.Coords, EltTy.bits .f32 = 32 ∨ (Rect.block (s := S850000x50) S10000x50.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x50.size a ≤ S50000x50.size a
  hwx10_0 : ∀ i : grid10.Coords, EltTy.bits .f32 = 32 ∨ (Rect.block (s := S50000x50) S5000x50.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x50.size a ≤ S1x50.size a
  hwx10_1 : ∀ i : grid10.Coords, EltTy.bits .f32 = 32 ∨ (Rect.block (s := S1x50) S1x50.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x50.size a ≤ S50000x50.size a
  hwx10_2 : ∀ i : grid10.Coords, EltTy.bits .f32 = 32 ∨ (Rect.block (s := S50000x50) S5000x50.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x50.size a ≤ S50000x50.size a
  hwx11_0 : ∀ i : grid11.Coords, EltTy.bits .f32 = 32 ∨ (Rect.block (s := S50000x50) S5000x50.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S50x60.size a ≤ S50x60.size a
  hwx11_1 : ∀ i : grid11.Coords, EltTy.bits .f32 = 32 ∨ (Rect.block (s := S50x60) S50x60.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x60.size a ≤ S50000x60.size a
  hwx11_2 : ∀ i : grid11.Coords, EltTy.bits .f32 = 32 ∨ (Rect.block (s := S50000x60) S5000x60.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x60.size a ≤ S850000x60.size a
  hwx12_0 : ∀ i : grid12.Coords, EltTy.bits .f32 = 32 ∨ (Rect.block (s := S850000x60) S10000x60.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x1.size a ≤ S850000x1.size a
  hwx12_1 : ∀ i : grid12.Coords, EltTy.bits .f32 = 32 ∨ (Rect.block (s := S850000x1) S10000x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x60.size a ≤ S850000x60.size a
  hwx12_2 : ∀ i : grid12.Coords, EltTy.bits .f32 = 32 ∨ (Rect.block (s := S850000x60) S10000x60.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x60.size a ≤ S50000x60.size a
  hwx13_0 : ∀ i : grid13.Coords, EltTy.bits .f32 = 32 ∨ (Rect.block (s := S50000x60) S5000x60.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x60.size a ≤ S1x60.size a
  hwx13_1 : ∀ i : grid13.Coords, EltTy.bits .f32 = 32 ∨ (Rect.block (s := S1x60) S1x60.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x60.size a ≤ S50000x60.size a
  hwx13_2 : ∀ i : grid13.Coords, EltTy.bits .f32 = 32 ∨ (Rect.block (s := S50000x60) S5000x60.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x60.size a ≤ S50000x60.size a
  hwx14_0 : ∀ i : grid14.Coords, EltTy.bits .f32 = 32 ∨ (Rect.block (s := S50000x60) S5000x60.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x60.size a ≤ S1x60.size a
  hwx14_1 : ∀ i : grid14.Coords, EltTy.bits .f32 = 32 ∨ (Rect.block (s := S1x60) S1x60.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x60.size a ≤ S1x60.size a
  hwx14_2 : ∀ i : grid14.Coords, EltTy.bits .f32 = 32 ∨ (Rect.block (s := S1x60) S1x60.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x60.size a ≤ S1x60.size a
  hwx14_3 : ∀ i : grid14.Coords, EltTy.bits .f32 = 32 ∨ (Rect.block (s := S1x60) S1x60.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x60.size a ≤ S1x60.size a
  hwx14_4 : ∀ i : grid14.Coords, EltTy.bits .f32 = 32 ∨ (Rect.block (s := S1x60) S1x60.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x60.size a ≤ S50000x60.size a
  hwx14_5 : ∀ i : grid14.Coords, EltTy.bits .f32 = 32 ∨ (Rect.block (s := S50000x60) S5000x60.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x60.size a ≤ S50000x60.size a
  hwx15_0 : ∀ i : grid15.Coords, EltTy.bits .f32 = 32 ∨ (Rect.block (s := S50000x60) S5000x60.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S60x70.size a ≤ S60x70.size a
  hwx15_1 : ∀ i : grid15.Coords, EltTy.bits .f32 = 32 ∨ (Rect.block (s := S60x70) S60x70.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x70.size a ≤ S50000x70.size a
  hwx15_2 : ∀ i : grid15.Coords, EltTy.bits .f32 = 32 ∨ (Rect.block (s := S50000x70) S5000x70.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x70.size a ≤ S850000x70.size a
  hwx16_0 : ∀ i : grid16.Coords, EltTy.bits .f32 = 32 ∨ (Rect.block (s := S850000x70) S10000x70.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S10000x1.size a ≤ S850000x1.size a
  hwx16_1 : ∀ i : grid16.Coords, EltTy.bits .f32 = 32 ∨ (Rect.block (s := S850000x1) S10000x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S10000x70.size a ≤ S850000x70.size a
  hwx16_2 : ∀ i : grid16.Coords, EltTy.bits .f32 = 32 ∨ (Rect.block (s := S850000x70) S10000x70.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x70.size a ≤ S50000x70.size a
  hwx17_0 : ∀ i : grid17.Coords, EltTy.bits .f32 = 32 ∨ (Rect.block (s := S50000x70) S5000x70.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x70.size a ≤ S1x70.size a
  hwx17_1 : ∀ i : grid17.Coords, EltTy.bits .f32 = 32 ∨ (Rect.block (s := S1x70) S1x70.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S5000x70.size a ≤ S50000x70.size a
  hwx17_2 : ∀ i : grid17.Coords, EltTy.bits .f32 = 32 ∨ (Rect.block (s := S50000x70) S5000x70.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x70.size a ≤ S50000x70.size a
  hwx18_0 : ∀ i : grid18.Coords, EltTy.bits .f32 = 32 ∨ (Rect.block (s := S50000x70) S5000x70.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x70.size a ≤ S1x70.size a
  hwx18_1 : ∀ i : grid18.Coords, EltTy.bits .f32 = 32 ∨ (Rect.block (s := S1x70) S1x70.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x70.size a ≤ S1x70.size a
  hwx18_2 : ∀ i : grid18.Coords, EltTy.bits .f32 = 32 ∨ (Rect.block (s := S1x70) S1x70.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x70.size a ≤ S1x70.size a
  hwx18_3 : ∀ i : grid18.Coords, EltTy.bits .f32 = 32 ∨ (Rect.block (s := S1x70) S1x70.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x70.size a ≤ S1x70.size a
  hwx18_4 : ∀ i : grid18.Coords, EltTy.bits .f32 = 32 ∨ (Rect.block (s := S1x70) S1x70.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S5000x70.size a ≤ S50000x70.size a
  hwx18_5 : ∀ i : grid18.Coords, EltTy.bits .f32 = 32 ∨ (Rect.block (s := S50000x70) S5000x70.size (cc18_transform_5 i) (hinb18_5 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x70.size a ≤ S50000x70.size a
  hwx19_0 : ∀ i : grid19.Coords, EltTy.bits .f32 = 32 ∨ (Rect.block (s := S50000x70) S5000x70.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S70x88.size a ≤ S70x88.size a
  hwx19_1 : ∀ i : grid19.Coords, EltTy.bits .f32 = 32 ∨ (Rect.block (s := S70x88) S70x88.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S5000x88.size a ≤ S50000x88.size a
  hwx19_2 : ∀ i : grid19.Coords, EltTy.bits .f32 = 32 ∨ (Rect.block (s := S50000x88) S5000x88.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S10000x88.size a ≤ S850000x88.size a
  hwx20_0 : ∀ i : grid20.Coords, EltTy.bits .f32 = 32 ∨ (Rect.block (s := S850000x88) S10000x88.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S10000x1.size a ≤ S850000x1.size a
  hwx20_1 : ∀ i : grid20.Coords, EltTy.bits .f32 = 32 ∨ (Rect.block (s := S850000x1) S10000x1.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S10000x88.size a ≤ S850000x88.size a
  hwx20_2 : ∀ i : grid20.Coords, EltTy.bits .f32 = 32 ∨ (Rect.block (s := S850000x88) S10000x88.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S5000x88.size a ≤ S50000x88.size a
  hwx21_0 : ∀ i : grid21.Coords, EltTy.bits .f32 = 32 ∨ (Rect.block (s := S50000x88) S5000x88.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1x88.size a ≤ S1x88.size a
  hwx21_1 : ∀ i : grid21.Coords, EltTy.bits .f32 = 32 ∨ (Rect.block (s := S1x88) S1x88.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S5000x88.size a ≤ S50000x88.size a
  hwx21_2 : ∀ i : grid21.Coords, EltTy.bits .f32 = 32 ∨ (Rect.block (s := S50000x88) S5000x88.size (cc21_transform_2 i) (hinb21_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x88_S88x70_S5000x70_1_0_0_1_n_n : DotDims S5000x88 S88x70 S5000x70 where
  lhsContracting := [1]
  rhsContracting := [0]
  lhsNonContracting := [0]
  rhsNonContracting := [1]
  lhsBatch := []
  rhsBatch := []
  wf := dot_S5000x88_S88x70_S5000x70_1_0_0_1_n_n_wf
def gather_S50000x70_S850000x1_S850000x70_1_0_n_n_0_1_170 : GatherDims S50000x70 S850000x1 S850000x70 where
  offsetDims := [1]
  collapsedSliceDims := [0]
  operandBatchingDims := []
  startIndicesBatchingDims := []
  startIndexMap := [0]
  indexVectorDim := 1
  sliceSizes := ![1, 70]
  wf := gather_S50000x70_S850000x1_S850000x70_1_0_n_n_0_1_170_wf
def scatter_S50000x70_S850000x1_S850000x70_1_0_0_1 : ScatterDims S50000x70 S850000x1 S850000x70 where
  updateWindowDims := [1]
  insertedWindowDims := [0]
  scatterDimsToOperandDims := [0]
  indexVectorDim := 1
  wf := scatter_S50000x70_S850000x1_S850000x70_1_0_0_1_wf
def dot_S5000x70_S70x60_S5000x60_1_0_0_1_n_n : DotDims S5000x70 S70x60 S5000x60 where
  lhsContracting := [1]
  rhsContracting := [0]
  lhsNonContracting := [0]
  rhsNonContracting := [1]
  lhsBatch := []
  rhsBatch := []
  wf := dot_S5000x70_S70x60_S5000x60_1_0_0_1_n_n_wf
def gather_S50000x60_S850000x1_S850000x60_1_0_n_n_0_1_160 : GatherDims S50000x60 S850000x1 S850000x60 where
  offsetDims := [1]
  collapsedSliceDims := [0]
  operandBatchingDims := []
  startIndicesBatchingDims := []
  startIndexMap := [0]
  indexVectorDim := 1
  sliceSizes := ![1, 60]
  wf := gather_S50000x60_S850000x1_S850000x60_1_0_n_n_0_1_160_wf
def scatter_S50000x60_S850000x1_S850000x60_1_0_0_1 : ScatterDims S50000x60 S850000x1 S850000x60 where
  updateWindowDims := [1]
  insertedWindowDims := [0]
  scatterDimsToOperandDims := [0]
  indexVectorDim := 1
  wf := scatter_S50000x60_S850000x1_S850000x60_1_0_0_1_wf
def dot_S5000x60_S60x50_S5000x50_1_0_0_1_n_n : DotDims S5000x60 S60x50 S5000x50 where
  lhsContracting := [1]
  rhsContracting := [0]
  lhsNonContracting := [0]
  rhsNonContracting := [1]
  lhsBatch := []
  rhsBatch := []
  wf := dot_S5000x60_S60x50_S5000x50_1_0_0_1_n_n_wf
def gather_S50000x50_S850000x1_S850000x50_1_0_n_n_0_1_150 : GatherDims S50000x50 S850000x1 S850000x50 where
  offsetDims := [1]
  collapsedSliceDims := [0]
  operandBatchingDims := []
  startIndicesBatchingDims := []
  startIndexMap := [0]
  indexVectorDim := 1
  sliceSizes := ![1, 50]
  wf := gather_S50000x50_S850000x1_S850000x50_1_0_n_n_0_1_150_wf
def scatter_S50000x50_S850000x1_S850000x50_1_0_0_1 : ScatterDims S50000x50 S850000x1 S850000x50 where
  updateWindowDims := [1]
  insertedWindowDims := [0]
  scatterDimsToOperandDims := [0]
  indexVectorDim := 1
  wf := scatter_S50000x50_S850000x1_S850000x50_1_0_0_1_wf
def dot_S5000x50_S50x60_S5000x60_1_0_0_1_n_n : DotDims S5000x50 S50x60 S5000x60 where
  lhsContracting := [1]
  rhsContracting := [0]
  lhsNonContracting := [0]
  rhsNonContracting := [1]
  lhsBatch := []
  rhsBatch := []
  wf := dot_S5000x50_S50x60_S5000x60_1_0_0_1_n_n_wf
def dot_S5000x60_S60x70_S5000x70_1_0_0_1_n_n : DotDims S5000x60 S60x70 S5000x70 where
  lhsContracting := [1]
  rhsContracting := [0]
  lhsNonContracting := [0]
  rhsNonContracting := [1]
  lhsBatch := []
  rhsBatch := []
  wf := dot_S5000x60_S60x70_S5000x70_1_0_0_1_n_n_wf
def dot_S5000x70_S70x88_S5000x88_1_0_0_1_n_n : DotDims S5000x70 S70x88 S5000x88 where
  lhsContracting := [1]
  rhsContracting := [0]
  lhsNonContracting := [0]
  rhsNonContracting := [1]
  lhsBatch := []
  rhsBatch := []
  wf := dot_S5000x70_S70x88_S5000x88_1_0_0_1_n_n_wf
def gather_S50000x88_S850000x1_S850000x88_1_0_n_n_0_1_188 : GatherDims S50000x88 S850000x1 S850000x88 where
  offsetDims := [1]
  collapsedSliceDims := [0]
  operandBatchingDims := []
  startIndicesBatchingDims := []
  startIndexMap := [0]
  indexVectorDim := 1
  sliceSizes := ![1, 88]
  wf := gather_S50000x88_S850000x1_S850000x88_1_0_n_n_0_1_188_wf
def scatter_S50000x88_S850000x1_S850000x88_1_0_0_1 : ScatterDims S50000x88 S850000x1 S850000x88 where
  updateWindowDims := [1]
  insertedWindowDims := [0]
  scatterDimsToOperandDims := [0]
  indexVectorDim := 1
  wf := scatter_S50000x88_S850000x1_S850000x88_1_0_0_1_wf

abbrev win0_0 : Pipeline.Window sig grid0 :=
  Pipeline.Window.ofSpec (Memref.whole main_arg0) S5000x88.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S88x70.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x70.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S10000x70.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S10000x70.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S5000x70.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x70.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x70.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S5000x70.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1x70.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x70.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x70.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x70.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S5000x70.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v56) S5000x70.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S70x60.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S5000x60.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v58) S10000x60.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S10000x60.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v63) S5000x60.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v64) S1x60.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v65) S5000x60.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v65) S5000x60.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v79) S1x60.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v80) S1x60.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v81) S1x60.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v82) S1x60.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v83) S5000x60.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v83) S5000x60.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg6) S60x50.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v84) S5000x50.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v85) S10000x50.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v86) S10000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v87) S10000x50.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v90) S5000x50.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v91) S1x50.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v92) S5000x50.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v92) S5000x50.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg8) S50x60.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v93) S5000x60.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v94) S10000x60.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v95) S10000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v96) S10000x60.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v99) S5000x60.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v100) S1x60.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v101) S5000x60.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v101) S5000x60.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v115) S1x60.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v116) S1x60.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v117) S1x60.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v118) S1x60.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v119) S5000x60.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v119) S5000x60.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg10) S60x70.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v120) S5000x70.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v121) S10000x70.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v122) S10000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v123) S10000x70.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v126) S5000x70.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v127) S1x70.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v128) S5000x70.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v128) S5000x70.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v142) S1x70.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v143) S1x70.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v144) S1x70.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v145) S1x70.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v146) S5000x70.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev win19_0 : Pipeline.Window sig grid19 :=
  Pipeline.Window.ofSpec (Memref.whole main_v146) S5000x70.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_arg12) S70x88.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v147) S5000x88.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v148) S10000x88.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v149) S10000x1.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v150) S10000x88.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v153) S5000x88.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v154) S1x88.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v155) S5000x88.size cc21_transform_2 reads21_2 true false 2 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

class Facts : Prop extends Facts₀ where

variable [Facts]
-- ==== ReferenceIdeal.lean ====
abbrev S50000x88 : Shape := ⟨2, ![50000, 88]⟩
abbrev S2x800000 : Shape := ⟨2, ![2, 800000]⟩
abbrev S88x70 : Shape := ⟨2, ![88, 70]⟩
abbrev S70 : Shape := ⟨1, ![70]⟩
abbrev S70x60 : Shape := ⟨2, ![70, 60]⟩
abbrev S60 : Shape := ⟨1, ![60]⟩
abbrev S60x50 : Shape := ⟨2, ![60, 50]⟩
abbrev S50 : Shape := ⟨1, ![50]⟩
abbrev S50x60 : Shape := ⟨2, ![50, 60]⟩
abbrev S60x70 : Shape := ⟨2, ![60, 70]⟩
abbrev S70x88 : Shape := ⟨2, ![70, 88]⟩
abbrev S88 : Shape := ⟨1, ![88]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x70 : Shape := ⟨2, ![50000, 70]⟩
abbrev S850000x70 : Shape := ⟨2, ![850000, 70]⟩
abbrev S1x70 : Shape := ⟨2, ![1, 70]⟩
abbrev S50000x60 : Shape := ⟨2, ![50000, 60]⟩
abbrev S850000x60 : Shape := ⟨2, ![850000, 60]⟩
abbrev S1x60 : Shape := ⟨2, ![1, 60]⟩
abbrev S50000x50 : Shape := ⟨2, ![50000, 50]⟩
abbrev S850000x50 : Shape := ⟨2, ![850000, 50]⟩
abbrev S1x50 : Shape := ⟨2, ![1, 50]⟩
abbrev S850000x88 : Shape := ⟨2, ![850000, 88]⟩
abbrev S1x88 : Shape := ⟨2, ![1, 88]⟩

abbrev nBuf : Space → Nat
  | .hbm => 314
  | .vmem => 0
  | .smem => 0
  | _ => 0

abbrev hbmTy0_0 (i : Nat) : BufTy := match i % 128 with
  | 0 => ⟨S50000x88, .f32⟩
  | 1 => ⟨S2x800000, .i32⟩
  | 2 => ⟨S88x70, .f32⟩
  | 3 => ⟨S70, .f32⟩
  | 4 => ⟨S70x60, .f32⟩
  | 5 => ⟨S60, .f32⟩
  | 6 => ⟨S60x50, .f32⟩
  | 7 => ⟨S50, .f32⟩
  | 8 => ⟨S50x60, .f32⟩
  | 9 => ⟨S60, .f32⟩
  | 10 => ⟨S60x70, .f32⟩
  | 11 => ⟨S70, .f32⟩
  | 12 => ⟨S70x88, .f32⟩
  | 13 => ⟨S88, .f32⟩
  | 14 => ⟨S70, .f32⟩
  | 15 => ⟨S70, .f32⟩
  | 16 => ⟨S60, .f32⟩
  | 17 => ⟨S60, .f32⟩
  | 18 => ⟨S60, .f32⟩
  | 19 => ⟨S60, .f32⟩
  | 20 => ⟨S70, .f32⟩
  | 21 => ⟨S70, .f32⟩
  | 22 => ⟨S50000, .i32⟩
  | 23 => ⟨S1x800000, .i32⟩
  | 24 => ⟨S800000, .i32⟩
  | 25 => ⟨S850000, .i32⟩
  | 26 => ⟨S1x800000, .i32⟩
  | 27 => ⟨S800000, .i32⟩
  | 28 => ⟨S850000, .i32⟩
  | 29 => ⟨S_, .f32⟩
  | 30 => ⟨S850000, .f32⟩
  | 31 => ⟨S_, .f32⟩
  | 32 => ⟨S50000, .f32⟩
  | 33 => ⟨S850000x1, .i32⟩
  | 34 => ⟨S50000, .f32⟩
  | 35 => ⟨S_, .f32⟩
  | 36 => ⟨S50000, .f32⟩
  | 37 => ⟨S50000, .i1⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S50000x70, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x70, .f32⟩
  | 72 => ⟨S850000x1, .f32⟩
  | 73 => ⟨S850000x70, .f32⟩
  | 74 => ⟨S850000x70, .f32⟩
  | 75 => ⟨S_, .f32⟩
  | 76 => ⟨S50000x70, .f32⟩
  | 77 => ⟨S850000x1, .i32⟩
  | 78 => ⟨S50000x70, .f32⟩
  | 79 => ⟨S1x70, .f32⟩
  | 80 => ⟨S50000x70, .f32⟩
  | 81 => ⟨S50000x70, .f32⟩
  | 82 => ⟨S_, .f32⟩
  | 83 => ⟨S50000x70, .f32⟩
  | 84 => ⟨S50000x70, .f32⟩
  | 85 => ⟨S_, .f32⟩
  | 86 => ⟨S70, .f32⟩
  | 87 => ⟨S_, .f32⟩
  | 88 => ⟨S70, .f32⟩
  | 89 => ⟨S70, .f32⟩
  | 90 => ⟨S1x70, .f32⟩
  | 91 => ⟨S50000x70, .f32⟩
  | 92 => ⟨S50000x70, .f32⟩
  | 93 => ⟨S50000x70, .f32⟩
  | 94 => ⟨S_, .f32⟩
  | 95 => ⟨S70, .f32⟩
  | 96 => ⟨S_, .f32⟩
  | 97 => ⟨S70, .f32⟩
  | 98 => ⟨S70, .f32⟩
  | 99 => ⟨S1x70, .f32⟩
  | 100 => ⟨S50000x70, .f32⟩
  | 101 => ⟨S50000x70, .f32⟩
  | 102 => ⟨S1x70, .f32⟩
  | 103 => ⟨S50000x70, .f32⟩
  | 104 => ⟨S50000x70, .f32⟩
  | 105 => ⟨S_, .f32⟩
  | 106 => ⟨S70, .f32⟩
  | 107 => ⟨S70, .f32⟩
  | 108 => ⟨S70, .f32⟩
  | 109 => ⟨S1x70, .f32⟩
  | 110 => ⟨S50000x70, .f32⟩
  | 111 => ⟨S50000x70, .f32⟩
  | 112 => ⟨S1x70, .f32⟩
  | 113 => ⟨S50000x70, .f32⟩
  | 114 => ⟨S50000x70, .f32⟩
  | 115 => ⟨S50000x60, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x60, .f32⟩
  | 125 => ⟨S850000x1, .f32⟩
  | 126 => ⟨S850000x60, .f32⟩
  | 127 => ⟨S850000x60, .f32⟩
  | _ => ⟨S50000x88, .f32⟩

abbrev hbmTy0_1 (i : Nat) : BufTy := match i % 128 with
  | 0 => ⟨S_, .f32⟩
  | 1 => ⟨S50000x60, .f32⟩
  | 2 => ⟨S850000x1, .i32⟩
  | 3 => ⟨S50000x60, .f32⟩
  | 4 => ⟨S1x60, .f32⟩
  | 5 => ⟨S50000x60, .f32⟩
  | 6 => ⟨S50000x60, .f32⟩
  | 7 => ⟨S_, .f32⟩
  | 8 => ⟨S50000x60, .f32⟩
  | 9 => ⟨S50000x60, .f32⟩
  | 10 => ⟨S_, .f32⟩
  | 11 => ⟨S60, .f32⟩
  | 12 => ⟨S_, .f32⟩
  | 13 => ⟨S60, .f32⟩
  | 14 => ⟨S60, .f32⟩
  | 15 => ⟨S1x60, .f32⟩
  | 16 => ⟨S50000x60, .f32⟩
  | 17 => ⟨S50000x60, .f32⟩
  | 18 => ⟨S50000x60, .f32⟩
  | 19 => ⟨S_, .f32⟩
  | 20 => ⟨S60, .f32⟩
  | 21 => ⟨S_, .f32⟩
  | 22 => ⟨S60, .f32⟩
  | 23 => ⟨S60, .f32⟩
  | 24 => ⟨S1x60, .f32⟩
  | 25 => ⟨S50000x60, .f32⟩
  | 26 => ⟨S50000x60, .f32⟩
  | 27 => ⟨S1x60, .f32⟩
  | 28 => ⟨S50000x60, .f32⟩
  | 29 => ⟨S50000x60, .f32⟩
  | 30 => ⟨S_, .f32⟩
  | 31 => ⟨S60, .f32⟩
  | 32 => ⟨S60, .f32⟩
  | 33 => ⟨S60, .f32⟩
  | 34 => ⟨S1x60, .f32⟩
  | 35 => ⟨S50000x60, .f32⟩
  | 36 => ⟨S50000x60, .f32⟩
  | 37 => ⟨S1x60, .f32⟩
  | 38 => ⟨S50000x60, .f32⟩
  | 39 => ⟨S50000x60, .f32⟩
  | 40 => ⟨S50000x50, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000x50, .f32⟩
  | 50 => ⟨S850000x1, .f32⟩
  | 51 => ⟨S850000x50, .f32⟩
  | 52 => ⟨S850000x50, .f32⟩
  | 53 => ⟨S_, .f32⟩
  | 54 => ⟨S50000x50, .f32⟩
  | 55 => ⟨S850000x1, .i32⟩
  | 56 => ⟨S50000x50, .f32⟩
  | 57 => ⟨S1x50, .f32⟩
  | 58 => ⟨S50000x50, .f32⟩
  | 59 => ⟨S50000x50, .f32⟩
  | 60 => ⟨S50000x60, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x60, .f32⟩
  | 70 => ⟨S850000x1, .f32⟩
  | 71 => ⟨S850000x60, .f32⟩
  | 72 => ⟨S850000x60, .f32⟩
  | 73 => ⟨S_, .f32⟩
  | 74 => ⟨S50000x60, .f32⟩
  | 75 => ⟨S850000x1, .i32⟩
  | 76 => ⟨S50000x60, .f32⟩
  | 77 => ⟨S1x60, .f32⟩
  | 78 => ⟨S50000x60, .f32⟩
  | 79 => ⟨S50000x60, .f32⟩
  | 80 => ⟨S_, .f32⟩
  | 81 => ⟨S50000x60, .f32⟩
  | 82 => ⟨S50000x60, .f32⟩
  | 83 => ⟨S_, .f32⟩
  | 84 => ⟨S60, .f32⟩
  | 85 => ⟨S_, .f32⟩
  | 86 => ⟨S60, .f32⟩
  | 87 => ⟨S60, .f32⟩
  | 88 => ⟨S1x60, .f32⟩
  | 89 => ⟨S50000x60, .f32⟩
  | 90 => ⟨S50000x60, .f32⟩
  | 91 => ⟨S50000x60, .f32⟩
  | 92 => ⟨S_, .f32⟩
  | 93 => ⟨S60, .f32⟩
  | 94 => ⟨S_, .f32⟩
  | 95 => ⟨S60, .f32⟩
  | 96 => ⟨S60, .f32⟩
  | 97 => ⟨S1x60, .f32⟩
  | 98 => ⟨S50000x60, .f32⟩
  | 99 => ⟨S50000x60, .f32⟩
  | 100 => ⟨S1x60, .f32⟩
  | 101 => ⟨S50000x60, .f32⟩
  | 102 => ⟨S50000x60, .f32⟩
  | 103 => ⟨S_, .f32⟩
  | 104 => ⟨S60, .f32⟩
  | 105 => ⟨S60, .f32⟩
  | 106 => ⟨S60, .f32⟩
  | 107 => ⟨S1x60, .f32⟩
  | 108 => ⟨S50000x60, .f32⟩
  | 109 => ⟨S50000x60, .f32⟩
  | 110 => ⟨S1x60, .f32⟩
  | 111 => ⟨S50000x60, .f32⟩
  | 112 => ⟨S50000x60, .f32⟩
  | 113 => ⟨S50000x70, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x70, .f32⟩
  | 123 => ⟨S850000x1, .f32⟩
  | 124 => ⟨S850000x70, .f32⟩
  | 125 => ⟨S850000x70, .f32⟩
  | 126 => ⟨S_, .f32⟩
  | 127 => ⟨S50000x70, .f32⟩
  | _ => ⟨S50000x88, .f32⟩

abbrev hbmTy0_2 (i : Nat) : BufTy := match i % 128 with
  | 0 => ⟨S850000x1, .i32⟩
  | 1 => ⟨S50000x70, .f32⟩
  | 2 => ⟨S1x70, .f32⟩
  | 3 => ⟨S50000x70, .f32⟩
  | 4 => ⟨S50000x70, .f32⟩
  | 5 => ⟨S_, .f32⟩
  | 6 => ⟨S50000x70, .f32⟩
  | 7 => ⟨S50000x70, .f32⟩
  | 8 => ⟨S_, .f32⟩
  | 9 => ⟨S70, .f32⟩
  | 10 => ⟨S_, .f32⟩
  | 11 => ⟨S70, .f32⟩
  | 12 => ⟨S70, .f32⟩
  | 13 => ⟨S1x70, .f32⟩
  | 14 => ⟨S50000x70, .f32⟩
  | 15 => ⟨S50000x70, .f32⟩
  | 16 => ⟨S50000x70, .f32⟩
  | 17 => ⟨S_, .f32⟩
  | 18 => ⟨S70, .f32⟩
  | 19 => ⟨S_, .f32⟩
  | 20 => ⟨S70, .f32⟩
  | 21 => ⟨S70, .f32⟩
  | 22 => ⟨S1x70, .f32⟩
  | 23 => ⟨S50000x70, .f32⟩
  | 24 => ⟨S50000x70, .f32⟩
  | 25 => ⟨S1x70, .f32⟩
  | 26 => ⟨S50000x70, .f32⟩
  | 27 => ⟨S50000x70, .f32⟩
  | 28 => ⟨S_, .f32⟩
  | 29 => ⟨S70, .f32⟩
  | 30 => ⟨S70, .f32⟩
  | 31 => ⟨S70, .f32⟩
  | 32 => ⟨S1x70, .f32⟩
  | 33 => ⟨S50000x70, .f32⟩
  | 34 => ⟨S50000x70, .f32⟩
  | 35 => ⟨S1x70, .f32⟩
  | 36 => ⟨S50000x70, .f32⟩
  | 37 => ⟨S50000x70, .f32⟩
  | 38 => ⟨S50000x88, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x88, .f32⟩
  | 48 => ⟨S850000x1, .f32⟩
  | 49 => ⟨S850000x88, .f32⟩
  | 50 => ⟨S850000x88, .f32⟩
  | 51 => ⟨S_, .f32⟩
  | 52 => ⟨S50000x88, .f32⟩
  | 53 => ⟨S850000x1, .i32⟩
  | 54 => ⟨S50000x88, .f32⟩
  | 55 => ⟨S1x88, .f32⟩
  | 56 => ⟨S50000x88, .f32⟩
  | 57 => ⟨S50000x88, .f32⟩
  | _ => ⟨S50000x88, .f32⟩

abbrev hbmTy (i : Nat) : BufTy := match i / 128 with
  | 0 => hbmTy0_0 i
  | 1 => hbmTy0_1 i
  | 2 => hbmTy0_2 i
  | _ => ⟨S50000x88, .f32⟩

abbrev bufTy : (tb : Table) → Fin (tcTables nBuf tb) → BufTy
  | .hbm, ⟨i, _⟩ => hbmTy i
  | _, _ => ⟨S50000x88, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_6 : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_call1_cst : Ref sig .tc := ⟨.hbm, 82, rfl⟩
abbrev main_call1_v0 : Ref sig .tc := ⟨.hbm, 83, rfl⟩
abbrev main_v47 : Ref sig .tc := ⟨.hbm, 84, rfl⟩
abbrev main_cst_9 : Ref sig .tc := ⟨.hbm, 85, rfl⟩
abbrev main_v48 : Ref sig .tc := ⟨.hbm, 86, rfl⟩
abbrev main_cst_10 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_11 : Ref sig .tc := ⟨.hbm, 94, rfl⟩
abbrev main_v55 : Ref sig .tc := ⟨.hbm, 95, rfl⟩
abbrev main_cst_12 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_13 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_14 : Ref sig .tc := ⟨.hbm, 116, rfl⟩
abbrev main_v74 : Ref sig .tc := ⟨.hbm, 117, rfl⟩
abbrev main_v75 : Ref sig .tc := ⟨.hbm, 118, rfl⟩
abbrev main_c_15 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_16 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_call2_cst : Ref sig .tc := ⟨.hbm, 135, rfl⟩
abbrev main_call2_v0 : Ref sig .tc := ⟨.hbm, 136, rfl⟩
abbrev main_v90 : Ref sig .tc := ⟨.hbm, 137, rfl⟩
abbrev main_cst_17 : Ref sig .tc := ⟨.hbm, 138, rfl⟩
abbrev main_v91 : Ref sig .tc := ⟨.hbm, 139, rfl⟩
abbrev main_cst_18 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_19 : Ref sig .tc := ⟨.hbm, 147, rfl⟩
abbrev main_v98 : Ref sig .tc := ⟨.hbm, 148, rfl⟩
abbrev main_cst_20 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_21 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_c_22 : Ref sig .tc := ⟨.hbm, 169, rfl⟩
abbrev main_v117 : Ref sig .tc := ⟨.hbm, 170, rfl⟩
abbrev main_v118 : Ref sig .tc := ⟨.hbm, 171, rfl⟩
abbrev main_c_23 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_24 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_c_25 : Ref sig .tc := ⟨.hbm, 189, rfl⟩
abbrev main_v134 : Ref sig .tc := ⟨.hbm, 190, rfl⟩
abbrev main_v135 : Ref sig .tc := ⟨.hbm, 191, rfl⟩
abbrev main_c_26 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_27 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_call3_cst : Ref sig .tc := ⟨.hbm, 208, rfl⟩
abbrev main_call3_v0 : Ref sig .tc := ⟨.hbm, 209, rfl⟩
abbrev main_v150 : Ref sig .tc := ⟨.hbm, 210, rfl⟩
abbrev main_cst_28 : Ref sig .tc := ⟨.hbm, 211, rfl⟩
abbrev main_v151 : Ref sig .tc := ⟨.hbm, 212, rfl⟩
abbrev main_cst_29 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_30 : Ref sig .tc := ⟨.hbm, 220, rfl⟩
abbrev main_v158 : Ref sig .tc := ⟨.hbm, 221, rfl⟩
abbrev main_cst_31 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_cst_32 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_c_33 : Ref sig .tc := ⟨.hbm, 242, rfl⟩
abbrev main_v177 : Ref sig .tc := ⟨.hbm, 243, rfl⟩
abbrev main_v178 : Ref sig .tc := ⟨.hbm, 244, rfl⟩
abbrev main_c_34 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_cst_35 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_call4_cst : Ref sig .tc := ⟨.hbm, 261, rfl⟩
abbrev main_call4_v0 : Ref sig .tc := ⟨.hbm, 262, rfl⟩
abbrev main_v193 : Ref sig .tc := ⟨.hbm, 263, rfl⟩
abbrev main_cst_36 : Ref sig .tc := ⟨.hbm, 264, rfl⟩
abbrev main_v194 : Ref sig .tc := ⟨.hbm, 265, rfl⟩
abbrev main_cst_37 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_cst_38 : Ref sig .tc := ⟨.hbm, 273, rfl⟩
abbrev main_v201 : Ref sig .tc := ⟨.hbm, 274, rfl⟩
abbrev main_cst_39 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_cst_40 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_c_41 : Ref sig .tc := ⟨.hbm, 295, rfl⟩
abbrev main_v220 : Ref sig .tc := ⟨.hbm, 296, rfl⟩
abbrev main_v221 : Ref sig .tc := ⟨.hbm, 297, rfl⟩
abbrev main_c_42 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_cst_43 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x70_0_1 : S850000x1.BroadcastsInDim S850000x70 (![0, 1] : Fin 2 → Fin S850000x70.rank)
  bcast_S_S50000x70 : S_.BroadcastsInDim S50000x70 (![] : Fin 0 → Fin S50000x70.rank)
  bcast_S70_S1x70_1 : S70.BroadcastsInDim S1x70 (![1] : Fin 1 → Fin S1x70.rank)
  bcast_S1x70_S50000x70_0_1 : S1x70.BroadcastsInDim S50000x70 (![0, 1] : Fin 2 → Fin S50000x70.rank)
  reducesTo_S50000x70_S70_d0 : S50000x70.ReducesTo [0] S70
  h_S_ : 0 < S_.numel
  bcast_S_S70 : S_.BroadcastsInDim S70 (![] : Fin 0 → Fin S70.rank)
  bcast_S850000x1_S850000x60_0_1 : S850000x1.BroadcastsInDim S850000x60 (![0, 1] : Fin 2 → Fin S850000x60.rank)
  bcast_S_S50000x60 : S_.BroadcastsInDim S50000x60 (![] : Fin 0 → Fin S50000x60.rank)
  bcast_S60_S1x60_1 : S60.BroadcastsInDim S1x60 (![1] : Fin 1 → Fin S1x60.rank)
  bcast_S1x60_S50000x60_0_1 : S1x60.BroadcastsInDim S50000x60 (![0, 1] : Fin 2 → Fin S50000x60.rank)
  reducesTo_S50000x60_S60_d0 : S50000x60.ReducesTo [0] S60
  bcast_S_S60 : S_.BroadcastsInDim S60 (![] : Fin 0 → Fin S60.rank)
  bcast_S850000x1_S850000x50_0_1 : S850000x1.BroadcastsInDim S850000x50 (![0, 1] : Fin 2 → Fin S850000x50.rank)
  bcast_S_S50000x50 : S_.BroadcastsInDim S50000x50 (![] : Fin 0 → Fin S50000x50.rank)
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  bcast_S850000x1_S850000x88_0_1 : S850000x1.BroadcastsInDim S850000x88 (![0, 1] : Fin 2 → Fin S850000x88.rank)
  bcast_S_S50000x88 : S_.BroadcastsInDim S50000x88 (![] : Fin 0 → Fin S50000x88.rank)
  bcast_S88_S1x88_1 : S88.BroadcastsInDim S1x88 (![1] : Fin 1 → Fin S1x88.rank)
  bcast_S1x88_S50000x88_0_1 : S1x88.BroadcastsInDim S50000x88 (![0, 1] : Fin 2 → Fin S50000x88.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x88_S88x70_S50000x70_1_0_0_1_n_n_wf : DotDims.WF S50000x88 S88x70 S50000x70 [1] [0] [0] [1] [] []
  gather_S50000x70_S850000x1_S850000x70_1_0_n_n_0_1_170_wf : GatherDims.WF S50000x70 S850000x1 S850000x70 [1] [0] [] [0] [] 1 ![1, 70]
  scatter_S50000x70_S850000x1_S850000x70_1_0_0_1_wf : ScatterDims.WF S50000x70 S850000x1 S850000x70 [1] [0] [0] 1
  dot_S50000x70_S70x60_S50000x60_1_0_0_1_n_n_wf : DotDims.WF S50000x70 S70x60 S50000x60 [1] [0] [0] [1] [] []
  gather_S50000x60_S850000x1_S850000x60_1_0_n_n_0_1_160_wf : GatherDims.WF S50000x60 S850000x1 S850000x60 [1] [0] [] [0] [] 1 ![1, 60]
  scatter_S50000x60_S850000x1_S850000x60_1_0_0_1_wf : ScatterDims.WF S50000x60 S850000x1 S850000x60 [1] [0] [0] 1
  dot_S50000x60_S60x50_S50000x50_1_0_0_1_n_n_wf : DotDims.WF S50000x60 S60x50 S50000x50 [1] [0] [0] [1] [] []
  gather_S50000x50_S850000x1_S850000x50_1_0_n_n_0_1_150_wf : GatherDims.WF S50000x50 S850000x1 S850000x50 [1] [0] [] [0] [] 1 ![1, 50]
  scatter_S50000x50_S850000x1_S850000x50_1_0_0_1_wf : ScatterDims.WF S50000x50 S850000x1 S850000x50 [1] [0] [0] 1
  dot_S50000x50_S50x60_S50000x60_1_0_0_1_n_n_wf : DotDims.WF S50000x50 S50x60 S50000x60 [1] [0] [0] [1] [] []
  dot_S50000x60_S60x70_S50000x70_1_0_0_1_n_n_wf : DotDims.WF S50000x60 S60x70 S50000x70 [1] [0] [0] [1] [] []
  dot_S50000x70_S70x88_S50000x88_1_0_0_1_n_n_wf : DotDims.WF S50000x70 S70x88 S50000x88 [1] [0] [0] [1] [] []
  gather_S50000x88_S850000x1_S850000x88_1_0_n_n_0_1_188_wf : GatherDims.WF S50000x88 S850000x1 S850000x88 [1] [0] [] [0] [] 1 ![1, 88]
  scatter_S50000x88_S850000x1_S850000x88_1_0_0_1_wf : ScatterDims.WF S50000x88 S850000x1 S850000x88 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x88_S88x70_S50000x70_1_0_0_1_n_n : DotDims S50000x88 S88x70 S50000x70 where
  lhsContracting := [1]
  rhsContracting := [0]
  lhsNonContracting := [0]
  rhsNonContracting := [1]
  lhsBatch := []
  rhsBatch := []
  wf := dot_S50000x88_S88x70_S50000x70_1_0_0_1_n_n_wf
def gather_S50000x70_S850000x1_S850000x70_1_0_n_n_0_1_170 : GatherDims S50000x70 S850000x1 S850000x70 where
  offsetDims := [1]
  collapsedSliceDims := [0]
  operandBatchingDims := []
  startIndicesBatchingDims := []
  startIndexMap := [0]
  indexVectorDim := 1
  sliceSizes := ![1, 70]
  wf := gather_S50000x70_S850000x1_S850000x70_1_0_n_n_0_1_170_wf
def scatter_S50000x70_S850000x1_S850000x70_1_0_0_1 : ScatterDims S50000x70 S850000x1 S850000x70 where
  updateWindowDims := [1]
  insertedWindowDims := [0]
  scatterDimsToOperandDims := [0]
  indexVectorDim := 1
  wf := scatter_S50000x70_S850000x1_S850000x70_1_0_0_1_wf
def dot_S50000x70_S70x60_S50000x60_1_0_0_1_n_n : DotDims S50000x70 S70x60 S50000x60 where
  lhsContracting := [1]
  rhsContracting := [0]
  lhsNonContracting := [0]
  rhsNonContracting := [1]
  lhsBatch := []
  rhsBatch := []
  wf := dot_S50000x70_S70x60_S50000x60_1_0_0_1_n_n_wf
def gather_S50000x60_S850000x1_S850000x60_1_0_n_n_0_1_160 : GatherDims S50000x60 S850000x1 S850000x60 where
  offsetDims := [1]
  collapsedSliceDims := [0]
  operandBatchingDims := []
  startIndicesBatchingDims := []
  startIndexMap := [0]
  indexVectorDim := 1
  sliceSizes := ![1, 60]
  wf := gather_S50000x60_S850000x1_S850000x60_1_0_n_n_0_1_160_wf
def scatter_S50000x60_S850000x1_S850000x60_1_0_0_1 : ScatterDims S50000x60 S850000x1 S850000x60 where
  updateWindowDims := [1]
  insertedWindowDims := [0]
  scatterDimsToOperandDims := [0]
  indexVectorDim := 1
  wf := scatter_S50000x60_S850000x1_S850000x60_1_0_0_1_wf
def dot_S50000x60_S60x50_S50000x50_1_0_0_1_n_n : DotDims S50000x60 S60x50 S50000x50 where
  lhsContracting := [1]
  rhsContracting := [0]
  lhsNonContracting := [0]
  rhsNonContracting := [1]
  lhsBatch := []
  rhsBatch := []
  wf := dot_S50000x60_S60x50_S50000x50_1_0_0_1_n_n_wf
def gather_S50000x50_S850000x1_S850000x50_1_0_n_n_0_1_150 : GatherDims S50000x50 S850000x1 S850000x50 where
  offsetDims := [1]
  collapsedSliceDims := [0]
  operandBatchingDims := []
  startIndicesBatchingDims := []
  startIndexMap := [0]
  indexVectorDim := 1
  sliceSizes := ![1, 50]
  wf := gather_S50000x50_S850000x1_S850000x50_1_0_n_n_0_1_150_wf
def scatter_S50000x50_S850000x1_S850000x50_1_0_0_1 : ScatterDims S50000x50 S850000x1 S850000x50 where
  updateWindowDims := [1]
  insertedWindowDims := [0]
  scatterDimsToOperandDims := [0]
  indexVectorDim := 1
  wf := scatter_S50000x50_S850000x1_S850000x50_1_0_0_1_wf
def dot_S50000x50_S50x60_S50000x60_1_0_0_1_n_n : DotDims S50000x50 S50x60 S50000x60 where
  lhsContracting := [1]
  rhsContracting := [0]
  lhsNonContracting := [0]
  rhsNonContracting := [1]
  lhsBatch := []
  rhsBatch := []
  wf := dot_S50000x50_S50x60_S50000x60_1_0_0_1_n_n_wf
def dot_S50000x60_S60x70_S50000x70_1_0_0_1_n_n : DotDims S50000x60 S60x70 S50000x70 where
  lhsContracting := [1]
  rhsContracting := [0]
  lhsNonContracting := [0]
  rhsNonContracting := [1]
  lhsBatch := []
  rhsBatch := []
  wf := dot_S50000x60_S60x70_S50000x70_1_0_0_1_n_n_wf
def dot_S50000x70_S70x88_S50000x88_1_0_0_1_n_n : DotDims S50000x70 S70x88 S50000x88 where
  lhsContracting := [1]
  rhsContracting := [0]
  lhsNonContracting := [0]
  rhsNonContracting := [1]
  lhsBatch := []
  rhsBatch := []
  wf := dot_S50000x70_S70x88_S50000x88_1_0_0_1_n_n_wf
def gather_S50000x88_S850000x1_S850000x88_1_0_n_n_0_1_188 : GatherDims S50000x88 S850000x1 S850000x88 where
  offsetDims := [1]
  collapsedSliceDims := [0]
  operandBatchingDims := []
  startIndicesBatchingDims := []
  startIndexMap := [0]
  indexVectorDim := 1
  sliceSizes := ![1, 88]
  wf := gather_S50000x88_S850000x1_S850000x88_1_0_n_n_0_1_188_wf
def scatter_S50000x88_S850000x1_S850000x88_1_0_0_1 : ScatterDims S50000x88 S850000x1 S850000x88 where
  updateWindowDims := [1]
  insertedWindowDims := [0]
  scatterDimsToOperandDims := [0]
  indexVectorDim := 1
  wf := scatter_S50000x88_S850000x1_S850000x88_1_0_0_1_wf

class Facts : Prop extends Facts₀ where

variable [Facts]
-- ==== Proof.RefStages.lean ====
/-
  The reference program, stage by stage: each definition below is one step of the graph convolution network as the
  reference computes it, a pure function of arrays.  A layer is  relu? ( Â · (h W) + b )  with the normalised adjacency
  Â applied edge by edge: project the node features (h W), gather the projected row of every edge's source node, scale
  it by the edge's weight  1/√(deg src) · 1/√(deg dst), sum the scaled rows into the edge's destination node, add the
  bias row, clamp below at zero.  A batch normalisation centres every column at its mean over the nodes, divides by
  the square root of (its variance + ε) and applies the affine pair (γ, β).
-/
import proofs.«147321_j32504312496394_1_alg».proof.Proof.Gen.ReferenceIdeal

noncomputable section

namespace Cert.ReferenceIdeal.Val

open Cert.ReferenceIdeal Cert.ReferenceIdeal.Gen Idealize.ShloMosaic

variable {F : FTy → Type} [FloatOps F]

/-! ## The edge list with self loops, and the edge weights -/

/-- Source node of every edge: row 0 of the edge list, then one self loop per node. -/
def srcIdx (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Destination node of every edge: row 1 of the edge list, then the self loops. -/
def dstIdx (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- Node indices as a column of gather start indices, a negative index counted from the end. -/
def wrapCol (s : IVec S850000 32) : IVec S850000x1 32 :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- Node indices as a column of scatter indices. -/
def idxCol (d : IVec S850000 32) : IVec S850000x1 32 := broadcastInDim S850000x1 ![0] bcast_S850000_S850000x1_0 d

/-- In-degree of every node, self loop included: one unit summed into each edge's destination. -/
def degree (d : IVec S850000 32) : FVec F S50000 .f32 :=
  Host.scatterAdd scatter_S50000_S850000x1_S850000_n_0_0_1 (broadcastInDim S50000 ![] bcast_S_S50000 (constant (F := F) S_ .f32 0x00000000#32)) (idxCol d) (broadcastInDim S850000 ![] bcast_S_S850000 (constant (F := F) S_ .f32 0x3F800000#32))

/-- 1/√deg where the degree is positive, 0 elsewhere. -/
def invSqrtDeg (d : IVec S850000 32) : FVec F S50000 .f32 :=
  select (cmpf .ogt (degree (F := F) d) (broadcastInDim S50000 ![] bcast_S_S50000 (constant (F := F) S_ .f32 0x00000000#32))) (Host.rsqrt (degree (F := F) d)) (broadcastInDim S50000 ![] bcast_S_S50000 (id (constant (F := F) S_ .f32 0x00000000#32)))

/-- The weight of every edge: 1/√(deg src) · 1/√(deg dst). -/
def edgeNorm (s d : IVec S850000 32) : FVec F S850000 .f32 :=
  mulf (Host.gather gather_S50000_S850000x1_S850000_n_0_n_n_0_1_1 (invSqrtDeg (F := F) d) (wrapCol s)) (Host.gather gather_S50000_S850000x1_S850000_n_0_n_n_0_1_1 (invSqrtDeg (F := F) d) (wrapCol d))

/-- The edge weights as a column. -/
def normCol (n : FVec F S850000 .f32) : FVec F S850000x1 .f32 := broadcastInDim S850000x1 ![0] bcast_S850000_S850000x1_0 n

/-! ## Width 70 -/

/-- The projected row of every edge's source node. -/
def gatherRows70 (H : FVec F S50000x70 .f32) (s : IVec S850000 32) : FVec F S850000x70 .f32 :=
  Host.gather gather_S50000x70_S850000x1_S850000x70_1_0_n_n_0_1_170 H (wrapCol s)

/-- Every edge's row times the edge's weight. -/
def scaleRows70 (A : FVec F S850000x70 .f32) (n2 : FVec F S850000x1 .f32) : FVec F S850000x70 .f32 :=
  mulf A (broadcastInDim S850000x70 ![0, 1] bcast_S850000x1_S850000x70_0_1 n2)

/-- The edges' rows summed into their destination nodes. -/
def sumByDst70 (msg : FVec F S850000x70 .f32) (d : IVec S850000 32) : FVec F S50000x70 .f32 :=
  Host.scatterAdd scatter_S50000x70_S850000x1_S850000x70_1_0_0_1 (broadcastInDim S50000x70 ![] bcast_S_S50000x70 (constant (F := F) S_ .f32 0x00000000#32)) (idxCol d) msg

/-- A vector as a one-row matrix. -/
def rowOf70 (b : FVec F S70 .f32) : FVec F S1x70 .f32 := broadcastInDim S1x70 ![1] bcast_S70_S1x70_1 b

/-- A one-row matrix repeated down the nodes. -/
def downRows70 (r : FVec F S1x70 .f32) : FVec F S50000x70 .f32 := broadcastInDim S50000x70 ![0, 1] bcast_S1x70_S50000x70_0_1 r

/-- The same row added to every node's row. -/
def addRow70 (A : FVec F S50000x70 .f32) (r : FVec F S1x70 .f32) : FVec F S50000x70 .f32 := addf A (downRows70 r)

/-- Clamped below at zero. -/
def relu70 (X : FVec F S50000x70 .f32) : FVec F S50000x70 .f32 :=
  maximumf X (broadcastInDim S50000x70 ![] bcast_S_S50000x70 (constant (F := F) S_ .f32 0x00000000#32))

/-! ## Width 60 -/

/-- The projected row of every edge's source node. -/
def gatherRows60 (H : FVec F S50000x60 .f32) (s : IVec S850000 32) : FVec F S850000x60 .f32 :=
  Host.gather gather_S50000x60_S850000x1_S850000x60_1_0_n_n_0_1_160 H (wrapCol s)

/-- Every edge's row times the edge's weight. -/
def scaleRows60 (A : FVec F S850000x60 .f32) (n2 : FVec F S850000x1 .f32) : FVec F S850000x60 .f32 :=
  mulf A (broadcastInDim S850000x60 ![0, 1] bcast_S850000x1_S850000x60_0_1 n2)

/-- The edges' rows summed into their destination nodes. -/
def sumByDst60 (msg : FVec F S850000x60 .f32) (d : IVec S850000 32) : FVec F S50000x60 .f32 :=
  Host.scatterAdd scatter_S50000x60_S850000x1_S850000x60_1_0_0_1 (broadcastInDim S50000x60 ![] bcast_S_S50000x60 (constant (F := F) S_ .f32 0x00000000#32)) (idxCol d) msg

/-- A vector as a one-row matrix. -/
def rowOf60 (b : FVec F S60 .f32) : FVec F S1x60 .f32 := broadcastInDim S1x60 ![1] bcast_S60_S1x60_1 b

/-- A one-row matrix repeated down the nodes. -/
def downRows60 (r : FVec F S1x60 .f32) : FVec F S50000x60 .f32 := broadcastInDim S50000x60 ![0, 1] bcast_S1x60_S50000x60_0_1 r

/-- The same row added to every node's row. -/
def addRow60 (A : FVec F S50000x60 .f32) (r : FVec F S1x60 .f32) : FVec F S50000x60 .f32 := addf A (downRows60 r)

/-- Clamped below at zero. -/
def relu60 (X : FVec F S50000x60 .f32) : FVec F S50000x60 .f32 :=
  maximumf X (broadcastInDim S50000x60 ![] bcast_S_S50000x60 (constant (F := F) S_ .f32 0x00000000#32))

/-! ## Width 50 -/

/-- The projected row of every edge's source node. -/
def gatherRows50 (H : FVec F S50000x50 .f32) (s : IVec S850000 32) : FVec F S850000x50 .f32 :=
  Host.gather gather_S50000x50_S850000x1_S850000x50_1_0_n_n_0_1_150 H (wrapCol s)

/-- Every edge's row times the edge's weight. -/
def scaleRows50 (A : FVec F S850000x50 .f32) (n2 : FVec F S850000x1 .f32) : FVec F S850000x50 .f32 :=
  mulf A (broadcastInDim S850000x50 ![0, 1] bcast_S850000x1_S850000x50_0_1 n2)

/-- The edges' rows summed into their destination nodes. -/
def sumByDst50 (msg : FVec F S850000x50 .f32) (d : IVec S850000 32) : FVec F S50000x50 .f32 :=
  Host.scatterAdd scatter_S50000x50_S850000x1_S850000x50_1_0_0_1 (broadcastInDim S50000x50 ![] bcast_S_S50000x50 (constant (F := F) S_ .f32 0x00000000#32)) (idxCol d) msg

/-- A vector as a one-row matrix. -/
def rowOf50 (b : FVec F S50 .f32) : FVec F S1x50 .f32 := broadcastInDim S1x50 ![1] bcast_S50_S1x50_1 b

/-- A one-row matrix repeated down the nodes. -/
def downRows50 (r : FVec F S1x50 .f32) : FVec F S50000x50 .f32 := broadcastInDim S50000x50 ![0, 1] bcast_S1x50_S50000x50_0_1 r

/-- The same row added to every node's row. -/
def addRow50 (A : FVec F S50000x50 .f32) (r : FVec F S1x50 .f32) : FVec F S50000x50 .f32 := addf A (downRows50 r)

/-- Clamped below at zero. -/
def relu50 (X : FVec F S50000x50 .f32) : FVec F S50000x50 .f32 :=
  maximumf X (broadcastInDim S50000x50 ![] bcast_S_S50000x50 (constant (F := F) S_ .f32 0x00000000#32))

/-! ## Width 88 -/

/-- The projected row of every edge's source node. -/
def gatherRows88 (H : FVec F S50000x88 .f32) (s : IVec S850000 32) : FVec F S850000x88 .f32 :=
  Host.gather gather_S50000x88_S850000x1_S850000x88_1_0_n_n_0_1_188 H (wrapCol s)

/-- Every edge's row times the edge's weight. -/
def scaleRows88 (A : FVec F S850000x88 .f32) (n2 : FVec F S850000x1 .f32) : FVec F S850000x88 .f32 :=
  mulf A (broadcastInDim S850000x88 ![0, 1] bcast_S850000x1_S850000x88_0_1 n2)

/-- The edges' rows summed into their destination nodes. -/
def sumByDst88 (msg : FVec F S850000x88 .f32) (d : IVec S850000 32) : FVec F S50000x88 .f32 :=
  Host.scatterAdd scatter_S50000x88_S850000x1_S850000x88_1_0_0_1 (broadcastInDim S50000x88 ![] bcast_S_S50000x88 (constant (F := F) S_ .f32 0x00000000#32)) (idxCol d) msg

/-- A vector as a one-row matrix. -/
def rowOf88 (b : FVec F S88 .f32) : FVec F S1x88 .f32 := broadcastInDim S1x88 ![1] bcast_S88_S1x88_1 b

/-- A one-row matrix repeated down the nodes. -/
def downRows88 (r : FVec F S1x88 .f32) : FVec F S50000x88 .f32 := broadcastInDim S50000x88 ![0, 1] bcast_S1x88_S50000x88_0_1 r

/-- The same row added to every node's row. -/
def addRow88 (A : FVec F S50000x88 .f32) (r : FVec F S1x88 .f32) : FVec F S50000x88 .f32 := addf A (downRows88 r)

/-- Clamped below at zero. -/
def relu88 (X : FVec F S50000x88 .f32) : FVec F S50000x88 .f32 :=
  maximumf X (broadcastInDim S50000x88 ![] bcast_S_S50000x88 (constant (F := F) S_ .f32 0x00000000#32))

/-! ## Batch normalisation at width 70 -/

/-- Column means over the 50000 nodes. -/
def colMean70 (h : FVec F S50000x70 .f32) : FVec F S70 .f32 :=
  Host.divf (Host.reduceAdd h (constant (F := F) S_ .f32 0x00000000#32) reducesTo_S50000x70_S70_d0 h_S_) (broadcastInDim S70 ![] bcast_S_S70 (constant (F := F) S_ .f32 0x47435000#32))

/-- Column variances: the mean of the squared distances from the column mean. -/
def colVar70 (h : FVec F S50000x70 .f32) : FVec F S70 .f32 :=
  Host.divf (Host.reduceAdd (mulf (subf h (downRows70 (rowOf70 (colMean70 h)))) (subf h (downRows70 (rowOf70 (colMean70 h))))) (constant (F := F) S_ .f32 0x00000000#32) reducesTo_S50000x70_S70_d0 h_S_) (broadcastInDim S70 ![] bcast_S_S70 (constant (F := F) S_ .f32 0x47435000#32))

/-- 1/√(variance + ε). -/
def invStd70 (h : FVec F S50000x70 .f32) : FVec F S70 .f32 :=
  Host.rsqrt (addf (colVar70 h) (broadcastInDim S70 ![] bcast_S_S70 (constant (F := F) S_ .f32 0x3727C5AC#32)))

/-- γ · (h − mean) · invstd + β, column by column, grouped as the reference groups it. -/
def normalize70 (h : FVec F S50000x70 .f32) (mean2 inv2 g2 be2 : FVec F S1x70 .f32) : FVec F S50000x70 .f32 :=
  addf (mulf (mulf (downRows70 g2) (subf h (downRows70 mean2))) (downRows70 inv2)) (downRows70 be2)

/-- The batch normalisation of `h` with the affine pair (γ, β). -/
def batchNorm70 (h : FVec F S50000x70 .f32) (g be : FVec F S70 .f32) : FVec F S50000x70 .f32 :=
  normalize70 h (rowOf70 (colMean70 h)) (rowOf70 (invStd70 h)) (rowOf70 g) (rowOf70 be)

/-! ## Batch normalisation at width 60 -/

/-- Column means over the 50000 nodes. -/
def colMean60 (h : FVec F S50000x60 .f32) : FVec F S60 .f32 :=
  Host.divf (Host.reduceAdd h (constant (F := F) S_ .f32 0x00000000#32) reducesTo_S50000x60_S60_d0 h_S_) (broadcastInDim S60 ![] bcast_S_S60 (constant (F := F) S_ .f32 0x47435000#32))

/-- Column variances: the mean of the squared distances from the column mean. -/
def colVar60 (h : FVec F S50000x60 .f32) : FVec F S60 .f32 :=
  Host.divf (Host.reduceAdd (mulf (subf h (downRows60 (rowOf60 (colMean60 h)))) (subf h (downRows60 (rowOf60 (colMean60 h))))) (constant (F := F) S_ .f32 0x00000000#32) reducesTo_S50000x60_S60_d0 h_S_) (broadcastInDim S60 ![] bcast_S_S60 (constant (F := F) S_ .f32 0x47435000#32))

/-- 1/√(variance + ε). -/
def invStd60 (h : FVec F S50000x60 .f32) : FVec F S60 .f32 :=
  Host.rsqrt (addf (colVar60 h) (broadcastInDim S60 ![] bcast_S_S60 (constant (F := F) S_ .f32 0x3727C5AC#32)))

/-- γ · (h − mean) · invstd + β, column by column, grouped as the reference groups it. -/
def normalize60 (h : FVec F S50000x60 .f32) (mean2 inv2 g2 be2 : FVec F S1x60 .f32) : FVec F S50000x60 .f32 :=
  addf (mulf (mulf (downRows60 g2) (subf h (downRows60 mean2))) (downRows60 inv2)) (downRows60 be2)

/-- The batch normalisation of `h` with the affine pair (γ, β). -/
def batchNorm60 (h : FVec F S50000x60 .f32) (g be : FVec F S60 .f32) : FVec F S50000x60 .f32 :=
  normalize60 h (rowOf60 (colMean60 h)) (rowOf60 (invStd60 h)) (rowOf60 g) (rowOf60 be)

/-! ## The six layers and the network -/

/-- Layer 1, 88 → 70 features, clamped at zero. -/
def layer1 (h : FVec F S50000x88 .f32) (W : FVec F S88x70 .f32) (b : FVec F S70 .f32) (s d : IVec S850000 32) (n : FVec F S850000 .f32) : FVec F S50000x70 .f32 :=
  relu70 (addRow70 (sumByDst70 (scaleRows70 (gatherRows70 (Host.dotGeneral dot_S50000x88_S88x70_S50000x70_1_0_0_1_n_n none h W) s) (normCol n)) d) (rowOf70 b))

/-- Layer 2, 70 → 60 features, clamped at zero. -/
def layer2 (h : FVec F S50000x70 .f32) (W : FVec F S70x60 .f32) (b : FVec F S60 .f32) (s d : IVec S850000 32) (n : FVec F S850000 .f32) : FVec F S50000x60 .f32 :=
  relu60 (addRow60 (sumByDst60 (scaleRows60 (gatherRows60 (Host.dotGeneral dot_S50000x70_S70x60_S50000x60_1_0_0_1_n_n none h W) s) (normCol n)) d) (rowOf60 b))

/-- Layer 3, 60 → 50 features. -/
def layer3 (h : FVec F S50000x60 .f32) (W : FVec F S60x50 .f32) (b : FVec F S50 .f32) (s d : IVec S850000 32) (n : FVec F S850000 .f32) : FVec F S50000x50 .f32 :=
  addRow50 (sumByDst50 (scaleRows50 (gatherRows50 (Host.dotGeneral dot_S50000x60_S60x50_S50000x50_1_0_0_1_n_n none h W) s) (normCol n)) d) (rowOf50 b)

/-- Layer 4, 50 → 60 features, clamped at zero. -/
def layer4 (h : FVec F S50000x50 .f32) (W : FVec F S50x60 .f32) (b : FVec F S60 .f32) (s d : IVec S850000 32) (n : FVec F S850000 .f32) : FVec F S50000x60 .f32 :=
  relu60 (addRow60 (sumByDst60 (scaleRows60 (gatherRows60 (Host.dotGeneral dot_S50000x50_S50x60_S50000x60_1_0_0_1_n_n none h W) s) (normCol n)) d) (rowOf60 b))

/-- Layer 5, 60 → 70 features, clamped at zero. -/
def layer5 (h : FVec F S50000x60 .f32) (W : FVec F S60x70 .f32) (b : FVec F S70 .f32) (s d : IVec S850000 32) (n : FVec F S850000 .f32) : FVec F S50000x70 .f32 :=
  relu70 (addRow70 (sumByDst70 (scaleRows70 (gatherRows70 (Host.dotGeneral dot_S50000x60_S60x70_S50000x70_1_0_0_1_n_n none h W) s) (normCol n)) d) (rowOf70 b))

/-- Layer 6, 70 → 88 features. -/
def layer6 (h : FVec F S50000x70 .f32) (W : FVec F S70x88 .f32) (b : FVec F S88 .f32) (s d : IVec S850000 32) (n : FVec F S850000 .f32) : FVec F S50000x88 .f32 :=
  addRow88 (sumByDst88 (scaleRows88 (gatherRows88 (Host.dotGeneral dot_S50000x70_S70x88_S50000x88_1_0_0_1_n_n none h W) s) (normCol n)) d) (rowOf88 b)

/-- The network: encoder 88 → 70 → 60 → 50, decoder 50 → 60 → 70 → 88, a batch normalisation after layers 1, 2, 4 and 5. -/
def network (x : FVec F S50000x88 .f32) (e : IVec S2x800000 32)
    (W1 : FVec F S88x70 .f32) (b1 : FVec F S70 .f32) (W2 : FVec F S70x60 .f32) (b2 : FVec F S60 .f32) (W3 : FVec F S60x50 .f32) (b3 : FVec F S50 .f32)
    (W4 : FVec F S50x60 .f32) (b4 : FVec F S60 .f32) (W5 : FVec F S60x70 .f32) (b5 : FVec F S70 .f32) (W6 : FVec F S70x88 .f32) (b6 : FVec F S88 .f32)
    (g1 be1 : FVec F S70 .f32) (g2 be2 : FVec F S60 .f32) (g3 be3 : FVec F S60 .f32) (g4 be4 : FVec F S70 .f32) : FVec F S50000x88 .f32 :=
  let s := srcIdx e
  let d := dstIdx e
  let n := edgeNorm (F := F) s d
  let h1 := batchNorm70 (layer1 x W1 b1 s d n) g1 be1
  let h2 := batchNorm60 (layer2 h1 W2 b2 s d n) g2 be2
  let h3 := layer3 h2 W3 b3 s d n
  let h4 := batchNorm60 (layer4 h3 W4 b4 s d n) g3 be3
  let h5 := batchNorm70 (layer5 h4 W5 b5 s d n) g4 be4
  layer6 h5 W6 b6 s d n

end Cert.ReferenceIdeal.Val

end
-- ==== Proof.NodeIdx.lean ====
import Idealize.ShloMosaic.PureOps

namespace Cert.Val

open Idealize.ShloMosaic

def NodeIdx {S : Shape} (s : IVec S 32) : Prop := ∀ j : S.Idx, 0 ≤ (s j).toInt ∧ (s j).toInt < 50000

end Cert.Val
-- ==== Proof.KernelGraph.lean ====
import proofs.«147321_j32504312496394_1_alg».proof.Proof.Gen.KernelIdeal.Launch
import proofs.«147321_j32504312496394_1_alg».proof.Proof.RefStages
import proofs.«147321_j32504312496394_1_alg».proof.Proof.NodeIdx
import Idealize.ShloMosaic.Lib.StableHlo.Run
import Idealize.ShloMosaic.Lib.Pipeline.Value
import Idealize.ShloMosaic.Lib.ValueIdx
import Idealize.ShloMosaic.Lib.IdealHost
import Idealize.ShloMosaic.Lib.DynamicIndex
noncomputable section
namespace Cert.KernelIdeal.Val
open Cert.KernelIdeal Cert.KernelIdeal.Gen Idealize.ShloMosaic Idealize.ShloMosaic.TcCoe Idealize.ShloMosaic.StableHlo
variable {F : FTy → Type} [FloatOps F]

abbrev atRegion0 (V : Valuation τ sig (Elt F)) : Valuation τ sig (Elt F) := after (hostOps0_2 (F := F)) (after (hostOps0_1 (F := F)) (after (hostOps0 (F := F)) V))

theorem src_after0 (V : Valuation τ sig (Elt F)) :
    after (hostOps0 (F := F)) V (Proc.devRef .tc main_v3) = Cert.ReferenceIdeal.Val.srcIdx (V (Proc.devRef .tc main_arg1)) := by
  show StableHlo.after hostOps0 V (Proc.devRef .tc main_v3) = _
  simp only [hostOps0]
  after_results
  unfold Cert.ReferenceIdeal.Val.srcIdx
  rfl

theorem dst_after0 (V : Valuation τ sig (Elt F)) :
    after (hostOps0 (F := F)) V (Proc.devRef .tc main_v6) = Cert.ReferenceIdeal.Val.dstIdx (V (Proc.devRef .tc main_arg1)) := by
  show StableHlo.after hostOps0 V (Proc.devRef .tc main_v6) = _
  simp only [hostOps0]
  after_results
  unfold Cert.ReferenceIdeal.Val.dstIdx
  rfl

theorem pos_after0 (V : Valuation τ sig (Elt F)) :
    after (hostOps0 (F := F)) V (Proc.devRef .tc main_v12)
      = cmpf .ogt (Cert.ReferenceIdeal.Val.degree (F := F) (Cert.ReferenceIdeal.Val.dstIdx (V (Proc.devRef .tc main_arg1))))
          (broadcastInDim S50000 ![] bcast_S_S50000 (constant (F := F) S_ .f32 0x00000000#32)) := by
  show StableHlo.after hostOps0 V (Proc.devRef .tc main_v12) = _
  simp only [hostOps0]
  after_results
  unfold Cert.ReferenceIdeal.Val.degree Cert.ReferenceIdeal.Val.idxCol Cert.ReferenceIdeal.Val.dstIdx
  rfl

theorem rsqrt_after0 (V : Valuation τ sig (Elt F)) :
    after (hostOps0 (F := F)) V (Proc.devRef .tc main_v13)
      = Host.rsqrt (Cert.ReferenceIdeal.Val.degree (F := F) (Cert.ReferenceIdeal.Val.dstIdx (V (Proc.devRef .tc main_arg1)))) := by
  show StableHlo.after hostOps0 V (Proc.devRef .tc main_v13) = _
  simp only [hostOps0]
  after_results
  unfold Cert.ReferenceIdeal.Val.degree Cert.ReferenceIdeal.Val.idxCol Cert.ReferenceIdeal.Val.dstIdx
  rfl

theorem zero_after0 (V : Valuation τ sig (Elt F)) :
    after (hostOps0 (F := F)) V (Proc.devRef .tc main_cst_2) = constant (F := F) S_ .f32 0x00000000#32 := by
  show StableHlo.after hostOps0 V (Proc.devRef .tc main_cst_2) = _
  simp only [hostOps0]
  after_results

theorem inv_after1 (V : Valuation τ sig (Elt F)) :
    after (hostOps0_1 (F := F)) V (Proc.devRef .tc main_v14)
      = select (V (Proc.devRef .tc main_v12)) (V (Proc.devRef .tc main_v13))
          (broadcastInDim S50000 ![] bcast_S_S50000 (id (V (Proc.devRef .tc main_cst_2)))) := by
  show StableHlo.after hostOps0_1 V (Proc.devRef .tc main_v14) = _
  simp only [hostOps0_1]
  after_results
  rfl

theorem src_after1 (V : Valuation τ sig (Elt F)) :
    after (hostOps0_1 (F := F)) V (Proc.devRef .tc main_v3) = V (Proc.devRef .tc main_v3) := by
  show StableHlo.after hostOps0_1 V (Proc.devRef .tc main_v3) = _
  simp only [hostOps0_1]
  after_results

theorem dst_after1 (V : Valuation τ sig (Elt F)) :
    after (hostOps0_1 (F := F)) V (Proc.devRef .tc main_v6) = V (Proc.devRef .tc main_v6) := by
  show StableHlo.after hostOps0_1 V (Proc.devRef .tc main_v6) = _
  simp only [hostOps0_1]
  after_results

theorem pos_after1 (V : Valuation τ sig (Elt F)) :
    after (hostOps0_1 (F := F)) V (Proc.devRef .tc main_v12) = V (Proc.devRef .tc main_v12) := by
  show StableHlo.after hostOps0_1 V (Proc.devRef .tc main_v12) = _
  simp only [hostOps0_1]
  after_results

theorem src_after2 (V : Valuation τ sig (Elt F)) :
    after (hostOps0_2 (F := F)) V (Proc.devRef .tc main_v3) = V (Proc.devRef .tc main_v3) := by
  show StableHlo.after hostOps0_2 V (Proc.devRef .tc main_v3) = _
  simp only [hostOps0_2]
  after_results

theorem dst_after2 (V : Valuation τ sig (Elt F)) :
    after (hostOps0_2 (F := F)) V (Proc.devRef .tc main_v6) = V (Proc.devRef .tc main_v6) := by
  show StableHlo.after hostOps0_2 V (Proc.devRef .tc main_v6) = _
  simp only [hostOps0_2]
  after_results

set_option maxHeartbeats 1000000 in

theorem norm_after2 (V : Valuation τ sig (Elt F)) :
    after (hostOps0_2 (F := F)) V (Proc.devRef .tc main_v29)
      = mulf (Host.gather gather_S50000_S850000x1_S850000_n_0_n_n_0_1_1 (V (Proc.devRef .tc main_v14)) (Cert.ReferenceIdeal.Val.wrapCol (V (Proc.devRef .tc main_v3))))
          (Host.gather gather_S50000_S850000x1_S850000_n_0_n_n_0_1_1 (V (Proc.devRef .tc main_v14)) (Cert.ReferenceIdeal.Val.wrapCol (V (Proc.devRef .tc main_v6)))) := by
  show StableHlo.after hostOps0_2 V (Proc.devRef .tc main_v29) = _
  simp only [hostOps0_2]
  after_results_simp
  unfold Cert.ReferenceIdeal.Val.wrapCol
  rfl

theorem src_atRegion0 (V : Valuation τ sig (Elt F)) :
    atRegion0 V (Proc.devRef .tc main_v3) = Cert.ReferenceIdeal.Val.srcIdx (V (Proc.devRef .tc main_arg1)) := by
  show after (hostOps0_2 (F := F)) (after (hostOps0_1 (F := F)) (after (hostOps0 (F := F)) V)) (Proc.devRef .tc main_v3) = _
  rw [src_after2, src_after1, src_after0]

theorem dst_atRegion0 (V : Valuation τ sig (Elt F)) :
    atRegion0 V (Proc.devRef .tc main_v6) = Cert.ReferenceIdeal.Val.dstIdx (V (Proc.devRef .tc main_arg1)) := by
  show after (hostOps0_2 (F := F)) (after (hostOps0_1 (F := F)) (after (hostOps0 (F := F)) V)) (Proc.devRef .tc main_v6) = _
  rw [dst_after2, dst_after1, dst_after0]

theorem inv_after01 (V : Valuation τ sig (Elt F)) :
    after (hostOps0_1 (F := F)) (after (hostOps0 (F := F)) V) (Proc.devRef .tc main_v14)
      = Cert.ReferenceIdeal.Val.invSqrtDeg (F := F) (Cert.ReferenceIdeal.Val.dstIdx (V (Proc.devRef .tc main_arg1))) := by
  rw [inv_after1, pos_after0, rsqrt_after0, zero_after0]
  unfold Cert.ReferenceIdeal.Val.invSqrtDeg
  rfl

theorem norm_atRegion0 (V : Valuation τ sig (Elt F)) :
    atRegion0 V (Proc.devRef .tc main_v29)
      = Cert.ReferenceIdeal.Val.edgeNorm (F := F) (Cert.ReferenceIdeal.Val.srcIdx (V (Proc.devRef .tc main_arg1))) (Cert.ReferenceIdeal.Val.dstIdx (V (Proc.devRef .tc main_arg1))) := by
  show after (hostOps0_2 (F := F)) (after (hostOps0_1 (F := F)) (after (hostOps0 (F := F)) V)) (Proc.devRef .tc main_v29) = _
  rw [norm_after2, inv_after01, src_after1, src_after0, dst_after1, dst_after0]
  unfold Cert.ReferenceIdeal.Val.edgeNorm
  rfl

theorem srcIdx_nodeIdx (e : IVec S2x800000 32) (he : Cert.Val.NodeIdx e) : Cert.Val.NodeIdx (Cert.ReferenceIdeal.Val.srcIdx e) := by
  intro j
  unfold Cert.ReferenceIdeal.Val.srcIdx
  by_cases hj : (j 0).val < 800000
  ·
    rw [concatenate_pair_apply_left (s₁ := S800000) (s₂ := S50000) (0 : Fin S850000.rank) _ _ _ j rfl
      (ValueIdx.ix1 ⟨(j 0).val, hj⟩) (fun b => by match b with | ⟨0, _⟩ => rfl)]
    rw [shapeCast_apply (s := S1x800000) (t := S800000) _ _ (ValueIdx.ix1 ⟨(j 0).val, hj⟩) (ValueIdx.ix2 (0 : Fin 1) ⟨(j 0).val, hj⟩)
      (by rw [Shape.rowMajor_val_two, Shape.rowMajor_val_one]; simp)]
    rw [extractStridedSlice_apply (s := S2x800000) (t := S1x800000) ![0, 0] e _ _ (ValueIdx.ix2 (0 : Fin 2) ⟨(j 0).val, hj⟩)
      (fun a => by match a with | ⟨0, _⟩ => rfl | ⟨1, _⟩ => simp)]
    exact he _
  ·
    have hlt : (j 0).val - 800000 < 50000 := by
      have h850 : (j 0).val < 850000 := (j 0).isLt
      omega
    rw [concatenate_pair_apply_right (s₁ := S800000) (s₂ := S50000) (0 : Fin S850000.rank) _ _ _ j rfl rfl
      (ValueIdx.ix1 ⟨(j 0).val - 800000, hlt⟩) (fun b hb => absurd (Fin.ext (by have hb1 : b.val < 1 := b.isLt; show b.val = 0; omega)) hb)
      (by show (j 0).val - 800000 + 800000 = (j 0).val; omega)]
    rw [ValueIdx.iotaInDim_apply]
    show 0 ≤ (BitVec.ofNat 32 ((j 0).val - 800000)).toInt ∧ (BitVec.ofNat 32 ((j 0).val - 800000)).toInt < 50000
    rw [toInt_ofNat_of_lt (by omega)]
    omega

end Cert.KernelIdeal.Val

end
-- ==== Proof.KernelCarried.lean ====
import proofs.«147321_j32504312496394_1_alg».proof.Proof.Gen.KernelIdeal.Launch
import Idealize.ShloMosaic.Lib.StableHlo.Run

noncomputable section

namespace Cert.KernelIdeal.Val

open Cert.KernelIdeal Cert.KernelIdeal.Gen Idealize.ShloMosaic Idealize.ShloMosaic.TcCoe Idealize.ShloMosaic.StableHlo

variable {F : FTy → Type} [FloatOps F]

def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

variable (m : (ℓ : Loc nD τ sig) → Buf (Elt F) ℓ) (c : Dev nD)

structure Carried (W : Valuation τ sig (Elt F)) (s d : IVec S850000 32) (n : FVec F S850000 .f32) : Prop where
  src : W (Proc.devRef .tc main_v3) = s
  dst : W (Proc.devRef .tc main_v6) = d
  nrm : W (Proc.devRef .tc main_v29) = n
  args : ∀ b ∈ argRefs, W (Proc.devRef .tc b) = m ((c.tc : Thread nD τ).loc b)

variable {m c}

theorem Carried.of_keep {W W' : Valuation τ sig (Elt F)} {s d : IVec S850000 32} {n : FVec F S850000 .f32}
    (h : Carried m c W s d n) (written : List (Ref sig .tc))
    (keep : ∀ b : Ref sig .tc, b ∉ written → W' (Proc.devRef .tc b) = W (Proc.devRef .tc b))
    (h3 : main_v3 ∉ written) (h6 : main_v6 ∉ written) (h29 : main_v29 ∉ written) (ha : ∀ b ∈ argRefs, b ∉ written) :
    Carried m c W' s d n :=
  ⟨(keep _ h3).trans h.src, (keep _ h6).trans h.dst, (keep _ h29).trans h.nrm, fun b hb => (keep b (ha b hb)).trans (h.args b hb)⟩

theorem Carried.of_keep_ne {W W' : Valuation τ sig (Elt F)} {s d : IVec S850000 32} {n : FVec F S850000 .f32}
    (h : Carried m c W s d n) (out : Ref sig .tc)
    (keep : ∀ b : Ref sig .tc, b ≠ out → W' (Proc.devRef .tc b) = W (Proc.devRef .tc b))
    (h3 : main_v3 ≠ out) (h6 : main_v6 ≠ out) (h29 : main_v29 ≠ out) (ha : out ∉ argRefs) :
    Carried m c W' s d n :=
  ⟨(keep _ h3).trans h.src, (keep _ h6).trans h.dst, (keep _ h29).trans h.nrm,
   fun b hb => (keep b (fun e => ha (e ▸ hb))).trans (h.args b hb)⟩

end Cert.KernelIdeal.Val

end
-- ==== Proof.KernelRegionsKeep.lean ====
import proofs.«147321_j32504312496394_1_alg».proof.Proof.Gen.KernelIdeal.Frame

namespace Cert.KernelIdeal.Val

open Cert.KernelIdeal Cert.KernelIdeal.Gen Idealize.ShloMosaic Idealize.ShloMosaic.TcCoe

variable {F : FTy → Type} [FloatOps F]

/-- From a region's two facts: every buffer but the output array `o` holds at the exit what it held at the entry. -/
theorem keep_of_dat {cfg : Pipeline.Cfg sig Λ₀} {c : Dev nD} {dat : Pipeline.Dat τ (Elt F) Unit ℕ (UR sig nD τ) ℕ cfg c}
    {V V' : Valuation τ sig (Elt F)} {o b : Ref sig .tc}
    (harr : ∀ w, V' (Proc.devRef .tc (Pipeline.arrRef cfg.spec w)) = dat.arrAt w cfg.N)
    (hne : ∀ b, (∀ w, Pipeline.arrRef cfg.spec w ≠ b) → V' (Proc.devRef .tc b) = V (Proc.devRef .tc b))
    (hA : ∀ w, dat.A w = V (Proc.devRef .tc (Pipeline.arrRef cfg.spec w)))
    (ho : ∀ w, (cfg.spec w).isOut = true → Pipeline.arrRef cfg.spec w = o) (hb : b ≠ o) :
    V' (Proc.devRef .tc b) = V (Proc.devRef .tc b) := by
  by_cases h : ∀ w, Pipeline.arrRef cfg.spec w ≠ b
  · exact hne b h
  · obtain ⟨w, rfl⟩ := not_forall_not.mp h
    cases hio : (cfg.win w).isOut
    · exact (harr w).trans ((dat.arrAt_in w hio _).trans (hA w))
    · exact absurd (ho w hio) hb

variable (m : (ℓ : Loc nD τ sig) → Buf (Elt F) ℓ) (ρ : Dev nD → PrngReg)

theorem keep_region0 (c : Dev nD) (b : Ref sig .tc) (hb : b ≠ main_v30) :
    W4 m ρ c (Proc.devRef .tc b) = W3 m ρ c (Proc.devRef .tc b) :=
  keep_of_dat (W4_arr m ρ c) (W4_of_ne m ρ c) (A_eq0 _ c) (by decide) hb

theorem out_region0 (c : Dev nD) :
    W4 m ρ c (Proc.devRef .tc main_v30) = (dat0 (V3 m ρ) c).arrAt 2 cfg0.N :=
  W4_arr m ρ c 2

theorem keep_region1 (c : Dev nD) (b : Ref sig .tc) (hb : b ≠ main_v33) :
    W7 m ρ c (Proc.devRef .tc b) = W6 m ρ c (Proc.devRef .tc b) :=
  keep_of_dat (W7_arr m ρ c) (W7_of_ne m ρ c) (A_eq1 _ c) (by decide) hb

theorem out_region1 (c : Dev nD) :
    W7 m ρ c (Proc.devRef .tc main_v33) = (dat1 (V6 m ρ) c).arrAt 2 cfg1.N :=
  W7_arr m ρ c 2

theorem keep_region2 (c : Dev nD) (b : Ref sig .tc) (hb : b ≠ main_v38) :
    W9 m ρ c (Proc.devRef .tc b) = W8 m ρ c (Proc.devRef .tc b) :=
  keep_of_dat (W9_arr m ρ c) (W9_of_ne m ρ c) (A_eq2 _ c) (by decide) hb

theorem out_region2 (c : Dev nD) :
    W9 m ρ c (Proc.devRef .tc main_v38) = (dat2 (V8 m ρ) c).arrAt 2 cfg2.N :=
  W9_arr m ρ c 2

theorem keep_region3 (c : Dev nD) (b : Ref sig .tc) (hb : b ≠ main_v56) :
    W11 m ρ c (Proc.devRef .tc b) = W10 m ρ c (Proc.devRef .tc b) :=
  keep_of_dat (W11_arr m ρ c) (W11_of_ne m ρ c) (A_eq3 _ c) (by decide) hb

theorem out_region3 (c : Dev nD) :
    W11 m ρ c (Proc.devRef .tc main_v56) = (dat3 (V10 m ρ) c).arrAt 5 cfg3.N :=
  W11_arr m ρ c 5

theorem keep_region4 (c : Dev nD) (b : Ref sig .tc) (hb : b ≠ main_v57) :
    W12 m ρ c (Proc.devRef .tc b) = W11 m ρ c (Proc.devRef .tc b) :=
  keep_of_dat (W12_arr m ρ c) (W12_of_ne m ρ c) (A_eq4 _ c) (by decide) hb

theorem out_region4 (c : Dev nD) :
    W12 m ρ c (Proc.devRef .tc main_v57) = (dat4 (V11 m ρ) c).arrAt 2 cfg4.N :=
  W12_arr m ρ c 2

theorem keep_region5 (c : Dev nD) (b : Ref sig .tc) (hb : b ≠ main_v60) :
    W15 m ρ c (Proc.devRef .tc b) = W14 m ρ c (Proc.devRef .tc b) :=
  keep_of_dat (W15_arr m ρ c) (W15_of_ne m ρ c) (A_eq5 _ c) (by decide) hb

theorem out_region5 (c : Dev nD) :
    W15 m ρ c (Proc.devRef .tc main_v60) = (dat5 (V14 m ρ) c).arrAt 2 cfg5.N :=
  W15_arr m ρ c 2

theorem keep_region6 (c : Dev nD) (b : Ref sig .tc) (hb : b ≠ main_v65) :
    W17 m ρ c (Proc.devRef .tc b) = W16 m ρ c (Proc.devRef .tc b) :=
  keep_of_dat (W17_arr m ρ c) (W17_of_ne m ρ c) (A_eq6 _ c) (by decide) hb

theorem out_region6 (c : Dev nD) :
    W17 m ρ c (Proc.devRef .tc main_v65) = (dat6 (V16 m ρ) c).arrAt 2 cfg6.N :=
  W17_arr m ρ c 2

theorem keep_region7 (c : Dev nD) (b : Ref sig .tc) (hb : b ≠ main_v83) :
    W19 m ρ c (Proc.devRef .tc b) = W18 m ρ c (Proc.devRef .tc b) :=
  keep_of_dat (W19_arr m ρ c) (W19_of_ne m ρ c) (A_eq7 _ c) (by decide) hb

theorem out_region7 (c : Dev nD) :
    W19 m ρ c (Proc.devRef .tc main_v83) = (dat7 (V18 m ρ) c).arrAt 5 cfg7.N :=
  W19_arr m ρ c 5

theorem keep_region8 (c : Dev nD) (b : Ref sig .tc) (hb : b ≠ main_v84) :
    W20 m ρ c (Proc.devRef .tc b) = W19 m ρ c (Proc.devRef .tc b) :=
  keep_of_dat (W20_arr m ρ c) (W20_of_ne m ρ c) (A_eq8 _ c) (by decide) hb

theorem out_region8 (c : Dev nD) :
    W20 m ρ c (Proc.devRef .tc main_v84) = (dat8 (V19 m ρ) c).arrAt 2 cfg8.N :=
  W20_arr m ρ c 2

theorem keep_region9 (c : Dev nD) (b : Ref sig .tc) (hb : b ≠ main_v87) :
    W23 m ρ c (Proc.devRef .tc b) = W22 m ρ c (Proc.devRef .tc b) :=
  keep_of_dat (W23_arr m ρ c) (W23_of_ne m ρ c) (A_eq9 _ c) (by decide) hb

theorem out_region9 (c : Dev nD) :
    W23 m ρ c (Proc.devRef .tc main_v87) = (dat9 (V22 m ρ) c).arrAt 2 cfg9.N :=
  W23_arr m ρ c 2

theorem keep_region10 (c : Dev nD) (b : Ref sig .tc) (hb : b ≠ main_v92) :
    W25 m ρ c (Proc.devRef .tc b) = W24 m ρ c (Proc.devRef .tc b) :=
  keep_of_dat (W25_arr m ρ c) (W25_of_ne m ρ c) (A_eq10 _ c) (by decide) hb

theorem out_region10 (c : Dev nD) :
    W25 m ρ c (Proc.devRef .tc main_v92) = (dat10 (V24 m ρ) c).arrAt 2 cfg10.N :=
  W25_arr m ρ c 2

theorem keep_region11 (c : Dev nD) (b : Ref sig .tc) (hb : b ≠ main_v93) :
    W26 m ρ c (Proc.devRef .tc b) = W25 m ρ c (Proc.devRef .tc b) :=
  keep_of_dat (W26_arr m ρ c) (W26_of_ne m ρ c) (A_eq11 _ c) (by decide) hb

theorem out_region11 (c : Dev nD) :
    W26 m ρ c (Proc.devRef .tc main_v93) = (dat11 (V25 m ρ) c).arrAt 2 cfg11.N :=
  W26_arr m ρ c 2

theorem keep_region12 (c : Dev nD) (b : Ref sig .tc) (hb : b ≠ main_v96) :
    W29 m ρ c (Proc.devRef .tc b) = W28 m ρ c (Proc.devRef .tc b) :=
  keep_of_dat (W29_arr m ρ c) (W29_of_ne m ρ c) (A_eq12 _ c) (by decide) hb

theorem out_region12 (c : Dev nD) :
    W29 m ρ c (Proc.devRef .tc main_v96) = (dat12 (V28 m ρ) c).arrAt 2 cfg12.N :=
  W29_arr m ρ c 2

theorem keep_region13 (c : Dev nD) (b : Ref sig .tc) (hb : b ≠ main_v101) :
    W31 m ρ c (Proc.devRef .tc b) = W30 m ρ c (Proc.devRef .tc b) :=
  keep_of_dat (W31_arr m ρ c) (W31_of_ne m ρ c) (A_eq13 _ c) (by decide) hb

theorem out_region13 (c : Dev nD) :
    W31 m ρ c (Proc.devRef .tc main_v101) = (dat13 (V30 m ρ) c).arrAt 2 cfg13.N :=
  W31_arr m ρ c 2

theorem keep_region14 (c : Dev nD) (b : Ref sig .tc) (hb : b ≠ main_v119) :
    W33 m ρ c (Proc.devRef .tc b) = W32 m ρ c (Proc.devRef .tc b) :=
  keep_of_dat (W33_arr m ρ c) (W33_of_ne m ρ c) (A_eq14 _ c) (by decide) hb

theorem out_region14 (c : Dev nD) :
    W33 m ρ c (Proc.devRef .tc main_v119) = (dat14 (V32 m ρ) c).arrAt 5 cfg14.N :=
  W33_arr m ρ c 5

theorem keep_region15 (c : Dev nD) (b : Ref sig .tc) (hb : b ≠ main_v120) :
    W34 m ρ c (Proc.devRef .tc b) = W33 m ρ c (Proc.devRef .tc b) :=
  keep_of_dat (W34_arr m ρ c) (W34_of_ne m ρ c) (A_eq15 _ c) (by decide) hb

theorem out_region15 (c : Dev nD) :
    W34 m ρ c (Proc.devRef .tc main_v120) = (dat15 (V33 m ρ) c).arrAt 2 cfg15.N :=
  W34_arr m ρ c 2

theorem keep_region16 (c : Dev nD) (b : Ref sig .tc) (hb : b ≠ main_v123) :
    W37 m ρ c (Proc.devRef .tc b) = W36 m ρ c (Proc.devRef .tc b) :=
  keep_of_dat (W37_arr m ρ c) (W37_of_ne m ρ c) (A_eq16 _ c) (by decide) hb

theorem out_region16 (c : Dev nD) :
    W37 m ρ c (Proc.devRef .tc main_v123) = (dat16 (V36 m ρ) c).arrAt 2 cfg16.N :=
  W37_arr m ρ c 2

theorem keep_region17 (c : Dev nD) (b : Ref sig .tc) (hb : b ≠ main_v128) :
    W39 m ρ c (Proc.devRef .tc b) = W38 m ρ c (Proc.devRef .tc b) :=
  keep_of_dat (W39_arr m ρ c) (W39_of_ne m ρ c) (A_eq17 _ c) (by decide) hb

theorem out_region17 (c : Dev nD) :
    W39 m ρ c (Proc.devRef .tc main_v128) = (dat17 (V38 m ρ) c).arrAt 2 cfg17.N :=
  W39_arr m ρ c 2

theorem keep_region18 (c : Dev nD) (b : Ref sig .tc) (hb : b ≠ main_v146) :
    W41 m ρ c (Proc.devRef .tc b) = W40 m ρ c (Proc.devRef .tc b) :=
  keep_of_dat (W41_arr m ρ c) (W41_of_ne m ρ c) (A_eq18 _ c) (by decide) hb

theorem out_region18 (c : Dev nD) :
    W41 m ρ c (Proc.devRef .tc main_v146) = (dat18 (V40 m ρ) c).arrAt 5 cfg18.N :=
  W41_arr m ρ c 5

theorem keep_region19 (c : Dev nD) (b : Ref sig .tc) (hb : b ≠ main_v147) :
    W42 m ρ c (Proc.devRef .tc b) = W41 m ρ c (Proc.devRef .tc b) :=
  keep_of_dat (W42_arr m ρ c) (W42_of_ne m ρ c) (A_eq19 _ c) (by decide) hb

theorem out_region19 (c : Dev nD) :
    W42 m ρ c (Proc.devRef .tc main_v147) = (dat19 (V41 m ρ) c).arrAt 2 cfg19.N :=
  W42_arr m ρ c 2

theorem keep_region20 (c : Dev nD) (b : Ref sig .tc) (hb : b ≠ main_v150) :
    W45 m ρ c (Proc.devRef .tc b) = W44 m ρ c (Proc.devRef .tc b) :=
  keep_of_dat (W45_arr m ρ c) (W45_of_ne m ρ c) (A_eq20 _ c) (by decide) hb

theorem out_region20 (c : Dev nD) :
    W45 m ρ c (Proc.devRef .tc main_v150) = (dat20 (V44 m ρ) c).arrAt 2 cfg20.N :=
  W45_arr m ρ c 2

theorem keep_region21 (c : Dev nD) (b : Ref sig .tc) (hb : b ≠ main_v155) :
    W47 m ρ c (Proc.devRef .tc b) = W46 m ρ c (Proc.devRef .tc b) :=
  keep_of_dat (W47_arr m ρ c) (W47_of_ne m ρ c) (A_eq21 _ c) (by decide) hb

theorem out_region21 (c : Dev nD) :
    W47 m ρ c (Proc.devRef .tc main_v155) = (dat21 (V46 m ρ) c).arrAt 2 cfg21.N :=
  W47_arr m ρ c 2

end Cert.KernelIdeal.Val
-- ==== Proof.KernelKeep.lean ====
import proofs.«147321_j32504312496394_1_alg».proof.Proof.Gen.KernelIdeal.Launch
import Idealize.ShloMosaic.Lib.StableHlo.Run

namespace Cert.KernelIdeal.Val

open Cert.KernelIdeal Cert.KernelIdeal.Gen Idealize.ShloMosaic Idealize.ShloMosaic.TcCoe Idealize.ShloMosaic.StableHlo

variable {F : FTy → Type} [FloatOps F]

theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Operations whose written sets are, in order, the singletons of the references in `W` change no reference outside `W`. -/
theorem keep_of_results {ops : List (HloOp τ sig (Elt F))} {W : List (Ref sig .tc)} (V : Valuation τ sig (Elt F))
    {b : Ref sig .tc} (hb : b ∉ W) (h : ops.map HloOp.writes = W.map fun y => {Proc.devRef .tc y}) :
    after ops V (Proc.devRef .tc b) = V (Proc.devRef .tc b) :=
  after_of_writes_sub ops V (List.forall_iff_forall_mem.mpr fun op hop => by
    obtain ⟨y, hy, e⟩ := List.mem_map.mp (h ▸ List.mem_map_of_mem hop : op.writes ∈ W.map _)
    exact e ▸ single_sub hy) hb

noncomputable def written_hostOps0 : List (Ref sig .tc) :=
  [main_v0, main_v1, main_v2, main_v3, main_v4, main_v5, main_v6, main_cst, main_v7, main_cst_0, main_v8, main_v9,
   main_v10, main_cst_1, main_v11, main_v12, main_v13, main_cst_2]

theorem keep_hostOps0 (V : Valuation τ sig (Elt F)) (b : Ref sig .tc) (hb : b ∉ written_hostOps0) :
    after (hostOps0 (F := F)) V (Proc.devRef .tc b) = V (Proc.devRef .tc b) :=
  keep_of_results V hb rfl

noncomputable def written_hostOps0_1 : List (Ref sig .tc) :=
  [main_call0_v0, main_call0_v1, main_v14]

theorem keep_hostOps0_1 (V : Valuation τ sig (Elt F)) (b : Ref sig .tc) (hb : b ∉ written_hostOps0_1) :
    after (hostOps0_1 (F := F)) V (Proc.devRef .tc b) = V (Proc.devRef .tc b) :=
  keep_of_results V hb rfl

noncomputable def written_hostOps0_2 : List (Ref sig .tc) :=
  [main_c, main_v15, main_v16, main_c_3, main_v17, main_v18, main_v19, main_v20, main_v21, main_c_4, main_v22, main_v23,
   main_c_5, main_v24, main_v25, main_v26, main_v27, main_v28, main_v29]

theorem keep_hostOps0_2 (V : Valuation τ sig (Elt F)) (b : Ref sig .tc) (hb : b ∉ written_hostOps0_2) :
    after (hostOps0_2 (F := F)) V (Proc.devRef .tc b) = V (Proc.devRef .tc b) :=
  keep_of_results V hb rfl

noncomputable def written_hostOps1 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v31]

theorem keep_hostOps1 (V : Valuation τ sig (Elt F)) (b : Ref sig .tc) (hb : b ∉ written_hostOps1) :
    after (hostOps1 (F := F)) V (Proc.devRef .tc b) = V (Proc.devRef .tc b) :=
  keep_of_results V hb rfl

noncomputable def written_hostOps1_1 : List (Ref sig .tc) :=
  [main_v32]

theorem keep_hostOps1_1 (V : Valuation τ sig (Elt F)) (b : Ref sig .tc) (hb : b ∉ written_hostOps1_1) :
    after (hostOps1_1 (F := F)) V (Proc.devRef .tc b) = V (Proc.devRef .tc b) :=
  keep_of_results V hb rfl

noncomputable def written_hostOps2 : List (Ref sig .tc) :=
  [main_cst_6, main_v34, main_v35, main_v36, main_v37]

theorem keep_hostOps2 (V : Valuation τ sig (Elt F)) (b : Ref sig .tc) (hb : b ∉ written_hostOps2) :
    after (hostOps2 (F := F)) V (Proc.devRef .tc b) = V (Proc.devRef .tc b) :=
  keep_of_results V hb rfl

noncomputable def written_hostOps3 : List (Ref sig .tc) :=
  [main_cst_7, main_v39, main_cst_8, main_v40, main_v41, main_v42, main_v43, main_v44, main_v45, main_cst_9, main_v46,
   main_cst_10, main_v47, main_v48, main_cst_11, main_v49, main_v50, main_v51, main_v52, main_v53, main_v54, main_v55]

theorem keep_hostOps3 (V : Valuation τ sig (Elt F)) (b : Ref sig .tc) (hb : b ∉ written_hostOps3) :
    after (hostOps3 (F := F)) V (Proc.devRef .tc b) = V (Proc.devRef .tc b) :=
  keep_of_results V hb rfl

noncomputable def written_hostOps5 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v58]

theorem keep_hostOps5 (V : Valuation τ sig (Elt F)) (b : Ref sig .tc) (hb : b ∉ written_hostOps5) :
    after (hostOps5 (F := F)) V (Proc.devRef .tc b) = V (Proc.devRef .tc b) :=
  keep_of_results V hb rfl

noncomputable def written_hostOps5_1 : List (Ref sig .tc) :=
  [main_v59]

theorem keep_hostOps5_1 (V : Valuation τ sig (Elt F)) (b : Ref sig .tc) (hb : b ∉ written_hostOps5_1) :
    after (hostOps5_1 (F := F)) V (Proc.devRef .tc b) = V (Proc.devRef .tc b) :=
  keep_of_results V hb rfl

noncomputable def written_hostOps6 : List (Ref sig .tc) :=
  [main_cst_12, main_v61, main_v62, main_v63, main_v64]

theorem keep_hostOps6 (V : Valuation τ sig (Elt F)) (b : Ref sig .tc) (hb : b ∉ written_hostOps6) :
    after (hostOps6 (F := F)) V (Proc.devRef .tc b) = V (Proc.devRef .tc b) :=
  keep_of_results V hb rfl

noncomputable def written_hostOps7 : List (Ref sig .tc) :=
  [main_cst_13, main_v66, main_cst_14, main_v67, main_v68, main_v69, main_v70, main_v71, main_v72, main_cst_15,
   main_v73, main_cst_16, main_v74, main_v75, main_cst_17, main_v76, main_v77, main_v78, main_v79, main_v80, main_v81,
   main_v82]

theorem keep_hostOps7 (V : Valuation τ sig (Elt F)) (b : Ref sig .tc) (hb : b ∉ written_hostOps7) :
    after (hostOps7 (F := F)) V (Proc.devRef .tc b) = V (Proc.devRef .tc b) :=
  keep_of_results V hb rfl

noncomputable def written_hostOps9 : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v85]

theorem keep_hostOps9 (V : Valuation τ sig (Elt F)) (b : Ref sig .tc) (hb : b ∉ written_hostOps9) :
    after (hostOps9 (F := F)) V (Proc.devRef .tc b) = V (Proc.devRef .tc b) :=
  keep_of_results V hb rfl

noncomputable def written_hostOps9_1 : List (Ref sig .tc) :=
  [main_v86]

theorem keep_hostOps9_1 (V : Valuation τ sig (Elt F)) (b : Ref sig .tc) (hb : b ∉ written_hostOps9_1) :
    after (hostOps9_1 (F := F)) V (Proc.devRef .tc b) = V (Proc.devRef .tc b) :=
  keep_of_results V hb rfl

noncomputable def written_hostOps10 : List (Ref sig .tc) :=
  [main_cst_18, main_v88, main_v89, main_v90, main_v91]

theorem keep_hostOps10 (V : Valuation τ sig (Elt F)) (b : Ref sig .tc) (hb : b ∉ written_hostOps10) :
    after (hostOps10 (F := F)) V (Proc.devRef .tc b) = V (Proc.devRef .tc b) :=
  keep_of_results V hb rfl

noncomputable def written_hostOps12 : List (Ref sig .tc) :=
  [main_call4_c, main_call4_v0, main_call4_v1, main_call4_c_0, main_call4_v2, main_call4_v3, main_call4_v4,
   main_call4_v5, main_call4_c_1, main_call4_c_2, main_call4_v6, main_call4_v7, main_call4_v8, main_call4_v9,
   main_call4_v10, main_call4_v11, main_call4_c_3, main_call4_v12, main_call4_v13, main_call4_v14, main_call4_cst,
   main_call4_v15, main_v94]

theorem keep_hostOps12 (V : Valuation τ sig (Elt F)) (b : Ref sig .tc) (hb : b ∉ written_hostOps12) :
    after (hostOps12 (F := F)) V (Proc.devRef .tc b) = V (Proc.devRef .tc b) :=
  keep_of_results V hb rfl

noncomputable def written_hostOps12_1 : List (Ref sig .tc) :=
  [main_v95]

theorem keep_hostOps12_1 (V : Valuation τ sig (Elt F)) (b : Ref sig .tc) (hb : b ∉ written_hostOps12_1) :
    after (hostOps12_1 (F := F)) V (Proc.devRef .tc b) = V (Proc.devRef .tc b) :=
  keep_of_results V hb rfl

noncomputable def written_hostOps13 : List (Ref sig .tc) :=
  [main_cst_19, main_v97, main_v98, main_v99, main_v100]

theorem keep_hostOps13 (V : Valuation τ sig (Elt F)) (b : Ref sig .tc) (hb : b ∉ written_hostOps13) :
    after (hostOps13 (F := F)) V (Proc.devRef .tc b) = V (Proc.devRef .tc b) :=
  keep_of_results V hb rfl

noncomputable def written_hostOps14 : List (Ref sig .tc) :=
  [main_cst_20, main_v102, main_cst_21, main_v103, main_v104, main_v105, main_v106, main_v107, main_v108, main_cst_22,
   main_v109, main_cst_23, main_v110, main_v111, main_cst_24, main_v112, main_v113, main_v114, main_v115, main_v116,
   main_v117, main_v118]

theorem keep_hostOps14 (V : Valuation τ sig (Elt F)) (b : Ref sig .tc) (hb : b ∉ written_hostOps14) :
    after (hostOps14 (F := F)) V (Proc.devRef .tc b) = V (Proc.devRef .tc b) :=
  keep_of_results V hb rfl

noncomputable def written_hostOps16 : List (Ref sig .tc) :=
  [main_call5_c, main_call5_v0, main_call5_v1, main_call5_c_0, main_call5_v2, main_call5_v3, main_call5_v4,
   main_call5_v5, main_call5_c_1, main_call5_c_2, main_call5_v6, main_call5_v7, main_call5_v8, main_call5_v9,
   main_call5_v10, main_call5_v11, main_call5_c_3, main_call5_v12, main_call5_v13, main_call5_v14, main_call5_cst,
   main_call5_v15, main_v121]

theorem keep_hostOps16 (V : Valuation τ sig (Elt F)) (b : Ref sig .tc) (hb : b ∉ written_hostOps16) :
    after (hostOps16 (F := F)) V (Proc.devRef .tc b) = V (Proc.devRef .tc b) :=
  keep_of_results V hb rfl

noncomputable def written_hostOps16_1 : List (Ref sig .tc) :=
  [main_v122]

theorem keep_hostOps16_1 (V : Valuation τ sig (Elt F)) (b : Ref sig .tc) (hb : b ∉ written_hostOps16_1) :
    after (hostOps16_1 (F := F)) V (Proc.devRef .tc b) = V (Proc.devRef .tc b) :=
  keep_of_results V hb rfl

noncomputable def written_hostOps17 : List (Ref sig .tc) :=
  [main_cst_25, main_v124, main_v125, main_v126, main_v127]

theorem keep_hostOps17 (V : Valuation τ sig (Elt F)) (b : Ref sig .tc) (hb : b ∉ written_hostOps17) :
    after (hostOps17 (F := F)) V (Proc.devRef .tc b) = V (Proc.devRef .tc b) :=
  keep_of_results V hb rfl

noncomputable def written_hostOps18 : List (Ref sig .tc) :=
  [main_cst_26, main_v129, main_cst_27, main_v130, main_v131, main_v132, main_v133, main_v134, main_v135, main_cst_28,
   main_v136, main_cst_29, main_v137, main_v138, main_cst_30, main_v139, main_v140, main_v141, main_v142, main_v143,
   main_v144, main_v145]

theorem keep_hostOps18 (V : Valuation τ sig (Elt F)) (b : Ref sig .tc) (hb : b ∉ written_hostOps18) :
    after (hostOps18 (F := F)) V (Proc.devRef .tc b) = V (Proc.devRef .tc b) :=
  keep_of_results V hb rfl

noncomputable def written_hostOps20 : List (Ref sig .tc) :=
  [main_call6_c, main_call6_v0, main_call6_v1, main_call6_c_0, main_call6_v2, main_call6_v3, main_call6_v4,
   main_call6_v5, main_call6_c_1, main_call6_c_2, main_call6_v6, main_call6_v7, main_call6_v8, main_call6_v9,
   main_call6_v10, main_call6_v11, main_call6_c_3, main_call6_v12, main_call6_v13, main_call6_v14, main_call6_cst,
   main_call6_v15, main_v148]

theorem keep_hostOps20 (V : Valuation τ sig (Elt F)) (b : Ref sig .tc) (hb : b ∉ written_hostOps20) :
    after (hostOps20 (F := F)) V (Proc.devRef .tc b) = V (Proc.devRef .tc b) :=
  keep_of_results V hb rfl

noncomputable def written_hostOps20_1 : List (Ref sig .tc) :=
  [main_v149]

theorem keep_hostOps20_1 (V : Valuation τ sig (Elt F)) (b : Ref sig .tc) (hb : b ∉ written_hostOps20_1) :
    after (hostOps20_1 (F := F)) V (Proc.devRef .tc b) = V (Proc.devRef .tc b) :=
  keep_of_results V hb rfl

noncomputable def written_hostOps21 : List (Ref sig .tc) :=
  [main_cst_31, main_v151, main_v152, main_v153, main_v154]

theorem keep_hostOps21 (V : Valuation τ sig (Elt F)) (b : Ref sig .tc) (hb : b ∉ written_hostOps21) :
    after (hostOps21 (F := F)) V (Proc.devRef .tc b) = V (Proc.devRef .tc b) :=
  keep_of_results V hb rfl

end Cert.KernelIdeal.Val
-- ==== Proof.KernelAggregate.lean ====
import proofs.«147321_j32504312496394_1_alg».proof.Proof.Gen.KernelIdeal.Launch
import proofs.«147321_j32504312496394_1_alg».proof.Proof.RefStages
import proofs.«147321_j32504312496394_1_alg».proof.Proof.NodeIdx
import Idealize.ShloMosaic.Lib.StableHlo.Run
import Idealize.ShloMosaic.Lib.Pipeline.Value

noncomputable section

namespace Cert.KernelIdeal.Val

open Cert.KernelIdeal Cert.KernelIdeal.Gen Idealize.ShloMosaic Idealize.ShloMosaic.TcCoe Idealize.ShloMosaic.StableHlo

variable {F : FTy → Type} [FloatOps F]

theorem shapeCast_row_eq_broadcastInDim {α : Type} {n : Nat} (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ v h = broadcastInDim ⟨2, ![1, n]⟩ ![1] h' v := by
  funext j
  refine (shapeCast_addUnit_apply (n := 1) ![n] v h j).trans ?_
  symm
  refine broadcastInDim_apply _ _ _ _ _ (fun a => ?_)
  match a with
  | ⟨0, _⟩ =>
    show (j 1).val = if n = 1 then 0 else (j 1).val
    split
    · next h1 => have := (j 1).isLt; simp at this; omega
    · rfl

theorem row_hostOps2 (V : Valuation τ sig (Elt F)) :
    after (hostOps2 (F := F)) V (Proc.devRef .tc main_v37) = Cert.ReferenceIdeal.Val.rowOf70 (V (Proc.devRef .tc main_arg3)) := by
  show StableHlo.after hostOps2 V (Proc.devRef .tc main_v37) = _
  unfold Cert.ReferenceIdeal.Val.rowOf70
  simp only [hostOps2]
  after_results
  exact shapeCast_row_eq_broadcastInDim _ _ _

theorem row_hostOps6 (V : Valuation τ sig (Elt F)) :
    after (hostOps6 (F := F)) V (Proc.devRef .tc main_v64) = Cert.ReferenceIdeal.Val.rowOf60 (V (Proc.devRef .tc main_arg5)) := by
  show StableHlo.after hostOps6 V (Proc.devRef .tc main_v64) = _
  unfold Cert.ReferenceIdeal.Val.rowOf60
  simp only [hostOps6]
  after_results
  exact shapeCast_row_eq_broadcastInDim _ _ _

theorem row_hostOps10 (V : Valuation τ sig (Elt F)) :
    after (hostOps10 (F := F)) V (Proc.devRef .tc main_v91) = Cert.ReferenceIdeal.Val.rowOf50 (V (Proc.devRef .tc main_arg7)) := by
  show StableHlo.after hostOps10 V (Proc.devRef .tc main_v91) = _
  unfold Cert.ReferenceIdeal.Val.rowOf50
  simp only [hostOps10]
  after_results
  exact shapeCast_row_eq_broadcastInDim _ _ _

theorem row_hostOps13 (V : Valuation τ sig (Elt F)) :
    after (hostOps13 (F := F)) V (Proc.devRef .tc main_v100) = Cert.ReferenceIdeal.Val.rowOf60 (V (Proc.devRef .tc main_arg9)) := by
  show StableHlo.after hostOps13 V (Proc.devRef .tc main_v100) = _
  unfold Cert.ReferenceIdeal.Val.rowOf60
  simp only [hostOps13]
  after_results
  exact shapeCast_row_eq_broadcastInDim _ _ _

theorem row_hostOps17 (V : Valuation τ sig (Elt F)) :
    after (hostOps17 (F := F)) V (Proc.devRef .tc main_v127) = Cert.ReferenceIdeal.Val.rowOf70 (V (Proc.devRef .tc main_arg11)) := by
  show StableHlo.after hostOps17 V (Proc.devRef .tc main_v127) = _
  unfold Cert.ReferenceIdeal.Val.rowOf70
  simp only [hostOps17]
  after_results
  exact shapeCast_row_eq_broadcastInDim _ _ _

theorem row_hostOps21 (V : Valuation τ sig (Elt F)) :
    after (hostOps21 (F := F)) V (Proc.devRef .tc main_v154) = Cert.ReferenceIdeal.Val.rowOf88 (V (Proc.devRef .tc main_arg13)) := by
  show StableHlo.after hostOps21 V (Proc.devRef .tc main_v154) = _
  unfold Cert.ReferenceIdeal.Val.rowOf88
  simp only [hostOps21]
  after_results
  exact shapeCast_row_eq_broadcastInDim _ _ _

theorem sum_hostOps2 (V : Valuation τ sig (Elt F)) :
    after (hostOps2 (F := F)) V (Proc.devRef .tc main_v36) = Cert.ReferenceIdeal.Val.sumByDst70 (V (Proc.devRef .tc main_v33)) (V (Proc.devRef .tc main_v6)) := by
  show StableHlo.after hostOps2 V (Proc.devRef .tc main_v36) = _
  unfold Cert.ReferenceIdeal.Val.sumByDst70 Cert.ReferenceIdeal.Val.idxCol
  simp only [hostOps2]
  after_results
  all_goals rfl

theorem sum_hostOps6 (V : Valuation τ sig (Elt F)) :
    after (hostOps6 (F := F)) V (Proc.devRef .tc main_v63) = Cert.ReferenceIdeal.Val.sumByDst60 (V (Proc.devRef .tc main_v60)) (V (Proc.devRef .tc main_v6)) := by
  show StableHlo.after hostOps6 V (Proc.devRef .tc main_v63) = _
  unfold Cert.ReferenceIdeal.Val.sumByDst60 Cert.ReferenceIdeal.Val.idxCol
  simp only [hostOps6]
  after_results
  all_goals rfl

theorem sum_hostOps10 (V : Valuation τ sig (Elt F)) :
    after (hostOps10 (F := F)) V (Proc.devRef .tc main_v90) = Cert.ReferenceIdeal.Val.sumByDst50 (V (Proc.devRef .tc main_v87)) (V (Proc.devRef .tc main_v6)) := by
  show StableHlo.after hostOps10 V (Proc.devRef .tc main_v90) = _
  unfold Cert.ReferenceIdeal.Val.sumByDst50 Cert.ReferenceIdeal.Val.idxCol
  simp only [hostOps10]
  after_results
  all_goals rfl

theorem sum_hostOps13 (V : Valuation τ sig (Elt F)) :
    after (hostOps13 (F := F)) V (Proc.devRef .tc main_v99) = Cert.ReferenceIdeal.Val.sumByDst60 (V (Proc.devRef .tc main_v96)) (V (Proc.devRef .tc main_v6)) := by
  show StableHlo.after hostOps13 V (Proc.devRef .tc main_v99) = _
  unfold Cert.ReferenceIdeal.Val.sumByDst60 Cert.ReferenceIdeal.Val.idxCol
  simp only [hostOps13]
  after_results
  all_goals rfl

theorem sum_hostOps17 (V : Valuation τ sig (Elt F)) :
    after (hostOps17 (F := F)) V (Proc.devRef .tc main_v126) = Cert.ReferenceIdeal.Val.sumByDst70 (V (Proc.devRef .tc main_v123)) (V (Proc.devRef .tc main_v6)) := by
  show StableHlo.after hostOps17 V (Proc.devRef .tc main_v126) = _
  unfold Cert.ReferenceIdeal.Val.sumByDst70 Cert.ReferenceIdeal.Val.idxCol
  simp only [hostOps17]
  after_results
  all_goals rfl

theorem sum_hostOps21 (V : Valuation τ sig (Elt F)) :
    after (hostOps21 (F := F)) V (Proc.devRef .tc main_v153) = Cert.ReferenceIdeal.Val.sumByDst88 (V (Proc.devRef .tc main_v150)) (V (Proc.devRef .tc main_v6)) := by
  show StableHlo.after hostOps21 V (Proc.devRef .tc main_v153) = _
  unfold Cert.ReferenceIdeal.Val.sumByDst88 Cert.ReferenceIdeal.Val.idxCol
  simp only [hostOps21]
  after_results
  all_goals rfl

theorem mean_hostOps3 (V : Valuation τ sig (Elt F)) :
    after (hostOps3 (F := F)) V (Proc.devRef .tc main_v52) = Cert.ReferenceIdeal.Val.rowOf70 (Cert.ReferenceIdeal.Val.colMean70 (V (Proc.devRef .tc main_v38))) := by
  show StableHlo.after hostOps3 V (Proc.devRef .tc main_v52) = _
  unfold Cert.ReferenceIdeal.Val.rowOf70
  simp only [hostOps3]
  after_results_simp
  refine (shapeCast_row_eq_broadcastInDim _ shapeCasts_S70_S1x70 bcast_S70_S1x70_1).trans ?_
  unfold Cert.ReferenceIdeal.Val.colMean70
  rfl

theorem invStd_hostOps3 (V : Valuation τ sig (Elt F)) :
    after (hostOps3 (F := F)) V (Proc.devRef .tc main_v53) = Cert.ReferenceIdeal.Val.rowOf70 (Cert.ReferenceIdeal.Val.invStd70 (V (Proc.devRef .tc main_v38))) := by
  show StableHlo.after hostOps3 V (Proc.devRef .tc main_v53) = _
  unfold Cert.ReferenceIdeal.Val.rowOf70
  simp only [hostOps3]
  after_results_simp
  refine (shapeCast_row_eq_broadcastInDim _ shapeCasts_S70_S1x70 bcast_S70_S1x70_1).trans ?_
  unfold Cert.ReferenceIdeal.Val.invStd70 Cert.ReferenceIdeal.Val.colVar70 Cert.ReferenceIdeal.Val.downRows70 Cert.ReferenceIdeal.Val.rowOf70 Cert.ReferenceIdeal.Val.colMean70
  rfl

theorem gamma_hostOps3 (V : Valuation τ sig (Elt F)) :
    after (hostOps3 (F := F)) V (Proc.devRef .tc main_v54) = Cert.ReferenceIdeal.Val.rowOf70 (V (Proc.devRef .tc main_arg14)) := by
  show StableHlo.after hostOps3 V (Proc.devRef .tc main_v54) = _
  unfold Cert.ReferenceIdeal.Val.rowOf70
  simp only [hostOps3]
  after_results_simp
  exact shapeCast_row_eq_broadcastInDim _ _ _

theorem beta_hostOps3 (V : Valuation τ sig (Elt F)) :
    after (hostOps3 (F := F)) V (Proc.devRef .tc main_v55) = Cert.ReferenceIdeal.Val.rowOf70 (V (Proc.devRef .tc main_arg15)) := by
  show StableHlo.after hostOps3 V (Proc.devRef .tc main_v55) = _
  unfold Cert.ReferenceIdeal.Val.rowOf70
  simp only [hostOps3]
  after_results_simp
  exact shapeCast_row_eq_broadcastInDim _ _ _

theorem stats_hostOps3 (V : Valuation τ sig (Elt F)) :
    after (hostOps3 (F := F)) V (Proc.devRef .tc main_v52) = Cert.ReferenceIdeal.Val.rowOf70 (Cert.ReferenceIdeal.Val.colMean70 (V (Proc.devRef .tc main_v38)))
    ∧ after (hostOps3 (F := F)) V (Proc.devRef .tc main_v53) = Cert.ReferenceIdeal.Val.rowOf70 (Cert.ReferenceIdeal.Val.invStd70 (V (Proc.devRef .tc main_v38)))
    ∧ after (hostOps3 (F := F)) V (Proc.devRef .tc main_v54) = Cert.ReferenceIdeal.Val.rowOf70 (V (Proc.devRef .tc main_arg14))
    ∧ after (hostOps3 (F := F)) V (Proc.devRef .tc main_v55) = Cert.ReferenceIdeal.Val.rowOf70 (V (Proc.devRef .tc main_arg15)) :=
  ⟨mean_hostOps3 V, invStd_hostOps3 V, gamma_hostOps3 V, beta_hostOps3 V⟩

theorem mean_hostOps7 (V : Valuation τ sig (Elt F)) :
    after (hostOps7 (F := F)) V (Proc.devRef .tc main_v79) = Cert.ReferenceIdeal.Val.rowOf60 (Cert.ReferenceIdeal.Val.colMean60 (V (Proc.devRef .tc main_v65))) := by
  show StableHlo.after hostOps7 V (Proc.devRef .tc main_v79) = _
  unfold Cert.ReferenceIdeal.Val.rowOf60
  simp only [hostOps7]
  after_results_simp
  refine (shapeCast_row_eq_broadcastInDim _ shapeCasts_S60_S1x60 bcast_S60_S1x60_1).trans ?_
  unfold Cert.ReferenceIdeal.Val.colMean60
  rfl

theorem invStd_hostOps7 (V : Valuation τ sig (Elt F)) :
    after (hostOps7 (F := F)) V (Proc.devRef .tc main_v80) = Cert.ReferenceIdeal.Val.rowOf60 (Cert.ReferenceIdeal.Val.invStd60 (V (Proc.devRef .tc main_v65))) := by
  show StableHlo.after hostOps7 V (Proc.devRef .tc main_v80) = _
  unfold Cert.ReferenceIdeal.Val.rowOf60
  simp only [hostOps7]
  after_results_simp
  refine (shapeCast_row_eq_broadcastInDim _ shapeCasts_S60_S1x60 bcast_S60_S1x60_1).trans ?_
  unfold Cert.ReferenceIdeal.Val.invStd60 Cert.ReferenceIdeal.Val.colVar60 Cert.ReferenceIdeal.Val.downRows60 Cert.ReferenceIdeal.Val.rowOf60 Cert.ReferenceIdeal.Val.colMean60
  rfl

theorem gamma_hostOps7 (V : Valuation τ sig (Elt F)) :
    after (hostOps7 (F := F)) V (Proc.devRef .tc main_v81) = Cert.ReferenceIdeal.Val.rowOf60 (V (Proc.devRef .tc main_arg16)) := by
  show StableHlo.after hostOps7 V (Proc.devRef .tc main_v81) = _
  unfold Cert.ReferenceIdeal.Val.rowOf60
  simp only [hostOps7]
  after_results_simp
  exact shapeCast_row_eq_broadcastInDim _ _ _

theorem beta_hostOps7 (V : Valuation τ sig (Elt F)) :
    after (hostOps7 (F := F)) V (Proc.devRef .tc main_v82) = Cert.ReferenceIdeal.Val.rowOf60 (V (Proc.devRef .tc main_arg17)) := by
  show StableHlo.after hostOps7 V (Proc.devRef .tc main_v82) = _
  unfold Cert.ReferenceIdeal.Val.rowOf60
  simp only [hostOps7]
  after_results_simp
  exact shapeCast_row_eq_broadcastInDim _ _ _

theorem stats_hostOps7 (V : Valuation τ sig (Elt F)) :
    after (hostOps7 (F := F)) V (Proc.devRef .tc main_v79) = Cert.ReferenceIdeal.Val.rowOf60 (Cert.ReferenceIdeal.Val.colMean60 (V (Proc.devRef .tc main_v65)))
    ∧ after (hostOps7 (F := F)) V (Proc.devRef .tc main_v80) = Cert.ReferenceIdeal.Val.rowOf60 (Cert.ReferenceIdeal.Val.invStd60 (V (Proc.devRef .tc main_v65)))
    ∧ after (hostOps7 (F := F)) V (Proc.devRef .tc main_v81) = Cert.ReferenceIdeal.Val.rowOf60 (V (Proc.devRef .tc main_arg16))
    ∧ after (hostOps7 (F := F)) V (Proc.devRef .tc main_v82) = Cert.ReferenceIdeal.Val.rowOf60 (V (Proc.devRef .tc main_arg17)) :=
  ⟨mean_hostOps7 V, invStd_hostOps7 V, gamma_hostOps7 V, beta_hostOps7 V⟩

theorem mean_hostOps14 (V : Valuation τ sig (Elt F)) :
    after (hostOps14 (F := F)) V (Proc.devRef .tc main_v115) = Cert.ReferenceIdeal.Val.rowOf60 (Cert.ReferenceIdeal.Val.colMean60 (V (Proc.devRef .tc main_v101))) := by
  show StableHlo.after hostOps14 V (Proc.devRef .tc main_v115) = _
  unfold Cert.ReferenceIdeal.Val.rowOf60
  simp only [hostOps14]
  after_results_simp
  refine (shapeCast_row_eq_broadcastInDim _ shapeCasts_S60_S1x60 bcast_S60_S1x60_1).trans ?_
  unfold Cert.ReferenceIdeal.Val.colMean60
  rfl

theorem invStd_hostOps14 (V : Valuation τ sig (Elt F)) :
    after (hostOps14 (F := F)) V (Proc.devRef .tc main_v116) = Cert.ReferenceIdeal.Val.rowOf60 (Cert.ReferenceIdeal.Val.invStd60 (V (Proc.devRef .tc main_v101))) := by
  show StableHlo.after hostOps14 V (Proc.devRef .tc main_v116) = _
  unfold Cert.ReferenceIdeal.Val.rowOf60
  simp only [hostOps14]
  after_results_simp
  refine (shapeCast_row_eq_broadcastInDim _ shapeCasts_S60_S1x60 bcast_S60_S1x60_1).trans ?_
  unfold Cert.ReferenceIdeal.Val.invStd60 Cert.ReferenceIdeal.Val.colVar60 Cert.ReferenceIdeal.Val.downRows60 Cert.ReferenceIdeal.Val.rowOf60 Cert.ReferenceIdeal.Val.colMean60
  rfl

theorem gamma_hostOps14 (V : Valuation τ sig (Elt F)) :
    after (hostOps14 (F := F)) V (Proc.devRef .tc main_v117) = Cert.ReferenceIdeal.Val.rowOf60 (V (Proc.devRef .tc main_arg18)) := by
  show StableHlo.after hostOps14 V (Proc.devRef .tc main_v117) = _
  unfold Cert.ReferenceIdeal.Val.rowOf60
  simp only [hostOps14]
  after_results_simp
  exact shapeCast_row_eq_broadcastInDim _ _ _

theorem beta_hostOps14 (V : Valuation τ sig (Elt F)) :
    after (hostOps14 (F := F)) V (Proc.devRef .tc main_v118) = Cert.ReferenceIdeal.Val.rowOf60 (V (Proc.devRef .tc main_arg19)) := by
  show StableHlo.after hostOps14 V (Proc.devRef .tc main_v118) = _
  unfold Cert.ReferenceIdeal.Val.rowOf60
  simp only [hostOps14]
  after_results_simp
  exact shapeCast_row_eq_broadcastInDim _ _ _

theorem stats_hostOps14 (V : Valuation τ sig (Elt F)) :
    after (hostOps14 (F := F)) V (Proc.devRef .tc main_v115) = Cert.ReferenceIdeal.Val.rowOf60 (Cert.ReferenceIdeal.Val.colMean60 (V (Proc.devRef .tc main_v101)))
    ∧ after (hostOps14 (F := F)) V (Proc.devRef .tc main_v116) = Cert.ReferenceIdeal.Val.rowOf60 (Cert.ReferenceIdeal.Val.invStd60 (V (Proc.devRef .tc main_v101)))
    ∧ after (hostOps14 (F := F)) V (Proc.devRef .tc main_v117) = Cert.ReferenceIdeal.Val.rowOf60 (V (Proc.devRef .tc main_arg18))
    ∧ after (hostOps14 (F := F)) V (Proc.devRef .tc main_v118) = Cert.ReferenceIdeal.Val.rowOf60 (V (Proc.devRef .tc main_arg19)) :=
  ⟨mean_hostOps14 V, invStd_hostOps14 V, gamma_hostOps14 V, beta_hostOps14 V⟩

theorem mean_hostOps18 (V : Valuation τ sig (Elt F)) :
    after (hostOps18 (F := F)) V (Proc.devRef .tc main_v142) = Cert.ReferenceIdeal.Val.rowOf70 (Cert.ReferenceIdeal.Val.colMean70 (V (Proc.devRef .tc main_v128))) := by
  show StableHlo.after hostOps18 V (Proc.devRef .tc main_v142) = _
  unfold Cert.ReferenceIdeal.Val.rowOf70
  simp only [hostOps18]
  after_results_simp
  refine (shapeCast_row_eq_broadcastInDim _ shapeCasts_S70_S1x70 bcast_S70_S1x70_1).trans ?_
  unfold Cert.ReferenceIdeal.Val.colMean70
  rfl

theorem invStd_hostOps18 (V : Valuation τ sig (Elt F)) :
    after (hostOps18 (F := F)) V (Proc.devRef .tc main_v143) = Cert.ReferenceIdeal.Val.rowOf70 (Cert.ReferenceIdeal.Val.invStd70 (V (Proc.devRef .tc main_v128))) := by
  show StableHlo.after hostOps18 V (Proc.devRef .tc main_v143) = _
  unfold Cert.ReferenceIdeal.Val.rowOf70
  simp only [hostOps18]
  after_results_simp
  refine (shapeCast_row_eq_broadcastInDim _ shapeCasts_S70_S1x70 bcast_S70_S1x70_1).trans ?_
  unfold Cert.ReferenceIdeal.Val.invStd70 Cert.ReferenceIdeal.Val.colVar70 Cert.ReferenceIdeal.Val.downRows70 Cert.ReferenceIdeal.Val.rowOf70 Cert.ReferenceIdeal.Val.colMean70
  rfl

theorem gamma_hostOps18 (V : Valuation τ sig (Elt F)) :
    after (hostOps18 (F := F)) V (Proc.devRef .tc main_v144) = Cert.ReferenceIdeal.Val.rowOf70 (V (Proc.devRef .tc main_arg20)) := by
  show StableHlo.after hostOps18 V (Proc.devRef .tc main_v144) = _
  unfold Cert.ReferenceIdeal.Val.rowOf70
  simp only [hostOps18]
  after_results_simp
  exact shapeCast_row_eq_broadcastInDim _ _ _

theorem beta_hostOps18 (V : Valuation τ sig (Elt F)) :
    after (hostOps18 (F := F)) V (Proc.devRef .tc main_v145) = Cert.ReferenceIdeal.Val.rowOf70 (V (Proc.devRef .tc main_arg21)) := by
  show StableHlo.after hostOps18 V (Proc.devRef .tc main_v145) = _
  unfold Cert.ReferenceIdeal.Val.rowOf70
  simp only [hostOps18]
  after_results_simp
  exact shapeCast_row_eq_broadcastInDim _ _ _

theorem stats_hostOps18 (V : Valuation τ sig (Elt F)) :
    after (hostOps18 (F := F)) V (Proc.devRef .tc main_v142) = Cert.ReferenceIdeal.Val.rowOf70 (Cert.ReferenceIdeal.Val.colMean70 (V (Proc.devRef .tc main_v128)))
    ∧ after (hostOps18 (F := F)) V (Proc.devRef .tc main_v143) = Cert.ReferenceIdeal.Val.rowOf70 (Cert.ReferenceIdeal.Val.invStd70 (V (Proc.devRef .tc main_v128)))
    ∧ after (hostOps18 (F := F)) V (Proc.devRef .tc main_v144) = Cert.ReferenceIdeal.Val.rowOf70 (V (Proc.devRef .tc main_arg20))
    ∧ after (hostOps18 (F := F)) V (Proc.devRef .tc main_v145) = Cert.ReferenceIdeal.Val.rowOf70 (V (Proc.devRef .tc main_arg21)) :=
  ⟨mean_hostOps18 V, invStd_hostOps18 V, gamma_hostOps18 V, beta_hostOps18 V⟩

end Cert.KernelIdeal.Val

end
-- ==== Proof.KernelTake.lean ====
import proofs.«147321_j32504312496394_1_alg».proof.Proof.Gen.KernelIdeal.Launch
import proofs.«147321_j32504312496394_1_alg».proof.Proof.RefStages
import proofs.«147321_j32504312496394_1_alg».proof.Proof.NodeIdx
import Idealize.ShloMosaic.Lib.StableHlo.Run
import Idealize.ShloMosaic.PureOps.Reduce

noncomputable section

namespace Cert.KernelIdeal.Val

open Cert.KernelIdeal Cert.KernelIdeal.Gen Idealize.ShloMosaic Idealize.ShloMosaic.TcCoe Idealize.ShloMosaic.StableHlo

variable {F : FTy → Type} [FloatOps F]

theorem foldl_andi_ones {ι : Type} (g : ι → BitVec 1) (hg : ∀ n, g n = 1#1) :
    ∀ l : List ι, l.foldl (fun r n => IntOp.andi r (g n)) 1#1 = 1#1
  | [] => rfl
  | a :: l => by
    have e : IntOp.andi (1#1) (1#1) = 1#1 := by decide
    rw [List.foldl_cons, hg a, e]
    exact foldl_andi_ones g hg l

theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

theorem select_bcast_ones {α : Type} {s t : Shape} (dims : Fin s.rank → Fin t.rank) (h : s.BroadcastsInDim t dims)
    (r : IVec s 1) (hr : ∀ k, r k = 1#1) (a b : t.Idx → α) : select (broadcastInDim t dims h r) a b = a := by
  funext j
  show Scalar.select (r _) (a j) (b j) = a j
  rw [hr]
  exact if_pos rfl

theorem inRange_bit (w : BitVec 32) (h0 : 0 ≤ w.toInt) (h1 : w.toInt < 50000) :
    IntOp.andi (IntOp.cmpi .sge w 0#32) (IntOp.cmpi .sle w 49999#32) = 1#1 := by
  have z : (0#32 : BitVec 32).toInt = 0 := by decide
  have n : (49999#32 : BitVec 32).toInt = 49999 := by decide
  have e0 : IntOp.cmpi .sge w 0#32 = 1#1 := by
    show BitVec.ofBool (decide ((0#32 : BitVec 32).toInt ≤ w.toInt)) = 1#1
    rw [z, decide_eq_true h0]; rfl
  have e1 : IntOp.cmpi .sle w 49999#32 = 1#1 := by
    show BitVec.ofBool (decide (w.toInt ≤ (49999#32 : BitVec 32).toInt)) = 1#1
    rw [n, decide_eq_true (by omega)]; rfl
  rw [e0, e1]; decide

theorem wrap_word (w x : BitVec 32) (h0 : 0 ≤ w.toInt) : Scalar.select (IntOp.cmpi .slt w 0#32) x w = w := by
  have z : (0#32 : BitVec 32).toInt = 0 := by decide
  have e : IntOp.cmpi .slt w 0#32 = 0#1 := by
    show BitVec.ofBool (decide (w.toInt < (0#32 : BitVec 32).toInt)) = 0#1
    rw [z, decide_eq_false (by omega)]; rfl
  rw [e]
  exact if_neg (by decide)

def wrapColK (s : IVec S850000 32) : IVec S850000x1 32 :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

def inRangeK (w : IVec S850000x1 32) : IVec S850000 1 :=
  Host.reduce IntOp.andi (andi (cmpi .sge w (broadcastInDim S850000x1 ![] bcast_S_S850000x1 (constantI S_ 32 0#32))) (cmpi .sle w (broadcastInDim S850000x1 ![0, 1] bcast_S1x1_S850000x1_0_1 (broadcastInDim S1x1 ![1] bcast_S1_S1x1_1 (constantI S1 32 49999#32))))) (constantI S_ 1 1#1) reducesTo_S850000x1_S850000_d1 h_S_

theorem wrapColK_range (s : IVec S850000 32) (hs : Cert.Val.NodeIdx s) (i : S850000x1.Idx) :
    0 ≤ (wrapColK s i).toInt ∧ (wrapColK s i).toInt < 50000 := by
  unfold wrapColK broadcastInDim
  show 0 ≤ (Scalar.select (IntOp.cmpi .slt (s _) 0#32) _ (s _)).toInt ∧ (Scalar.select (IntOp.cmpi .slt (s _) 0#32) _ (s _)).toInt < 50000
  rw [wrap_word _ _ (hs _).1]
  exact hs _

theorem inRangeK_ones (w : IVec S850000x1 32) (hw : ∀ i, 0 ≤ (w i).toInt ∧ (w i).toInt < 50000) (k : S850000.Idx) :
    inRangeK w k = 1#1 :=
  reduce_andi_ones _ _ _ _ rfl (fun i => inRange_bit (w i) (hw i).1 (hw i).2) k

theorem takeK70 (H : FVec F S50000x70 .f32) (s : IVec S850000 32) (hs : Cert.Val.NodeIdx s) :
    select (broadcastInDim S850000x70 ![0] bcast_S850000_S850000x70_0 (inRangeK (wrapColK s)))
        (Host.gather gather_S50000x70_S850000x1_S850000x70_1_0_n_n_0_1_170 H (wrapColK s))
        (broadcastInDim S850000x70 ![] bcast_S_S850000x70 (constant (F := F) S_ .f32 0x7FC00000#32))
      = Cert.ReferenceIdeal.Val.gatherRows70 H s :=
  (select_bcast_ones _ _ _ (inRangeK_ones _ (wrapColK_range s hs)) _ _).trans rfl

theorem takeK60 (H : FVec F S50000x60 .f32) (s : IVec S850000 32) (hs : Cert.Val.NodeIdx s) :
    select (broadcastInDim S850000x60 ![0] bcast_S850000_S850000x60_0 (inRangeK (wrapColK s)))
        (Host.gather gather_S50000x60_S850000x1_S850000x60_1_0_n_n_0_1_160 H (wrapColK s))
        (broadcastInDim S850000x60 ![] bcast_S_S850000x60 (constant (F := F) S_ .f32 0x7FC00000#32))
      = Cert.ReferenceIdeal.Val.gatherRows60 H s :=
  (select_bcast_ones _ _ _ (inRangeK_ones _ (wrapColK_range s hs)) _ _).trans rfl

theorem takeK50 (H : FVec F S50000x50 .f32) (s : IVec S850000 32) (hs : Cert.Val.NodeIdx s) :
    select (broadcastInDim S850000x50 ![0] bcast_S850000_S850000x50_0 (inRangeK (wrapColK s)))
        (Host.gather gather_S50000x50_S850000x1_S850000x50_1_0_n_n_0_1_150 H (wrapColK s))
        (broadcastInDim S850000x50 ![] bcast_S_S850000x50 (constant (F := F) S_ .f32 0x7FC00000#32))
      = Cert.ReferenceIdeal.Val.gatherRows50 H s :=
  (select_bcast_ones _ _ _ (inRangeK_ones _ (wrapColK_range s hs)) _ _).trans rfl

theorem takeK88 (H : FVec F S50000x88 .f32) (s : IVec S850000 32) (hs : Cert.Val.NodeIdx s) :
    select (broadcastInDim S850000x88 ![0] bcast_S850000_S850000x88_0 (inRangeK (wrapColK s)))
        (Host.gather gather_S50000x88_S850000x1_S850000x88_1_0_n_n_0_1_188 H (wrapColK s))
        (broadcastInDim S850000x88 ![] bcast_S_S850000x88 (constant (F := F) S_ .f32 0x7FC00000#32))
      = Cert.ReferenceIdeal.Val.gatherRows88 H s :=
  (select_bcast_ones _ _ _ (inRangeK_ones _ (wrapColK_range s hs)) _ _).trans rfl

theorem normCol_hostOps1_1 (V : Valuation τ sig (Elt F)) :
    after (hostOps1_1 (F := F)) V (Proc.devRef .tc main_v32) = Cert.ReferenceIdeal.Val.normCol (V (Proc.devRef .tc main_v29)) := by
  show StableHlo.after hostOps1_1 V (Proc.devRef .tc main_v32) = _
  simp only [hostOps1_1]
  after_results
  rfl

theorem normCol_hostOps5_1 (V : Valuation τ sig (Elt F)) :
    after (hostOps5_1 (F := F)) V (Proc.devRef .tc main_v59) = Cert.ReferenceIdeal.Val.normCol (V (Proc.devRef .tc main_v29)) := by
  show StableHlo.after hostOps5_1 V (Proc.devRef .tc main_v59) = _
  simp only [hostOps5_1]
  after_results
  rfl

theorem normCol_hostOps9_1 (V : Valuation τ sig (Elt F)) :
    after (hostOps9_1 (F := F)) V (Proc.devRef .tc main_v86) = Cert.ReferenceIdeal.Val.normCol (V (Proc.devRef .tc main_v29)) := by
  show StableHlo.after hostOps9_1 V (Proc.devRef .tc main_v86) = _
  simp only [hostOps9_1]
  after_results
  rfl

theorem normCol_hostOps12_1 (V : Valuation τ sig (Elt F)) :
    after (hostOps12_1 (F := F)) V (Proc.devRef .tc main_v95) = Cert.ReferenceIdeal.Val.normCol (V (Proc.devRef .tc main_v29)) := by
  show StableHlo.after hostOps12_1 V (Proc.devRef .tc main_v95) = _
  simp only [hostOps12_1]
  after_results
  rfl

theorem normCol_hostOps16_1 (V : Valuation τ sig (Elt F)) :
    after (hostOps16_1 (F := F)) V (Proc.devRef .tc main_v122) = Cert.ReferenceIdeal.Val.normCol (V (Proc.devRef .tc main_v29)) := by
  show StableHlo.after hostOps16_1 V (Proc.devRef .tc main_v122) = _
  simp only [hostOps16_1]
  after_results
  rfl

theorem normCol_hostOps20_1 (V : Valuation τ sig (Elt F)) :
    after (hostOps20_1 (F := F)) V (Proc.devRef .tc main_v149) = Cert.ReferenceIdeal.Val.normCol (V (Proc.devRef .tc main_v29)) := by
  show StableHlo.after hostOps20_1 V (Proc.devRef .tc main_v149) = _
  simp only [hostOps20_1]
  after_results
  rfl

end Cert.KernelIdeal.Val

end
-- ==== Proof.KernelTake1.lean ====
/-
  The kernel's row gather of stretch 1, at width 70: on node indices it leaves in its result buffer the rows the
  reference gathers.  The stretch is the seventeen operations of the take (wrap, range test, gather, select against a
  NaN word) laid inline; read in order they are the composition whose value `takeK70` gives.
-/
import proofs.«147321_j32504312496394_1_alg».proof.Proof.KernelTake

noncomputable section

namespace Cert.KernelIdeal.Val

open Cert.KernelIdeal Cert.KernelIdeal.Gen Idealize.ShloMosaic Idealize.ShloMosaic.TcCoe Idealize.ShloMosaic.StableHlo

variable {F : FTy → Type} [FloatOps F]

set_option maxHeartbeats 1000000 in
theorem take_hostOps1 (V : Valuation τ sig (Elt F)) (hs : Cert.Val.NodeIdx (S := S850000) (V (Proc.devRef .tc main_v3))) :
    after (hostOps1 (F := F)) V (Proc.devRef .tc main_v31) = Cert.ReferenceIdeal.Val.gatherRows70 (V (Proc.devRef .tc main_v30)) (V (Proc.devRef .tc main_v3)) := by
  show StableHlo.after hostOps1 V (Proc.devRef .tc main_v31) = _
  simp only [hostOps1]
  after_results_simp
  simp only [TRef.ofBuf, TRef.toBuf, cast_eq]
  exact takeK70 _ _ hs

end Cert.KernelIdeal.Val

end
-- ==== Proof.KernelLinearLib.lean ====
import Idealize.ShloMosaic.Lib.ValueIdx
import Idealize.ShloMosaic.PureOps.Ideal.Laws

noncomputable section

namespace Cert.Val

open Idealize.ShloMosaic Idealize.ShloMosaic.ValueIdx

/-- The offset vector (0, 0) is the zero function. -/
theorem zeroOffsets2 : (![0, 0] : Fin 2 → Nat) = fun _ => 0 := funext fun a => by fin_cases a <;> rfl

variable {M K N : Nat} (D : DotDims ⟨2, ![M, K]⟩ ⟨2, ![K, N]⟩ ⟨2, ![M, N]⟩)

structure Plain : Prop where
  lc : D.lhsContracting = [1]
  rc : D.rhsContracting = [0]
  ln : D.lhsNonContracting = [0]
  rn : D.rhsNonContracting = [1]
  lb : D.lhsBatch = []
  rb : D.rhsBatch = []

variable {D}

private theorem val_congr {n : Nat} {d : Fin n → Nat} (i : (a : Fin n) → Fin (d a)) :
    ∀ (p q : Nat) (hp : p < n) (hq : q < n), p = q → (i ⟨p, hp⟩).val = (i ⟨q, hq⟩).val :=
  fun p q hp hq h => by subst h; rfl

theorem Plain.lhs_row (h : Plain D) (i : (⟨2, ![M, N]⟩ : Shape).Idx) (k : D.contr.Idx) :
    (D.lhsIdx i k 0).val = (i 0).val := by
  unfold DotDims.lhsIdx
  rw [dif_neg (by rw [h.lb]; exact List.not_mem_nil), dif_pos (by rw [h.ln]; exact List.mem_singleton_self _)]
  exact val_congr i _ 0 _ _ (by simp [h.lb, h.ln])

theorem Plain.rhs_col (h : Plain D) (i : (⟨2, ![M, N]⟩ : Shape).Idx) (k : D.contr.Idx) :
    (D.rhsIdx i k 1).val = (i 1).val := by
  unfold DotDims.rhsIdx
  rw [dif_neg (by rw [h.rb]; exact List.not_mem_nil), dif_pos (by rw [h.rn]; exact List.mem_singleton_self _)]
  exact val_congr i _ 1 _ _ (by simp [h.lb, h.ln, h.rn])

/-- For the plain axis lists the contraction sum at output entry (p, q) runs over row p of the left operand against column q of the right. -/
theorem Plain.sum (h : Plain D) (L : (⟨2, ![M, K]⟩ : Shape).Idx → EReal) (R : (⟨2, ![K, N]⟩ : Shape).Idx → EReal)
    (p : Fin M) (q : Fin N) :
    ∑ k : D.contr.Idx, L (D.lhsIdx (ix2 p q) k) * R (D.rhsIdx (ix2 p q) k) = ∑ k : Fin K, L (ix2 p k) * R (ix2 k q) := by
  have hr : D.contr.rank = 1 := by rw [D.rank_contr, h.lc]; rfl
  have hs : D.contr.size ⟨0, by omega⟩ = K := by
    rw [D.size_contr 0 (by rw [h.lc]; exact Nat.one_pos)]; simp [h.lc]
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact h.lhs_row _ _
    | ⟨1, _⟩ => exact (D.lhsIdx_val_of_single h.lc _ _).trans hk)
  have er : D.rhsIdx (ix2 p q) ((contrEquiv1 D K hr hs).symm k) = ix2 k q := funext fun a => Fin.ext (by
    match a with
    | ⟨0, _⟩ => exact (D.rhsIdx_val_of_single h.rc _ _).trans hk
    | ⟨1, _⟩ => exact h.rhs_col _ _)
  rw [el, er]

/-- A block product into the zero accumulator and the whole arrays' product agree at an entry where the block's row is the array's row and the right block is the right array. -/
theorem Plain.block_eq_array {R : Nat} {D' : DotDims ⟨2, ![R, K]⟩ ⟨2, ![K, N]⟩ ⟨2, ![R, N]⟩} (h : Plain D) (h' : Plain D')
    {φ₁ φ₂ ψ₁ ψ₂ : FTy} (prec prec' : Option ContractPrecision) (sched : HostSchedule)
    (x0 : FVec Ideal ⟨2, ![M, K]⟩ φ₁) (x1 : FVec Ideal ⟨2, ![K, N]⟩ φ₂) (A : FVec Ideal ⟨2, ![R, K]⟩ ψ₁) (B : FVec Ideal ⟨2, ![K, N]⟩ ψ₂)
    (r : Fin R) (p : Fin M) (q : Fin N) (h0 : ∀ k : Fin K, x0 (ix2 p k) = A (ix2 r k)) (h1 : ∀ k : Fin K, x1 (ix2 k q) = B (ix2 k q)) :
    FloatOps.matmul D prec x0 x1 (constant _ .f32 0x00000000#32) (ix2 p q) = FloatOps.dotGeneral D' prec' sched A B (ix2 r q) := by
  rw [Ideal.matmul_constant_zero_apply, Ideal.dotGeneral_apply, h.sum, h'.sum]
  exact Finset.sum_congr rfl fun k _ => by rw [h0 k, h1 k]

end Cert.Val

end
-- ==== Proof.KernelLinear.lean ====
import proofs.«147321_j32504312496394_1_alg».proof.Proof.Gen.KernelIdeal.Frame
import proofs.«147321_j32504312496394_1_alg».proof.Proof.RefStages
import proofs.«147321_j32504312496394_1_alg».proof.Proof.KernelLinearLib
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx Cert.Val

/-- At point t the left operand's and the output's block is block t of the rows; the weights' block is the whole array. -/
theorem linear0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t writes back block t of the whole arrays' product: row p of the block is row t · 5000 + p of the array. -/
theorem linear0_flushed (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S50000x88_S88x70_S50000x70_1_0_0_1_n_n none (V c main_arg0) (V c main_arg2)) := by
  show (cfg0.win 2).cut (grid0.coords t) ((dat0 V c).after 2 t) = _
  rw [after0_2]
  unfold out0_2
  rw [View.canon_unit_zero zeroOffsets2]
  simp only [View.ld_unit_zero (S := S5000x88) zeroOffsets2, View.ld_unit_zero (S := S88x70) zeroOffsets2]
  obtain ⟨e00, e01, e10, e11, e20, e21⟩ := linear0_index t
  have ht : t.val < 10 := Nat.lt_of_lt_of_eq t.isLt N_0
  funext j
  obtain ⟨p, q, rfl⟩ : ∃ (p : Fin 5000) (q : Fin 70), j = ix2 p q := ⟨j 0, j 1, eq_ix2 j⟩
  have hr : t.val * 5000 + p.val < 50000 := by omega
  have hout : ((cfg0.win 2).blk t).view.emb (ix2 p q) = ix2 (⟨t.val * 5000 + p.val, hr⟩ : Fin 50000) q :=
    Shape.idx_ext₂ (by show win0_2.index t (0 : Fin 2) * 5000 + 1 * p.val = t.val * 5000 + p.val; omega)
      (by show win0_2.index t (1 : Fin 2) * 70 + 1 * q.val = q.val; omega)
  show k0_pay1 (iblk0 V c 0 t) (iblk0 V c 1 t) (ix2 p q) = (Host.dotGeneral (F := Ideal) (φ₁ := .f32) (φ₂ := .f32) Cert.ReferenceIdeal.dot_S50000x88_S88x70_S50000x70_1_0_0_1_n_n none (V c main_arg0) (V c main_arg2)) (((cfg0.win 2).blk t).view.emb (ix2 p q))
  rw [hout]
  unfold k0_pay1
  skip
  refine Plain.block_eq_array ⟨rfl, rfl, rfl, rfl, rfl, rfl⟩ ⟨rfl, rfl, rfl, rfl, rfl, rfl⟩ none none .single _ _ (V c main_arg0) (V c main_arg2) _ p q
    (fun k => ?_) (fun k => ?_)
  · show V c main_arg0 (((cfg0.win 0).blk t).view.emb (ix2 p k)) = V c main_arg0 (ix2 (⟨t.val * 5000 + p.val, hr⟩ : Fin 50000) k)
    exact congrArg _ (Shape.idx_ext₂ (by show win0_0.index t (0 : Fin 2) * 5000 + 1 * p.val = t.val * 5000 + p.val; omega)
      (by show win0_0.index t (1 : Fin 2) * 88 + 1 * k.val = k.val; omega))
  · show V c main_arg2 (((cfg0.win 1).blk t).view.emb (ix2 k q)) = V c main_arg2 (ix2 k q)
    exact congrArg _ (Shape.idx_ext₂ (by show win0_1.index t (0 : Fin 2) * 88 + 1 * k.val = k.val; omega)
      (by show win0_1.index t (1 : Fin 2) * 70 + 1 * q.val = q.val; omega))

/-- The ten row blocks tile the array: row r lies in block r / 5000. -/
theorem linear0_covered (i : S50000x70.Idx) : ∃ t : Fin cfg0.N, (cfg0.win 2).flush t = true ∧ i ∈ ((cfg0.win 2).blk t).view.set := by
  have hi0 : (i 0).val < 50000 := (i 0).isLt
  have hi1 : (i 1).val < 70 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, e20, e21⟩ := linear0_index t
  refine ⟨t, flush0_2 t, ?_⟩
  show i ∈ ((View.whole main_v30).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 70 ≤ (i 1).val ∧ (i 1).val < win0_2.index t (1 : Fin 2) * 70 + 70; omega

theorem linear0 (V : (c : Dev nD) → (b : Ref sig .tc) → Buf (Elt Ideal) ((c : Thread nD τ).loc b)) (c : Dev nD) :
    (dat0 (F := Ideal) V c).arrAt 2 cfg0.N = Host.dotGeneral (F := Ideal) (φ₁ := .f32) (φ₂ := .f32) Cert.ReferenceIdeal.dot_S50000x88_S88x70_S50000x70_1_0_0_1_n_n none (V c main_arg0) (V c main_arg2) :=
  (dat0 (F := Ideal) V c).arrAt_eq_of_cover 2 _ (fun t _ => linear0_flushed V c t) linear0_covered

end Cert.KernelIdeal.Val

end
-- ==== Proof.KernelEdgeScaleLib.lean ====
import Idealize.ShloMosaic.Lib.Pipeline.Value
import Idealize.ShloMosaic.Lib.ValueIdx
noncomputable section
namespace Cert.KernelIdeal.Val
open Idealize.ShloMosaic Idealize.ShloMosaic.ValueIdx Idealize.ShloMosaic.Pipeline

variable {F : FTy → Type} [FloatOps F] {sig : RefSig} {R B Rb : ℕ}

theorem edgeScale_zeroOffsets : (![0, 0] : Fin 2 → ℕ) = fun _ => 0 := funext fun a => by fin_cases a <;> rfl

/-- Where an element of the block at point t sits when the block index there is (t, 0): t blocks down, same column. -/
theorem edgeScale_emb {G : Grid} (w : Window sig G) (t : Fin G.N) {a0 a1 : Fin w.shape.rank}
    (e0 : w.index t a0 = t.val) (e1 : w.index t a1 = 0) (y : (w.xblock (G.coords t)).Idx) :
    ((w.rect t).emb y a0 : ℕ) = t.val * w.size a0 + y a0 ∧ ((w.rect t).emb y a1 : ℕ) = y a1 :=
  ⟨by rw [w.rect_emb_val, e0], w.rect_emb_val_of_index_zero t a1 e1 y⟩

/-- An index lies in the block whose index on every axis is the coordinate divided by the block's size. -/
theorem edgeScale_mem_rect {G : Grid} (w : Window sig G) (t : Fin G.N) (i : w.shape.Idx)
    (hx : w.xsize (G.coords t) = w.size) (h : ∀ a, 0 < w.size a ∧ w.index t a = i a / w.size a) : i ∈ (w.rect t).set :=
  Rect.mem_set_unit.mpr fun a => by
    show w.index t a * w.size a ≤ i a ∧ (i a : ℕ) < w.index t a * w.size a + w.xsize (G.coords t) a
    rw [hx, (h a).2]
    exact ⟨Nat.div_mul_le_self _ _, Nat.lt_div_mul_add (h a).1⟩

/-- Blocks of the array and of the column taken o rows down, multiplied row by row, are the block of the scaled array. -/
theorem edgeScale_block (A : FVec F ⟨2, ![R, B]⟩ .f32) (n : FVec F ⟨2, ![R, 1]⟩ .f32)
    (x0 : Vec F ⟨2, ![Rb, B]⟩ .f32) (x1 : Vec F ⟨2, ![Rb, 1]⟩ .f32) (o : ℕ)
    (E0 : (⟨2, ![Rb, B]⟩ : Shape).Idx → (⟨2, ![R, B]⟩ : Shape).Idx)
    (E1 : (⟨2, ![Rb, 1]⟩ : Shape).Idx → (⟨2, ![R, 1]⟩ : Shape).Idx)
    (E2 : (⟨2, ![Rb, B]⟩ : Shape).Idx → (⟨2, ![R, B]⟩ : Shape).Idx)
    (hx0 : ∀ y, x0 y = A (E0 y)) (hx1 : ∀ y, x1 y = n (E1 y))
    (h0 : ∀ y, (E0 y 0 : ℕ) = o + y 0 ∧ (E0 y 1 : ℕ) = y 1)
    (h1 : ∀ y, (E1 y 0 : ℕ) = o + y 0 ∧ (E1 y 1 : ℕ) = y 1)
    (h2 : ∀ y, (E2 y 0 : ℕ) = o + y 0 ∧ (E2 y 1 : ℕ) = y 1)
    (hc0 : (⟨2, ![Rb, B]⟩ : Shape).ShapeCasts ⟨2, ![Rb, B]⟩) (hc1 : (⟨2, ![Rb, 1]⟩ : Shape).ShapeCasts ⟨2, ![Rb, 1]⟩)
    (hb : (⟨2, ![Rb, 1]⟩ : Shape).Broadcasts ⟨2, ![Rb, B]⟩)
    (hbi : (⟨2, ![R, 1]⟩ : Shape).BroadcastsInDim ⟨2, ![R, B]⟩ ![0, 1]) (y : (⟨2, ![Rb, B]⟩ : Shape).Idx) :
    mulf (φ := .f32) (shapeCast _ x0 hc0) (broadcastTo _ (shapeCast _ x1 hc1) hb) y
      = mulf (φ := .f32) A (broadcastInDim _ ![0, 1] hbi n) (E2 y) := by
  have hR : ∀ {N : ℕ} (r : Fin N), r.val = if N = 1 then 0 else r.val := fun r => by have := r.isLt; split <;> omega
  rw [shapeCast_self, shapeCast_self]
  show FloatOps.mulf (x0 y) (broadcastTo _ x1 hb y) = FloatOps.mulf (A (E2 y)) (broadcastInDim _ ![0, 1] hbi n (E2 y))
  rw [broadcastTo_apply x1 hb y (ix2 (y 0) (0 : Fin 1)) fun a => by
      match a with
      | ⟨0, _⟩ => exact hR (y 0)
      | ⟨1, _⟩ => rfl,
    broadcastInDim_apply ![0, 1] hbi n (E2 y) (ix2 (E2 y 0) (0 : Fin 1)) fun a => by
      match a with
      | ⟨0, _⟩ => exact hR (E2 y 0)
      | ⟨1, _⟩ => rfl,
    hx0, hx1,
    show E0 y = E2 y from Shape.idx_ext₂ ((h0 y).1.trans (h2 y).1.symm) ((h0 y).2.trans (h2 y).2.symm),
    show E1 (ix2 (y 0) (0 : Fin 1)) = ix2 (E2 y 0) (0 : Fin 1) from
      Shape.idx_ext₂ ((h1 _).1.trans (h2 y).1.symm) (h1 _).2]
  rfl

end Cert.KernelIdeal.Val
end
-- ==== Proof.KernelEdgeScale1.lean ====
import proofs.«147321_j32504312496394_1_alg».proof.Proof.Gen.KernelIdeal.Frame
import proofs.«147321_j32504312496394_1_alg».proof.Proof.RefStages
import proofs.«147321_j32504312496394_1_alg».proof.Proof.KernelEdgeScaleLib
noncomputable section
namespace Cert.KernelIdeal.Val
open Cert.KernelIdeal Cert.KernelIdeal.Gen Idealize.ShloMosaic Idealize.ShloMosaic.TcCoe Idealize.ShloMosaic.ValueIdx

variable {F : FTy → Type} [FloatOps F]

/-- All three windows are blocked by rows: at grid point t each has block index (t, 0). -/
theorem edgeScale1_rowBlocks : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt F) ((c : Thread nD τ).loc b))

/-- Point t writes back block t of the scaled rows, and the 85 row blocks tile the output array. -/
theorem edgeScale1 (c : Dev nD) :
    (dat1 V c).arrAt 2 cfg1.N = Cert.ReferenceIdeal.Val.scaleRows70 (V c main_v31) (V c main_v32) := by
  refine (dat1 V c).arrAt_eq_of_cover 2 _ (fun t _ => ?_) fun i => ?_
  · obtain ⟨e0, e1, e2, e3, e4, e5⟩ := edgeScale1_rowBlocks t
    show (cfg1.win 2).cut (grid1.coords t) ((dat1 V c).after 2 t) = _
    rw [after1_2]
    unfold out1_2
    rw [View.canon_unit_zero edgeScale_zeroOffsets]
    simp only [View.ld_unit_zero (S := S10000x70) edgeScale_zeroOffsets, View.ld_unit_zero (S := S10000x1) edgeScale_zeroOffsets]
    funext y
    exact edgeScale_block (R := 850000) (B := 70) (Rb := 10000) (V c main_v31) (V c main_v32) (iblk1 V c 0 t) (iblk1 V c 1 t)
      (t.val * 10000) (win1_0.rect t).emb (win1_1.rect t).emb (win1_2.rect t).emb (fun _ => rfl) (fun _ => rfl)
      (edgeScale_emb win1_0 t e0 e1) (edgeScale_emb win1_1 t e2 e3) (edgeScale_emb win1_2 t e4 e5) _ _ _ _ y
  · have hi : (i 0).val < 850000 := (i 0).isLt
    obtain ⟨t, ht⟩ : ∃ t : Fin cfg1.N, t.val = (i 0).val / 10000 :=
      ⟨⟨_, lt_of_lt_of_eq (by omega) N_1.symm⟩, rfl⟩
    obtain ⟨-, -, -, -, e4, e5⟩ := edgeScale1_rowBlocks t
    refine ⟨t, flush1_2 t, ?_⟩
    show i ∈ ((View.whole main_v33).slice (win1_2.rect t)).set
    rw [View.set_slice_whole]
    exact edgeScale_mem_rect win1_2 t i rfl fun (a : Fin 2) => match a with
      | ⟨0, _⟩ => ⟨(by decide : (0 : ℕ) < 10000), e4.trans ht⟩
      | ⟨1, _⟩ => ⟨(by decide : (0 : ℕ) < 70), e5.trans (Nat.div_eq_of_lt (i 1).isLt).symm⟩

end Cert.KernelIdeal.Val
end
-- ==== Proof.KernelBiasLib.lean ====
import Idealize.ShloMosaic.Lib.Pipeline.Value
import Idealize.ShloMosaic.Lib.ValueIdx
import Idealize.ShloMosaic.Lib.ValueLayout
noncomputable section
namespace Cert.KernelIdeal.Val
open Idealize.ShloMosaic Idealize.ShloMosaic.ValueIdx

variable {F : FTy → Type} [FloatOps F] {N R B : Nat}

/-- Clamped below at zero. -/
def biasClamp (x : F .f32) : F .f32 := FloatOps.maximumf x (FloatOps.ofBits .f32 0x00000000#32)

/-- The three index maps' values at t: the array's and the result's are (t, 0), the row's (0, 0). -/
abbrev biasAt (i0 i1 i2 : Fin 2 → Nat) (t : Nat) : Prop :=
  i0 0 = t ∧ i0 1 = 0 ∧ i1 0 = 0 ∧ i1 1 = 0 ∧ i2 0 = t ∧ i2 1 = 0

/-- With x0 the rows of A from R t and x1 the row r, the block x0 + x1 under f is the block from R t of A + r under f. -/
theorem bias_block (f : F .f32 → F .f32) {i0 i1 i2 : Fin 2 → Nat} {t : Nat} (h : biasAt i0 i1 i2 t)
    {A : FVec F ⟨2, ![N, B]⟩ .f32} {r : FVec F ⟨2, ![1, B]⟩ .f32} {x0 : Vec F ⟨2, ![R, B]⟩ .f32} {x1 : Vec F ⟨2, ![1, B]⟩ .f32}
    {q0 q1 c0 c1 cb cd inb0 inb1 inb2}
    (h0 : ∀ y, x0 y = A ((Rect.unit (s := ⟨2, ![N, B]⟩) (fun a => i0 a * ![R, B] a) ![R, B] inb0).emb y))
    (h1 : ∀ y, x1 y = r ((Rect.unit (s := ⟨2, ![1, B]⟩) (fun a => i1 a * ![1, B] a) ![1, B] inb1).emb y))
    (y : (⟨2, ![R, B]⟩ : Shape).Idx) :
    View.canon [(⟨Rect.unit (s := ⟨2, ![R, B]⟩) ![0, 0] ![R, B] q0, fun y => f (addf
        (shapeCast (s := ⟨2, ![R, B]⟩) ⟨2, ![R, B]⟩ (View.ld x0 (Rect.unit (s := ⟨2, ![R, B]⟩) ![0, 0] ![R, B] q0)) c0)
        (broadcastTo ⟨2, ![R, B]⟩ (shapeCast (s := ⟨2, ![1, B]⟩) ⟨2, ![1, B]⟩ (View.ld x1 (Rect.unit (s := ⟨2, ![1, B]⟩) ![0, 0] ![1, B] q1)) c1) cb) y)⟩
          : View.Piece (Elt F) ⟨2, ![R, B]⟩ .f32)] y
      = f (addf A (broadcastInDim ⟨2, ![N, B]⟩ ![0, 1] cd r)
          ((Rect.unit (s := ⟨2, ![N, B]⟩) (fun a => i2 a * ![R, B] a) ![R, B] inb2).emb y)) := by
  have hz : (![0, 0] : Fin 2 → Nat) = fun _ => 0 := funext fun a => match a with | ⟨0, _⟩ => rfl | ⟨1, _⟩ => rfl
  obtain ⟨e0, e1, e2, e3, e4, e5⟩ := h
  obtain rfl : i0 = i2 := funext fun a => match a with | ⟨0, _⟩ => e0.trans e4.symm | ⟨1, _⟩ => e1.trans e5.symm
  obtain ⟨p, q, rfl⟩ : ∃ p q, y = ix2 p q := ⟨_, _, eq_ix2 y⟩
  rw [View.canon_unit_zero hz, View.ld_unit_zero (S := ⟨2, ![R, B]⟩) hz, View.ld_unit_zero (S := ⟨2, ![1, B]⟩) hz,
    shapeCast_self, shapeCast_self]
  refine congrArg f (congrArg₂ FloatOps.addf (h0 _) ?_)
  rw [broadcastTo_1b_ab_apply, h1]
  refine (congrArg r ?_).trans (broadcastInDim_apply _ cd r _ (ix2 0 q) fun a => ?_).symm
  · exact Shape.idx_ext₂ (by show i1 0 * 1 + 1 * 0 = 0; rw [e2]) (by show i1 1 * B + 1 * q.val = q.val; rw [e3]; omega)
  · match a with
    | ⟨0, _⟩ => rfl
    | ⟨1, _⟩ =>
      show q.val = if B = 1 then 0 else i0 1 * B + 1 * q.val
      rw [e1]
      split
      · have := q.isLt; omega
      · omega

/-- Row i 0 of the array lies in the row block of point i 0 / R. -/
theorem bias_cover {M : Nat} {i0 i1 i2 : Fin M → Fin 2 → Nat} (h : ∀ t : Fin M, biasAt (i0 t) (i1 t) (i2 t) t.val)
    (hM : N ≤ M * R) (i : (⟨2, ![N, B]⟩ : Shape).Idx) :
    ∃ t : Fin M, ∀ a : Fin 2, i2 t a * ![R, B] a ≤ (i a).val ∧ (i a).val < i2 t a * ![R, B] a + ![R, B] a := by
  have hi := idx2_lt0 i
  have hR : 0 < R := Nat.pos_of_ne_zero fun e => by subst e; omega
  have ht : (i 0).val / R < M := (Nat.div_lt_iff_lt_mul hR).2 (Nat.lt_of_lt_of_le hi hM)
  obtain ⟨-, -, -, -, e4, e5⟩ := h ⟨_, ht⟩
  refine ⟨⟨_, ht⟩, fun a => ?_⟩
  match a with
  | ⟨0, _⟩ =>
    show i2 _ 0 * R ≤ (i 0).val ∧ (i 0).val < i2 _ 0 * R + R
    rw [e4]
    exact ⟨Nat.div_mul_le_self _ _, Nat.lt_div_mul_add hR⟩
  | ⟨1, _⟩ =>
    show i2 _ 1 * B ≤ (i 1).val ∧ (i 1).val < i2 _ 1 * B + B
    rw [e5, Nat.zero_mul, Nat.zero_add]
    exact ⟨Nat.zero_le _, idx2_lt1 i⟩

end Cert.KernelIdeal.Val
end
-- ==== Proof.KernelBias2.lean ====
import proofs.«147321_j32504312496394_1_alg».proof.Proof.Gen.KernelIdeal.Frame
import proofs.«147321_j32504312496394_1_alg».proof.Proof.RefStages
import proofs.«147321_j32504312496394_1_alg».proof.Proof.KernelBiasLib
noncomputable section
namespace Cert.KernelIdeal.Val
open Cert.KernelIdeal Cert.KernelIdeal.Gen Idealize.ShloMosaic Idealize.ShloMosaic.TcCoe

variable {F : FTy → Type} [FloatOps F] (V : (c : Dev nD) → (b : Ref sig .tc) → Buf (Elt F) ((c : Thread nD τ).loc b))

theorem biasAt2 : ∀ t : Fin cfg2.N, biasAt (win2_0.index t) (win2_1.index t) (win2_2.index t) t.val :=
  (by decide +kernel : ∀ t : Fin grid2.N, _)

/-- The output array after the region is the reference's result of the region's two input arrays. -/
theorem bias2 (c : Dev nD) :
    (dat2 V c).arrAt 2 cfg2.N = Cert.ReferenceIdeal.Val.relu70 (Cert.ReferenceIdeal.Val.addRow70 (V c main_v36) (V c main_v37)) :=
  (dat2 V c).arrAt_eq_of_cover 2 _
    (fun t _ => by
      rw [Pipeline.Dat.flushed, after2_2, out2_2]
      exact funext fun j => bias_block biasClamp (biasAt2 t) (fun _ => rfl) (fun _ => rfl) j)
    fun i => (bias_cover (R := 5000) biasAt2 (by decide) i).imp fun t ht =>
      ⟨flush2_2 t, (View.set_slice_whole main_v38 (win2_2.rect t)).symm ▸ Rect.mem_set_unit.2 ht⟩

end Cert.KernelIdeal.Val
end
-- ==== Proof.KernelNormalizeLib.lean ====
import Idealize.ShloMosaic.Lib.Pipeline.Value
import Idealize.ShloMosaic.Lib.ValueIdx
import Idealize.ShloMosaic.Lib.ValueLayout
import Idealize.ShloMosaic.Lib.KernelVsHost
noncomputable section
namespace Cert.KernelIdeal.Val
open Idealize.ShloMosaic Idealize.ShloMosaic.ValueIdx

theorem normalizeOffsets : (![0, 0] : Fin 2 → ℕ) = fun _ => 0 := funext (Fin.forall_fin_two.2 ⟨rfl, rfl⟩)

/-- A block as wide as its array sits at column block 0: an in-range column i·B + y < B forces i = 0. -/
theorem normalize_col {R M B : ℕ} {e : (⟨2, ![R, B]⟩ : Shape).Idx → (⟨2, ![M, B]⟩ : Shape).Idx} {i : Fin 2 → ℕ}
    (h : ∀ y a, (e y a : ℕ) = i a * ![R, B] a + y a) (y : (⟨2, ![R, B]⟩ : Shape).Idx) : (e y 1 : ℕ) = y 1 := by
  have hl : (e y 1 : ℕ) < B := idx2_lt1 (e y)
  rw [h] at hl ⊢
  rw [Nat.eq_zero_of_not_pos fun hp => Nat.not_le_of_lt (Nat.lt_of_le_of_lt (Nat.le_add_right _ _) hl)
    (Nat.le_mul_of_pos_left B hp), Nat.zero_mul, Nat.zero_add]

/-- γ·((h − mean)·invstd) + β on a block whose rows are rows of the array is (γ·(h − mean))·invstd + β there: the product of extended reals is associative. -/
theorem normalize_block {R M B : ℕ} (f0 : FVec Ideal ⟨2, ![M, B]⟩ .f32) (f1 f2 f3 f4 : FVec Ideal ⟨2, ![1, B]⟩ .f32)
    (c0 : (⟨2, ![R, B]⟩ : Shape).ShapeCasts ⟨2, ![R, B]⟩) (c1 : (⟨2, ![1, B]⟩ : Shape).ShapeCasts ⟨2, ![1, B]⟩)
    (hb : (⟨2, ![1, B]⟩ : Shape).Broadcasts ⟨2, ![R, B]⟩) (hd : (⟨2, ![1, B]⟩ : Shape).BroadcastsInDim ⟨2, ![M, B]⟩ ![0, 1])
    {e0 e5 : (⟨2, ![R, B]⟩ : Shape).Idx → (⟨2, ![M, B]⟩ : Shape).Idx}
    {e1 e2 e3 e4 : (⟨2, ![1, B]⟩ : Shape).Idx → (⟨2, ![1, B]⟩ : Shape).Idx} {i0 i1 i2 i3 i4 i5 : Fin 2 → ℕ}
    (h0 : ∀ y a, (e0 y a : ℕ) = i0 a * ![R, B] a + y a) (h1 : ∀ y a, (e1 y a : ℕ) = i1 a * ![1, B] a + y a)
    (h2 : ∀ y a, (e2 y a : ℕ) = i2 a * ![1, B] a + y a) (h3 : ∀ y a, (e3 y a : ℕ) = i3 a * ![1, B] a + y a)
    (h4 : ∀ y a, (e4 y a : ℕ) = i4 a * ![1, B] a + y a) (h5 : ∀ y a, (e5 y a : ℕ) = i5 a * ![R, B] a + y a)
    (hi : i0 = i5) (y : (⟨2, ![R, B]⟩ : Shape).Idx) :
    addf (mulf (broadcastTo _ (shapeCast _ (fun y => f3 (e3 y)) c1) hb) (mulf (subf (shapeCast _ (fun y => f0 (e0 y)) c0)
        (broadcastTo _ (shapeCast _ (fun y => f1 (e1 y)) c1) hb)) (broadcastTo _ (shapeCast _ (fun y => f2 (e2 y)) c1) hb)))
        (broadcastTo _ (shapeCast _ (fun y => f4 (e4 y)) c1) hb) y
      = addf (mulf (mulf (broadcastInDim _ ![0, 1] hd f3) (subf f0 (broadcastInDim _ ![0, 1] hd f1)))
          (broadcastInDim _ ![0, 1] hd f2)) (broadcastInDim _ ![0, 1] hd f4) (e5 y) := by
  obtain ⟨p, q, rfl⟩ : ∃ (p : Fin R) (q : Fin B), y = ix2 p q := ⟨y 0, y 1, eq_ix2 y⟩
  have row : ∀ {e : (⟨2, ![1, B]⟩ : Shape).Idx → (⟨2, ![1, B]⟩ : Shape).Idx} {i : Fin 2 → ℕ},
      (∀ y a, (e y a : ℕ) = i a * ![1, B] a + y a) → e (ix2 0 q) = ix2 0 q := fun h =>
    Shape.idx_ext₂ ((Fin.val_eq_zero _).trans (Fin.val_eq_zero _).symm) (normalize_col h _)
  have e05 : e0 (ix2 p q) = e5 (ix2 p q) := funext fun a => Fin.ext (by rw [h0, h5, hi])
  obtain ⟨r, hr⟩ : ∃ r : Fin M, e5 (ix2 p q) = ix2 r q :=
    ⟨e5 (ix2 p q) 0, Shape.idx_ext₂ rfl (normalize_col h5 _)⟩
  rw [hr, addf_apply, addf_apply, mulf_apply, mulf_apply, mulf_apply, mulf_apply, subf_apply, subf_apply]
  simp only [shapeCast_self]
  rw [broadcastTo_1b_ab_apply, broadcastTo_1b_ab_apply, broadcastTo_1b_ab_apply, broadcastTo_1b_ab_apply,
    broadcastInDim_oneRow_apply, broadcastInDim_oneRow_apply, broadcastInDim_oneRow_apply, broadcastInDim_oneRow_apply,
    row h1, row h2, row h3, row h4, e05, hr, mul_assoc]

/-- Row r of an array cut into N blocks of R rows, block t at block index (t, 0), lies in block r / R. -/
theorem normalize_cover {R M B N : ℕ} (ix : Fin N → Fin 2 → ℕ) (hix : ∀ t, ix t = ![t.val, 0]) (hM : M ≤ R * N)
    (i : (⟨2, ![M, B]⟩ : Shape).Idx) :
    ∃ t, ∀ a : Fin 2, ix t a * ![R, B] a ≤ (i a).val ∧ (i a).val < ix t a * ![R, B] a + ![R, B] a := by
  have hi := Nat.lt_of_lt_of_le (idx2_lt0 i) hM
  refine ⟨⟨(i 0).val / R, Nat.div_lt_of_lt_mul hi⟩, Fin.forall_fin_two.2 ⟨?_, ?_⟩⟩
  · rw [hix]
    exact ⟨Nat.div_mul_le_self _ _, Nat.lt_div_mul_add (Nat.pos_of_ne_zero fun h => by rw [h, Nat.zero_mul] at hi; exact Nat.not_lt_zero _ hi)⟩
  · rw [hix]
    show 0 * B ≤ (i 1).val ∧ (i 1).val < 0 * B + B
    rw [Nat.zero_mul, Nat.zero_add]
    exact ⟨Nat.zero_le _, idx2_lt1 i⟩

end Cert.KernelIdeal.Val
end
-- ==== Proof.KernelNormalize.lean ====
import proofs.«147321_j32504312496394_1_alg».proof.Proof.Gen.KernelIdeal.Frame
import proofs.«147321_j32504312496394_1_alg».proof.Proof.RefStages
import proofs.«147321_j32504312496394_1_alg».proof.Proof.KernelNormalizeLib
noncomputable section
namespace Cert.KernelIdeal.Val
open Cert.KernelIdeal Cert.KernelIdeal.Gen Idealize.ShloMosaic Idealize.ShloMosaic.TcCoe Idealize.ShloMosaic.ValueIdx

theorem normalizeIndex3 : ∀ t : Fin cfg3.N, win3_0.index t = win3_5.index t ∧ win3_5.index t = ![t.val, 0] :=
  (by decide +kernel : ∀ t : Fin grid3.N, _)

variable (V : (c : Dev nD) → (b : Ref sig .tc) → Buf (Elt Ideal) ((c : Thread nD τ).loc b))

theorem normalize3 (c : Dev nD) :
    (dat3 (F := Ideal) V c).arrAt 5 cfg3.N = Cert.ReferenceIdeal.Val.normalize70 (F := Ideal) (V c main_v38) (V c main_v52) (V c main_v53) (V c main_v54) (V c main_v55) :=
  (dat3 (F := Ideal) V c).arrAt_eq_of_cover 5 _ (fun t _ => by
    show (cfg3.win 5).cut (grid3.coords t) ((dat3 V c).after 5 t) = _
    rw [after3_5]
    unfold out3_5
    rw [View.canon_unit_zero normalizeOffsets]
    simp only [View.ld_unit_zero (S := S5000x70) normalizeOffsets, View.ld_unit_zero (S := S1x70) normalizeOffsets]
    funext y
    exact normalize_block (R := 5000) (M := 50000) (B := 70) (V c main_v38) (V c main_v52) (V c main_v53) (V c main_v54) (V c main_v55) _ _ _ _
      (win3_0.rect_emb_val t) (win3_1.rect_emb_val t) (win3_2.rect_emb_val t) (win3_3.rect_emb_val t)
      (win3_4.rect_emb_val t) (win3_5.rect_emb_val t) (normalizeIndex3 t).1 y)
    fun i => (normalize_cover (R := 5000) win3_5.index (fun t => (normalizeIndex3 t).2) (by decide +kernel) i).imp fun t h => ⟨flush3_5 t, by
      show i ∈ ((View.whole main_v56).slice (win3_5.rect t)).set
      rw [View.set_slice_whole, Rect.mem_set_unit]
      exact h⟩

end Cert.KernelIdeal.Val
end
-- ==== Proof.KernelLayer1.lean ====
import proofs.«147321_j32504312496394_1_alg».proof.Proof.KernelCarried
import proofs.«147321_j32504312496394_1_alg».proof.Proof.KernelRegionsKeep
import proofs.«147321_j32504312496394_1_alg».proof.Proof.KernelKeep
import proofs.«147321_j32504312496394_1_alg».proof.Proof.KernelAggregate
import proofs.«147321_j32504312496394_1_alg».proof.Proof.KernelTake1
import proofs.«147321_j32504312496394_1_alg».proof.Proof.KernelLinear
import proofs.«147321_j32504312496394_1_alg».proof.Proof.KernelEdgeScale1
import proofs.«147321_j32504312496394_1_alg».proof.Proof.KernelBias2
import proofs.«147321_j32504312496394_1_alg».proof.Proof.KernelNormalize

set_option maxRecDepth 16384

noncomputable section

namespace Cert.KernelIdeal.Val

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

/-- Each segment's output is its lemma's value at the inputs already found; the carried buffers pass every segment. -/
theorem layer1_read (c : Dev nD) (s d : IVec S850000 32) (n : FVec Ideal S850000 .f32) (H : FVec Ideal S50000x88 .f32)
    (hs : Cert.Val.NodeIdx s) (hC : Carried m c (W3 m ρ c) s d n) (hH : W3 m ρ c (Proc.devRef .tc main_arg0) = H) :
    Carried m c (W11 m ρ c) s d n ∧ W11 m ρ c (Proc.devRef .tc main_v56) = Cert.ReferenceIdeal.Val.batchNorm70 (F := Ideal) (Cert.ReferenceIdeal.Val.layer1 (F := Ideal) H (m ((c.tc : Thread nD τ).loc main_arg2)) (m ((c.tc : Thread nD τ).loc main_arg3)) s d n) (m ((c.tc : Thread nD τ).loc main_arg14)) (m ((c.tc : Thread nD τ).loc main_arg15)) := by
  have C1 := hC.of_keep_ne main_v30 (keep_region0 m ρ c) (by decide) (by decide) (by decide) (by decide)
  have v1 := ((out_region0 m ρ c).trans (linear0 (V3 m ρ) c)).trans (congrArg₂ _ hH (hC.args main_arg2 (by decide)))
  have C2 := C1.of_keep written_hostOps1 (keep_hostOps1 (W4 m ρ c)) (by decide) (by decide) (by decide) (by decide)
  have v2 := (take_hostOps1 (W4 m ρ c) (C1.src.symm ▸ hs)).trans (congrArg₂ _ v1 C1.src)
  have C3 := C2.of_keep written_hostOps1_1 (keep_hostOps1_1 (W5 m ρ c)) (by decide) (by decide) (by decide) (by decide)
  have v3 := (normCol_hostOps1_1 (W5 m ρ c)).trans (congrArg _ C2.nrm)
  have C4 := C3.of_keep_ne main_v33 (keep_region1 m ρ c) (by decide) (by decide) (by decide) (by decide)
  have v4 := ((out_region1 m ρ c).trans (edgeScale1 (V6 m ρ) c)).trans
    (congrArg₂ _ ((keep_hostOps1_1 (W5 m ρ c) main_v31 (by decide)).trans v2) v3)
  have C5 := C4.of_keep written_hostOps2 (keep_hostOps2 (W7 m ρ c)) (by decide) (by decide) (by decide) (by decide)
  have v5 := (sum_hostOps2 (W7 m ρ c)).trans (congrArg₂ _ v4 C4.dst)
  have r5 := (row_hostOps2 (W7 m ρ c)).trans (congrArg _ (C4.args main_arg3 (by decide)))
  have C6 := C5.of_keep_ne main_v38 (keep_region2 m ρ c) (by decide) (by decide) (by decide) (by decide)
  have v6 := ((out_region2 m ρ c).trans (bias2 (V8 m ρ) c)).trans (congrArg _ (congrArg₂ _ v5 r5))
  have C7 := C6.of_keep written_hostOps3 (keep_hostOps3 (W9 m ρ c)) (by decide) (by decide) (by decide) (by decide)
  obtain ⟨e1, e2, e3, e4⟩ := stats_hostOps3 (F := Ideal) (W9 m ρ c)
  have v8 := ((out_region3 m ρ c).trans (normalize3 (V10 m ρ) c)).trans
    (congr (congr (congr (congrArg₂ _ ((keep_hostOps3 (W9 m ρ c) main_v38 (by decide)).trans v6)
      (e1.trans (congrArg _ (congrArg _ v6)))) (e2.trans (congrArg _ (congrArg _ v6))))
      (e3.trans (congrArg _ (C6.args main_arg14 (by decide))))) (e4.trans (congrArg _ (C6.args main_arg15 (by decide)))))
  exact ⟨C7.of_keep_ne main_v56 (keep_region3 m ρ c) (by decide) (by decide) (by decide) (by decide), v8⟩

end Cert.KernelIdeal.Val

end
-- ==== Proof.KernelTake5.lean ====
/-
  The kernel's row gather of stretch 5, at width 60: on node indices it leaves in its result buffer the rows the
  reference gathers.  The stretch is the seventeen operations of the take (wrap, range test, gather, select against a
  NaN word) laid inline; read in order they are the composition whose value `takeK60` gives.
-/
import proofs.«147321_j32504312496394_1_alg».proof.Proof.KernelTake

noncomputable section

namespace Cert.KernelIdeal.Val

open Cert.KernelIdeal Cert.KernelIdeal.Gen Idealize.ShloMosaic Idealize.ShloMosaic.TcCoe Idealize.ShloMosaic.StableHlo

variable {F : FTy → Type} [FloatOps F]

set_option maxHeartbeats 1000000 in
theorem take_hostOps5 (V : Valuation τ sig (Elt F)) (hs : Cert.Val.NodeIdx (S := S850000) (V (Proc.devRef .tc main_v3))) :
    after (hostOps5 (F := F)) V (Proc.devRef .tc main_v58) = Cert.ReferenceIdeal.Val.gatherRows60 (V (Proc.devRef .tc main_v57)) (V (Proc.devRef .tc main_v3)) := by
  show StableHlo.after hostOps5 V (Proc.devRef .tc main_v58) = _
  simp only [hostOps5]
  after_results_simp
  simp only [TRef.ofBuf, TRef.toBuf, cast_eq]
  exact takeK60 _ _ hs

end Cert.KernelIdeal.Val

end
-- ==== Proof.KernelLinear4.lean ====
import proofs.«147321_j32504312496394_1_alg».proof.Proof.Gen.KernelIdeal.Frame
import proofs.«147321_j32504312496394_1_alg».proof.Proof.RefStages
import proofs.«147321_j32504312496394_1_alg».proof.Proof.KernelLinearLib
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx Cert.Val

/-- At point t the left operand's and the output's block is block t of the rows; the weights' block is the whole array. -/
theorem linear4_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Point t writes back block t of the whole arrays' product: row p of the block is row t · 5000 + p of the array. -/
theorem linear4_flushed (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal)
      (Host.dotGeneral (F := Ideal) (φ₁ := .f32) (φ₂ := .f32) Cert.ReferenceIdeal.dot_S50000x70_S70x60_S50000x60_1_0_0_1_n_n none (V c main_v56) (V c main_arg4)) := by
  show (cfg4.win 2).cut (grid4.coords t) ((dat4 V c).after 2 t) = _
  rw [after4_2]
  unfold out4_2
  rw [View.canon_unit_zero zeroOffsets2]
  simp only [View.ld_unit_zero (S := S5000x70) zeroOffsets2, View.ld_unit_zero (S := S70x60) zeroOffsets2]
  obtain ⟨e00, e01, e10, e11, e20, e21⟩ := linear4_index t
  have ht : t.val < 10 := Nat.lt_of_lt_of_eq t.isLt N_4
  funext j
  obtain ⟨p, q, rfl⟩ : ∃ (p : Fin 5000) (q : Fin 60), j = ix2 p q := ⟨j 0, j 1, eq_ix2 j⟩
  have hr : t.val * 5000 + p.val < 50000 := by omega
  have hout : ((cfg4.win 2).blk t).view.emb (ix2 p q) = ix2 (⟨t.val * 5000 + p.val, hr⟩ : Fin 50000) q :=
    Shape.idx_ext₂ (by show win4_2.index t (0 : Fin 2) * 5000 + 1 * p.val = t.val * 5000 + p.val; omega)
      (by show win4_2.index t (1 : Fin 2) * 60 + 1 * q.val = q.val; omega)
  show k4_pay1 (iblk4 V c 0 t) (iblk4 V c 1 t) (ix2 p q) = (Host.dotGeneral (F := Ideal) (φ₁ := .f32) (φ₂ := .f32) Cert.ReferenceIdeal.dot_S50000x70_S70x60_S50000x60_1_0_0_1_n_n none (V c main_v56) (V c main_arg4)) (((cfg4.win 2).blk t).view.emb (ix2 p q))
  rw [hout]
  unfold k4_pay1
  rw[shapeCast_self]
  refine Plain.block_eq_array ⟨rfl, rfl, rfl, rfl, rfl, rfl⟩ ⟨rfl, rfl, rfl, rfl, rfl, rfl⟩ none none .single _ _ (V c main_v56) (V c main_arg4) _ p q
    (fun k => ?_) (fun k => ?_)
  · show V c main_v56 (((cfg4.win 0).blk t).view.emb (ix2 p k)) = V c main_v56 (ix2 (⟨t.val * 5000 + p.val, hr⟩ : Fin 50000) k)
    exact congrArg _ (Shape.idx_ext₂ (by show win4_0.index t (0 : Fin 2) * 5000 + 1 * p.val = t.val * 5000 + p.val; omega)
      (by show win4_0.index t (1 : Fin 2) * 70 + 1 * k.val = k.val; omega))
  · show V c main_arg4 (((cfg4.win 1).blk t).view.emb (ix2 k q)) = V c main_arg4 (ix2 k q)
    exact congrArg _ (Shape.idx_ext₂ (by show win4_1.index t (0 : Fin 2) * 70 + 1 * k.val = k.val; omega)
      (by show win4_1.index t (1 : Fin 2) * 60 + 1 * q.val = q.val; omega))

/-- The ten row blocks tile the array: row r lies in block r / 5000. -/
theorem linear4_covered (i : S50000x60.Idx) : ∃ t : Fin cfg4.N, (cfg4.win 2).flush t = true ∧ i ∈ ((cfg4.win 2).blk t).view.set := by
  have hi0 : (i 0).val < 50000 := (i 0).isLt
  have hi1 : (i 1).val < 60 := (i 1).isLt
  obtain ⟨t, ht⟩ : ∃ t : Fin cfg4.N, t.val = (i 0).val / 5000 :=
    ⟨⟨(i 0).val / 5000, by rw [show cfg4.N = 10 from N_4]; omega⟩, rfl⟩
  obtain ⟨-, -, -, -, e20, e21⟩ := linear4_index t
  refine ⟨t, flush4_2 t, ?_⟩
  show i ∈ ((View.whole main_v57).slice (win4_2.rect t)).set
  rw [View.set_slice_whole, Rect.mem_set_unit]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 60 ≤ (i 1).val ∧ (i 1).val < win4_2.index t (1 : Fin 2) * 60 + 60; omega

theorem linear4 (V : (c : Dev nD) → (b : Ref sig .tc) → Buf (Elt Ideal) ((c : Thread nD τ).loc b)) (c : Dev nD) :
    (dat4 (F := Ideal) V c).arrAt 2 cfg4.N = Host.dotGeneral (F := Ideal) (φ₁ := .f32) (φ₂ := .f32) Cert.ReferenceIdeal.dot_S50000x70_S70x60_S50000x60_1_0_0_1_n_n none (V c main_v56) (V c main_arg4) :=
  (dat4 (F := Ideal) V c).arrAt_eq_of_cover 2 _ (fun t _ => linear4_flushed V c t) linear4_covered

end Cert.KernelIdeal.Val

end
-- ==== Proof.KernelEdgeScale5.lean ====
import proofs.«147321_j32504312496394_1_alg».proof.Proof.Gen.KernelIdeal.Frame
import proofs.«147321_j32504312496394_1_alg».proof.Proof.RefStages
import proofs.«147321_j32504312496394_1_alg».proof.Proof.KernelEdgeScaleLib
noncomputable section
namespace Cert.KernelIdeal.Val
open Cert.KernelIdeal Cert.KernelIdeal.Gen Idealize.ShloMosaic Idealize.ShloMosaic.TcCoe Idealize.ShloMosaic.ValueIdx

variable {F : FTy → Type} [FloatOps F]

/-- All three windows are blocked by rows: at grid point t each has block index (t, 0). -/
theorem edgeScale5_rowBlocks : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt F) ((c : Thread nD τ).loc b))

/-- Point t writes back block t of the scaled rows, and the 85 row blocks tile the output array. -/
theorem edgeScale5 (c : Dev nD) :
    (dat5 V c).arrAt 2 cfg5.N = Cert.ReferenceIdeal.Val.scaleRows60 (V c main_v58) (V c main_v59) := by
  refine (dat5 V c).arrAt_eq_of_cover 2 _ (fun t _ => ?_) fun i => ?_
  · obtain ⟨e0, e1, e2, e3, e4, e5⟩ := edgeScale5_rowBlocks t
    show (cfg5.win 2).cut (grid5.coords t) ((dat5 V c).after 2 t) = _
    rw [after5_2]
    unfold out5_2
    rw [View.canon_unit_zero edgeScale_zeroOffsets]
    simp only [View.ld_unit_zero (S := S10000x60) edgeScale_zeroOffsets, View.ld_unit_zero (S := S10000x1) edgeScale_zeroOffsets]
    funext y
    exact edgeScale_block (R := 850000) (B := 60) (Rb := 10000) (V c main_v58) (V c main_v59) (iblk5 V c 0 t) (iblk5 V c 1 t)
      (t.val * 10000) (win5_0.rect t).emb (win5_1.rect t).emb (win5_2.rect t).emb (fun _ => rfl) (fun _ => rfl)
      (edgeScale_emb win5_0 t e0 e1) (edgeScale_emb win5_1 t e2 e3) (edgeScale_emb win5_2 t e4 e5) _ _ _ _ y
  · have hi : (i 0).val < 850000 := (i 0).isLt
    obtain ⟨t, ht⟩ : ∃ t : Fin cfg5.N, t.val = (i 0).val / 10000 :=
      ⟨⟨_, lt_of_lt_of_eq (by omega) N_5.symm⟩, rfl⟩
    obtain ⟨-, -, -, -, e4, e5⟩ := edgeScale5_rowBlocks t
    refine ⟨t, flush5_2 t, ?_⟩
    show i ∈ ((View.whole main_v60).slice (win5_2.rect t)).set
    rw [View.set_slice_whole]
    exact edgeScale_mem_rect win5_2 t i rfl fun (a : Fin 2) => match a with
      | ⟨0, _⟩ => ⟨(by decide : (0 : ℕ) < 10000), e4.trans ht⟩
      | ⟨1, _⟩ => ⟨(by decide : (0 : ℕ) < 60), e5.trans (Nat.div_eq_of_lt (i 1).isLt).symm⟩

end Cert.KernelIdeal.Val
end
-- ==== Proof.KernelBias6.lean ====
import proofs.«147321_j32504312496394_1_alg».proof.Proof.Gen.KernelIdeal.Frame
import proofs.«147321_j32504312496394_1_alg».proof.Proof.RefStages
import proofs.«147321_j32504312496394_1_alg».proof.Proof.KernelBiasLib
noncomputable section
namespace Cert.KernelIdeal.Val
open Cert.KernelIdeal Cert.KernelIdeal.Gen Idealize.ShloMosaic Idealize.ShloMosaic.TcCoe

variable {F : FTy → Type} [FloatOps F] (V : (c : Dev nD) → (b : Ref sig .tc) → Buf (Elt F) ((c : Thread nD τ).loc b))

theorem biasAt6 : ∀ t : Fin cfg6.N, biasAt (win6_0.index t) (win6_1.index t) (win6_2.index t) t.val :=
  (by decide +kernel : ∀ t : Fin grid6.N, _)

/-- The output array after the region is the reference's result of the region's two input arrays. -/
theorem bias6 (c : Dev nD) :
    (dat6 V c).arrAt 2 cfg6.N = Cert.ReferenceIdeal.Val.relu60 (Cert.ReferenceIdeal.Val.addRow60 (V c main_v63) (V c main_v64)) :=
  (dat6 V c).arrAt_eq_of_cover 2 _
    (fun t _ => by
      rw [Pipeline.Dat.flushed, after6_2, out6_2]
      exact funext fun j => bias_block biasClamp (biasAt6 t) (fun _ => rfl) (fun _ => rfl) j)
    fun i => (bias_cover (R := 5000) biasAt6 (by decide) i).imp fun t ht =>
      ⟨flush6_2 t, (View.set_slice_whole main_v65 (win6_2.rect t)).symm ▸ Rect.mem_set_unit.2 ht⟩

end Cert.KernelIdeal.Val
end
-- ==== Proof.KernelNormalize7.lean ====
import proofs.«147321_j32504312496394_1_alg».proof.Proof.Gen.KernelIdeal.Frame
import proofs.«147321_j32504312496394_1_alg».proof.Proof.RefStages
import proofs.«147321_j32504312496394_1_alg».proof.Proof.KernelNormalizeLib
noncomputable section
namespace Cert.KernelIdeal.Val
open Cert.KernelIdeal Cert.KernelIdeal.Gen Idealize.ShloMosaic Idealize.ShloMosaic.TcCoe Idealize.ShloMosaic.ValueIdx

theorem normalizeIndex7 : ∀ t : Fin cfg7.N, win7_0.index t = win7_5.index t ∧ win7_5.index t = ![t.val, 0] :=
  (by decide +kernel : ∀ t : Fin grid7.N, _)

variable (V : (c : Dev nD) → (b : Ref sig .tc) → Buf (Elt Ideal) ((c : Thread nD τ).loc b))

theorem normalize7 (c : Dev nD) :
    (dat7 (F := Ideal) V c).arrAt 5 cfg7.N = Cert.ReferenceIdeal.Val.normalize60 (F := Ideal) (V c main_v65) (V c main_v79) (V c main_v80) (V c main_v81) (V c main_v82) :=
  (dat7 (F := Ideal) V c).arrAt_eq_of_cover 5 _ (fun t _ => by
    show (cfg7.win 5).cut (grid7.coords t) ((dat7 V c).after 5 t) = _
    rw [after7_5]
    unfold out7_5
    rw [View.canon_unit_zero normalizeOffsets]
    simp only [View.ld_unit_zero (S := S5000x60) normalizeOffsets, View.ld_unit_zero (S := S1x60) normalizeOffsets]
    funext y
    exact normalize_block (R := 5000) (M := 50000) (B := 60) (V c main_v65) (V c main_v79) (V c main_v80) (V c main_v81) (V c main_v82) _ _ _ _
      (win7_0.rect_emb_val t) (win7_1.rect_emb_val t) (win7_2.rect_emb_val t) (win7_3.rect_emb_val t)
      (win7_4.rect_emb_val t) (win7_5.rect_emb_val t) (normalizeIndex7 t).1 y)
    fun i => (normalize_cover (R := 5000) win7_5.index (fun t => (normalizeIndex7 t).2) (by decide +kernel) i).imp fun t h => ⟨flush7_5 t, by
      show i ∈ ((View.whole main_v83).slice (win7_5.rect t)).set
      rw [View.set_slice_whole, Rect.mem_set_unit]
      exact h⟩

end Cert.KernelIdeal.Val
end
-- ==== Proof.KernelLayer2.lean ====
import proofs.«147321_j32504312496394_1_alg».proof.Proof.KernelCarried
import proofs.«147321_j32504312496394_1_alg».proof.Proof.KernelRegionsKeep
import proofs.«147321_j32504312496394_1_alg».proof.Proof.KernelKeep
import proofs.«147321_j32504312496394_1_alg».proof.Proof.KernelAggregate
import proofs.«147321_j32504312496394_1_alg».proof.Proof.KernelTake5
import proofs.«147321_j32504312496394_1_alg».proof.Proof.KernelLinear4
import proofs.«147321_j32504312496394_1_alg».proof.Proof.KernelEdgeScale5
import proofs.«147321_j32504312496394_1_alg».proof.Proof.KernelBias6
import proofs.«147321_j32504312496394_1_alg».proof.Proof.KernelNormalize7

set_option maxRecDepth 16384

noncomputable section

namespace Cert.KernelIdeal.Val

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

/-- Each segment's output is its lemma's value at the inputs already found; the carried buffers pass every segment. -/
theorem layer2_read (c : Dev nD) (s d : IVec S850000 32) (n : FVec Ideal S850000 .f32) (H : FVec Ideal S50000x70 .f32)
    (hs : Cert.Val.NodeIdx s) (hC : Carried m c (W11 m ρ c) s d n) (hH : W11 m ρ c (Proc.devRef .tc main_v56) = H) :
    Carried m c (W19 m ρ c) s d n ∧ W19 m ρ c (Proc.devRef .tc main_v83) = Cert.ReferenceIdeal.Val.batchNorm60 (F := Ideal) (Cert.ReferenceIdeal.Val.layer2 (F := Ideal) H (m ((c.tc : Thread nD τ).loc main_arg4)) (m ((c.tc : Thread nD τ).loc main_arg5)) s d n) (m ((c.tc : Thread nD τ).loc main_arg16)) (m ((c.tc : Thread nD τ).loc main_arg17)) := by
  have C1 := hC.of_keep_ne main_v57 (keep_region4 m ρ c) (by decide) (by decide) (by decide) (by decide)
  have v1 := ((out_region4 m ρ c).trans (linear4 (V11 m ρ) c)).trans (congrArg₂ _ hH (hC.args main_arg4 (by decide)))
  have C2 := C1.of_keep written_hostOps5 (keep_hostOps5 (W12 m ρ c)) (by decide) (by decide) (by decide) (by decide)
  have v2 := (take_hostOps5 (W12 m ρ c) (C1.src.symm ▸ hs)).trans (congrArg₂ _ v1 C1.src)
  have C3 := C2.of_keep written_hostOps5_1 (keep_hostOps5_1 (W13 m ρ c)) (by decide) (by decide) (by decide) (by decide)
  have v3 := (normCol_hostOps5_1 (W13 m ρ c)).trans (congrArg _ C2.nrm)
  have C4 := C3.of_keep_ne main_v60 (keep_region5 m ρ c) (by decide) (by decide) (by decide) (by decide)
  have v4 := ((out_region5 m ρ c).trans (edgeScale5 (V14 m ρ) c)).trans
    (congrArg₂ _ ((keep_hostOps5_1 (W13 m ρ c) main_v58 (by decide)).trans v2) v3)
  have C5 := C4.of_keep written_hostOps6 (keep_hostOps6 (W15 m ρ c)) (by decide) (by decide) (by decide) (by decide)
  have v5 := (sum_hostOps6 (W15 m ρ c)).trans (congrArg₂ _ v4 C4.dst)
  have r5 := (row_hostOps6 (W15 m ρ c)).trans (congrArg _ (C4.args main_arg5 (by decide)))
  have C6 := C5.of_keep_ne main_v65 (keep_region6 m ρ c) (by decide) (by decide) (by decide) (by decide)
  have v6 := ((out_region6 m ρ c).trans (bias6 (V16 m ρ) c)).trans (congrArg _ (congrArg₂ _ v5 r5))
  have C7 := C6.of_keep written_hostOps7 (keep_hostOps7 (W17 m ρ c)) (by decide) (by decide) (by decide) (by decide)
  obtain ⟨e1, e2, e3, e4⟩ := stats_hostOps7 (F := Ideal) (W17 m ρ c)
  have v8 := ((out_region7 m ρ c).trans (normalize7 (V18 m ρ) c)).trans
    (congr (congr (congr (congrArg₂ _ ((keep_hostOps7 (W17 m ρ c) main_v65 (by decide)).trans v6)
      (e1.trans (congrArg _ (congrArg _ v6)))) (e2.trans (congrArg _ (congrArg _ v6))))
      (e3.trans (congrArg _ (C6.args main_arg16 (by decide))))) (e4.trans (congrArg _ (C6.args main_arg17 (by decide)))))
  exact ⟨C7.of_keep_ne main_v83 (keep_region7 m ρ c) (by decide) (by decide) (by decide) (by decide), v8⟩

end Cert.KernelIdeal.Val

end
-- ==== Proof.KernelTake9.lean ====
/-
  The kernel's row gather of stretch 9, at width 50: on node indices it leaves in its result buffer the rows the
  reference gathers.  The stretch is the seventeen operations of the take (wrap, range test, gather, select against a
  NaN word) laid inline; read in order they are the composition whose value `takeK50` gives.
-/
import proofs.«147321_j32504312496394_1_alg».proof.Proof.KernelTake

noncomputable section

namespace Cert.KernelIdeal.Val

open Cert.KernelIdeal Cert.KernelIdeal.Gen Idealize.ShloMosaic Idealize.ShloMosaic.TcCoe Idealize.ShloMosaic.StableHlo

variable {F : FTy → Type} [FloatOps F]

set_option maxHeartbeats 1000000 in
theorem take_hostOps9 (V : Valuation τ sig (Elt F)) (hs : Cert.Val.NodeIdx (S := S850000) (V (Proc.devRef .tc main_v3))) :
    after (hostOps9 (F := F)) V (Proc.devRef .tc main_v85) = Cert.ReferenceIdeal.Val.gatherRows50 (V (Proc.devRef .tc main_v84)) (V (Proc.devRef .tc main_v3)) := by
  show StableHlo.after hostOps9 V (Proc.devRef .tc main_v85) = _
  simp only [hostOps9]
  after_results_simp
  simp only [TRef.ofBuf, TRef.toBuf, cast_eq]
  exact takeK50 _ _ hs

end Cert.KernelIdeal.Val

end
-- ==== Proof.KernelLinear8.lean ====
import proofs.«147321_j32504312496394_1_alg».proof.Proof.Gen.KernelIdeal.Frame
import proofs.«147321_j32504312496394_1_alg».proof.Proof.RefStages
import proofs.«147321_j32504312496394_1_alg».proof.Proof.KernelLinearLib
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx Cert.Val

/-- At point t the left operand's and the output's block is block t of the rows; the weights' block is the whole array. -/
theorem linear8_index : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Point t writes back block t of the whole arrays' product: row p of the block is row t · 5000 + p of the array. -/
theorem linear8_flushed (V : (c : Dev nD) → (b : Ref sig .tc) → Buf (Elt Ideal) ((c : Thread nD τ).loc b)) (c : Dev nD) (t : Fin cfg8.N) :
    (dat8 (F := Ideal) V c).flushed 2 t = ((cfg8.win 2).blk t).view.read (Elt Ideal)
      (Host.dotGeneral (F := Ideal) (φ₁ := .f32) (φ₂ := .f32) Cert.ReferenceIdeal.dot_S50000x60_S60x50_S50000x50_1_0_0_1_n_n none (V c main_v83) (V c main_arg6)) := by
  show (cfg8.win 2).cut (grid8.coords t) ((dat8 V c).after 2 t) = _
  rw [after8_2]
  unfold out8_2
  rw [View.canon_unit_zero zeroOffsets2]
  simp only [View.ld_unit_zero (S := S5000x60) zeroOffsets2, View.ld_unit_zero (S := S60x50) zeroOffsets2]
  obtain ⟨e00, e01, e10, e11, e20, e21⟩ := linear8_index t
  have ht : t.val < 10 := Nat.lt_of_lt_of_eq t.isLt N_8
  funext j
  obtain ⟨p, q, rfl⟩ : ∃ (p : Fin 5000) (q : Fin 50), j = ix2 p q := ⟨j 0, j 1, eq_ix2 j⟩
  have hr : t.val * 5000 + p.val < 50000 := by omega
  have hout : ((cfg8.win 2).blk t).view.emb (ix2 p q) = ix2 (⟨t.val * 5000 + p.val, hr⟩ : Fin 50000) q :=
    Shape.idx_ext₂ (by show win8_2.index t (0 : Fin 2) * 5000 + 1 * p.val = t.val * 5000 + p.val; omega)
      (by show win8_2.index t (1 : Fin 2) * 50 + 1 * q.val = q.val; omega)
  show k8_pay1 (iblk8 V c 0 t) (iblk8 V c 1 t) (ix2 p q) = (Host.dotGeneral (F := Ideal) (φ₁ := .f32) (φ₂ := .f32) Cert.ReferenceIdeal.dot_S50000x60_S60x50_S50000x50_1_0_0_1_n_n none (V c main_v83) (V c main_arg6)) (((cfg8.win 2).blk t).view.emb (ix2 p q))
  rw [hout]
  unfold k8_pay1
  rw[shapeCast_self]
  refine Plain.block_eq_array ⟨rfl, rfl, rfl, rfl, rfl, rfl⟩ ⟨rfl, rfl, rfl, rfl, rfl, rfl⟩ none none .single _ _ (V c main_v83) (V c main_arg6) _ p q
    (fun k => ?_) (fun k => ?_)
  · show V c main_v83 (((cfg8.win 0).blk t).view.emb (ix2 p k)) = V c main_v83 (ix2 (⟨t.val * 5000 + p.val, hr⟩ : Fin 50000) k)
    exact congrArg _ (Shape.idx_ext₂ (by show win8_0.index t (0 : Fin 2) * 5000 + 1 * p.val = t.val * 5000 + p.val; omega)
      (by show win8_0.index t (1 : Fin 2) * 60 + 1 * k.val = k.val; omega))
  · show V c main_arg6 (((cfg8.win 1).blk t).view.emb (ix2 k q)) = V c main_arg6 (ix2 k q)
    exact congrArg _ (Shape.idx_ext₂ (by show win8_1.index t (0 : Fin 2) * 60 + 1 * k.val = k.val; omega)
      (by show win8_1.index t (1 : Fin 2) * 50 + 1 * q.val = q.val; omega))

/-- The ten row blocks tile the array: row r lies in block r / 5000. -/
theorem linear8_covered (i : S50000x50.Idx) : ∃ t : Fin cfg8.N, (cfg8.win 2).flush t = true ∧ i ∈ ((cfg8.win 2).blk t).view.set := by
  have hi0 : (i 0).val < 50000 := (i 0).isLt
  have hi1 : (i 1).val < 50 := (i 1).isLt
  obtain ⟨t, ht⟩ : ∃ t : Fin cfg8.N, t.val = (i 0).val / 5000 :=
    ⟨⟨(i 0).val / 5000, by rw [show cfg8.N = 10 from N_8]; omega⟩, rfl⟩
  obtain ⟨-, -, -, -, e20, e21⟩ := linear8_index t
  refine ⟨t, flush8_2 t, ?_⟩
  show i ∈ ((View.whole main_v84).slice (win8_2.rect t)).set
  rw [View.set_slice_whole, Rect.mem_set_unit]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 50 ≤ (i 1).val ∧ (i 1).val < win8_2.index t (1 : Fin 2) * 50 + 50; omega

theorem linear8 (V : (c : Dev nD) → (b : Ref sig .tc) → Buf (Elt Ideal) ((c : Thread nD τ).loc b)) (c : Dev nD) :
    (dat8 (F := Ideal) V c).arrAt 2 cfg8.N = Host.dotGeneral (F := Ideal) (φ₁ := .f32) (φ₂ := .f32) Cert.ReferenceIdeal.dot_S50000x60_S60x50_S50000x50_1_0_0_1_n_n none (V c main_v83) (V c main_arg6) :=
  (dat8 (F := Ideal) V c).arrAt_eq_of_cover 2 _ (fun t _ => linear8_flushed V c t) linear8_covered

end Cert.KernelIdeal.Val

end
-- ==== Proof.KernelEdgeScale9.lean ====
import proofs.«147321_j32504312496394_1_alg».proof.Proof.Gen.KernelIdeal.Frame
import proofs.«147321_j32504312496394_1_alg».proof.Proof.RefStages
import proofs.«147321_j32504312496394_1_alg».proof.Proof.KernelEdgeScaleLib
noncomputable section
namespace Cert.KernelIdeal.Val
open Cert.KernelIdeal Cert.KernelIdeal.Gen Idealize.ShloMosaic Idealize.ShloMosaic.TcCoe Idealize.ShloMosaic.ValueIdx

variable {F : FTy → Type} [FloatOps F]

/-- All three windows are blocked by rows: at grid point t each has block index (t, 0). -/
theorem edgeScale9_rowBlocks : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

variable (V : (c : Dev nD) → (b : Ref sig .tc) → Buf (Elt F) ((c : Thread nD τ).loc b))

/-- Point t writes back block t of the scaled rows, and the 85 row blocks tile the output array. -/
theorem edgeScale9 (c : Dev nD) :
    (dat9 V c).arrAt 2 cfg9.N = Cert.ReferenceIdeal.Val.scaleRows50 (V c main_v85) (V c main_v86) := by
  refine (dat9 V c).arrAt_eq_of_cover 2 _ (fun t _ => ?_) fun i => ?_
  · obtain ⟨e0, e1, e2, e3, e4, e5⟩ := edgeScale9_rowBlocks t
    show (cfg9.win 2).cut (grid9.coords t) ((dat9 V c).after 2 t) = _
    rw [after9_2]
    unfold out9_2
    rw [View.canon_unit_zero edgeScale_zeroOffsets]
    simp only [View.ld_unit_zero (S := S10000x50) edgeScale_zeroOffsets, View.ld_unit_zero (S := S10000x1) edgeScale_zeroOffsets]
    funext y
    exact edgeScale_block (R := 850000) (B := 50) (Rb := 10000) (V c main_v85) (V c main_v86) (iblk9 V c 0 t) (iblk9 V c 1 t)
      (t.val * 10000) (win9_0.rect t).emb (win9_1.rect t).emb (win9_2.rect t).emb (fun _ => rfl) (fun _ => rfl)
      (edgeScale_emb win9_0 t e0 e1) (edgeScale_emb win9_1 t e2 e3) (edgeScale_emb win9_2 t e4 e5) _ _ _ _ y
  · have hi : (i 0).val < 850000 := (i 0).isLt
    obtain ⟨t, ht⟩ : ∃ t : Fin cfg9.N, t.val = (i 0).val / 10000 :=
      ⟨⟨_, lt_of_lt_of_eq (by omega) N_9.symm⟩, rfl⟩
    obtain ⟨-, -, -, -, e4, e5⟩ := edgeScale9_rowBlocks t
    refine ⟨t, flush9_2 t, ?_⟩
    show i ∈ ((View.whole main_v87).slice (win9_2.rect t)).set
    rw [View.set_slice_whole]
    exact edgeScale_mem_rect win9_2 t i rfl fun (a : Fin 2) => match a with
      | ⟨0, _⟩ => ⟨(by decide : (0 : ℕ) < 10000), e4.trans ht⟩
      | ⟨1, _⟩ => ⟨(by decide : (0 : ℕ) < 50), e5.trans (Nat.div_eq_of_lt (i 1).isLt).symm⟩

end Cert.KernelIdeal.Val
end
-- ==== Proof.KernelBias10.lean ====
import proofs.«147321_j32504312496394_1_alg».proof.Proof.Gen.KernelIdeal.Frame
import proofs.«147321_j32504312496394_1_alg».proof.Proof.RefStages
import proofs.«147321_j32504312496394_1_alg».proof.Proof.KernelBiasLib
noncomputable section
namespace Cert.KernelIdeal.Val
open Cert.KernelIdeal Cert.KernelIdeal.Gen Idealize.ShloMosaic Idealize.ShloMosaic.TcCoe

variable {F : FTy → Type} [FloatOps F] (V : (c : Dev nD) → (b : Ref sig .tc) → Buf (Elt F) ((c : Thread nD τ).loc b))

theorem biasAt10 : ∀ t : Fin cfg10.N, biasAt (win10_0.index t) (win10_1.index t) (win10_2.index t) t.val :=
  (by decide +kernel : ∀ t : Fin grid10.N, _)

/-- The output array after the region is the reference's result of the region's two input arrays. -/
theorem bias10 (c : Dev nD) :
    (dat10 V c).arrAt 2 cfg10.N =  Cert.ReferenceIdeal.Val.addRow50 (V c main_v90) (V c main_v91) :=
  (dat10 V c).arrAt_eq_of_cover 2 _
    (fun t _ => by
      rw [Pipeline.Dat.flushed, after10_2, out10_2]
      exact funext fun j => bias_block id (biasAt10 t) (fun _ => rfl) (fun _ => rfl) j)
    fun i => (bias_cover (R := 5000) biasAt10 (by decide) i).imp fun t ht =>
      ⟨flush10_2 t, (View.set_slice_whole main_v92 (win10_2.rect t)).symm ▸ Rect.mem_set_unit.2 ht⟩

end Cert.KernelIdeal.Val
end
-- ==== Proof.KernelLayer3.lean ====
import proofs.«147321_j32504312496394_1_alg».proof.Proof.KernelCarried
import proofs.«147321_j32504312496394_1_alg».proof.Proof.KernelRegionsKeep
import proofs.«147321_j32504312496394_1_alg».proof.Proof.KernelKeep
import proofs.«147321_j32504312496394_1_alg».proof.Proof.KernelAggregate
import proofs.«147321_j32504312496394_1_alg».proof.Proof.KernelTake9
import proofs.«147321_j32504312496394_1_alg».proof.Proof.KernelLinear8
import proofs.«147321_j32504312496394_1_alg».proof.Proof.KernelEdgeScale9
import proofs.«147321_j32504312496394_1_alg».proof.Proof.KernelBias10

set_option maxRecDepth 16384

noncomputable section

namespace Cert.KernelIdeal.Val

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

/-- Each segment's output is its lemma's value at the inputs already found; the carried buffers pass every segment. -/
theorem layer3_read (c : Dev nD) (s d : IVec S850000 32) (n : FVec Ideal S850000 .f32) (H : FVec Ideal S50000x60 .f32)
    (hs : Cert.Val.NodeIdx s) (hC : Carried m c (W19 m ρ c) s d n) (hH : W19 m ρ c (Proc.devRef .tc main_v83) = H) :
    Carried m c (W25 m ρ c) s d n ∧ W25 m ρ c (Proc.devRef .tc main_v92) = Cert.ReferenceIdeal.Val.layer3 (F := Ideal) H (m ((c.tc : Thread nD τ).loc main_arg6)) (m ((c.tc : Thread nD τ).loc main_arg7)) s d n := by
  have C1 := hC.of_keep_ne main_v84 (keep_region8 m ρ c) (by decide) (by decide) (by decide) (by decide)
  have v1 := ((out_region8 m ρ c).trans (linear8 (V19 m ρ) c)).trans (congrArg₂ _ hH (hC.args main_arg6 (by decide)))
  have C2 := C1.of_keep written_hostOps9 (keep_hostOps9 (W20 m ρ c)) (by decide) (by decide) (by decide) (by decide)
  have v2 := (take_hostOps9 (W20 m ρ c) (C1.src.symm ▸ hs)).trans (congrArg₂ _ v1 C1.src)
  have C3 := C2.of_keep written_hostOps9_1 (keep_hostOps9_1 (W21 m ρ c)) (by decide) (by decide) (by decide) (by decide)
  have v3 := (normCol_hostOps9_1 (W21 m ρ c)).trans (congrArg _ C2.nrm)
  have C4 := C3.of_keep_ne main_v87 (keep_region9 m ρ c) (by decide) (by decide) (by decide) (by decide)
  have v4 := ((out_region9 m ρ c).trans (edgeScale9 (V22 m ρ) c)).trans
    (congrArg₂ _ ((keep_hostOps9_1 (W21 m ρ c) main_v85 (by decide)).trans v2) v3)
  have C5 := C4.of_keep written_hostOps10 (keep_hostOps10 (W23 m ρ c)) (by decide) (by decide) (by decide) (by decide)
  have v5 := (sum_hostOps10 (W23 m ρ c)).trans (congrArg₂ _ v4 C4.dst)
  have r5 := (row_hostOps10 (W23 m ρ c)).trans (congrArg _ (C4.args main_arg7 (by decide)))
  have v6 := ((out_region10 m ρ c).trans (bias10 (V24 m ρ) c)).trans (congrArg₂ _ v5 r5)
  exact ⟨C5.of_keep_ne main_v92 (keep_region10 m ρ c) (by decide) (by decide) (by decide) (by decide), v6⟩

end Cert.KernelIdeal.Val

end
-- ==== Proof.KernelTake12.lean ====
/-
  The kernel's row gather of stretch 12, at width 60: on node indices it leaves in its result buffer the rows the
  reference gathers.  The stretch is the seventeen operations of the take (wrap, range test, gather, select against a
  NaN word) laid inline; read in order they are the composition whose value `takeK60` gives.
-/
import proofs.«147321_j32504312496394_1_alg».proof.Proof.KernelTake

noncomputable section

namespace Cert.KernelIdeal.Val

open Cert.KernelIdeal Cert.KernelIdeal.Gen Idealize.ShloMosaic Idealize.ShloMosaic.TcCoe Idealize.ShloMosaic.StableHlo

variable {F : FTy → Type} [FloatOps F]

set_option maxHeartbeats 1000000 in
theorem take_hostOps12 (V : Valuation τ sig (Elt F)) (hs : Cert.Val.NodeIdx (S := S850000) (V (Proc.devRef .tc main_v3))) :
    after (hostOps12 (F := F)) V (Proc.devRef .tc main_v94) = Cert.ReferenceIdeal.Val.gatherRows60 (V (Proc.devRef .tc main_v93)) (V (Proc.devRef .tc main_v3)) := by
  show StableHlo.after hostOps12 V (Proc.devRef .tc main_v94) = _
  simp only [hostOps12]
  after_results_simp
  simp only [TRef.ofBuf, TRef.toBuf, cast_eq]
  exact takeK60 _ _ hs

end Cert.KernelIdeal.Val

end
-- ==== Proof.KernelLinear11.lean ====
import proofs.«147321_j32504312496394_1_alg».proof.Proof.Gen.KernelIdeal.Frame
import proofs.«147321_j32504312496394_1_alg».proof.Proof.RefStages
import proofs.«147321_j32504312496394_1_alg».proof.Proof.KernelLinearLib
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx Cert.Val

/-- At point t the left operand's and the output's block is block t of the rows; the weights' block is the whole array. -/
theorem linear11_index : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- Point t writes back block t of the whole arrays' product: row p of the block is row t · 5000 + p of the array. -/
theorem linear11_flushed (V : (c : Dev nD) → (b : Ref sig .tc) → Buf (Elt Ideal) ((c : Thread nD τ).loc b)) (c : Dev nD) (t : Fin cfg11.N) :
    (dat11 (F := Ideal) V c).flushed 2 t = ((cfg11.win 2).blk t).view.read (Elt Ideal)
      (Host.dotGeneral (F := Ideal) (φ₁ := .f32) (φ₂ := .f32) Cert.ReferenceIdeal.dot_S50000x50_S50x60_S50000x60_1_0_0_1_n_n none (V c main_v92) (V c main_arg8)) := by
  show (cfg11.win 2).cut (grid11.coords t) ((dat11 V c).after 2 t) = _
  rw [after11_2]
  unfold out11_2
  rw [View.canon_unit_zero zeroOffsets2]
  simp only [View.ld_unit_zero (S := S5000x50) zeroOffsets2, View.ld_unit_zero (S := S50x60) zeroOffsets2]
  obtain ⟨e00, e01, e10, e11, e20, e21⟩ := linear11_index t
  have ht : t.val < 10 := Nat.lt_of_lt_of_eq t.isLt N_11
  funext j
  obtain ⟨p, q, rfl⟩ : ∃ (p : Fin 5000) (q : Fin 60), j = ix2 p q := ⟨j 0, j 1, eq_ix2 j⟩
  have hr : t.val * 5000 + p.val < 50000 := by omega
  have hout : ((cfg11.win 2).blk t).view.emb (ix2 p q) = ix2 (⟨t.val * 5000 + p.val, hr⟩ : Fin 50000) q :=
    Shape.idx_ext₂ (by show win11_2.index t (0 : Fin 2) * 5000 + 1 * p.val = t.val * 5000 + p.val; omega)
      (by show win11_2.index t (1 : Fin 2) * 60 + 1 * q.val = q.val; omega)
  show k11_pay1 (iblk11 V c 0 t) (iblk11 V c 1 t) (ix2 p q) = (Host.dotGeneral (F := Ideal) (φ₁ := .f32) (φ₂ := .f32) Cert.ReferenceIdeal.dot_S50000x50_S50x60_S50000x60_1_0_0_1_n_n none (V c main_v92) (V c main_arg8)) (((cfg11.win 2).blk t).view.emb (ix2 p q))
  rw [hout]
  unfold k11_pay1
  rw[shapeCast_self]
  refine Plain.block_eq_array ⟨rfl, rfl, rfl, rfl, rfl, rfl⟩ ⟨rfl, rfl, rfl, rfl, rfl, rfl⟩ none none .single _ _ (V c main_v92) (V c main_arg8) _ p q
    (fun k => ?_) (fun k => ?_)
  · show V c main_v92 (((cfg11.win 0).blk t).view.emb (ix2 p k)) = V c main_v92 (ix2 (⟨t.val * 5000 + p.val, hr⟩ : Fin 50000) k)
    exact congrArg _ (Shape.idx_ext₂ (by show win11_0.index t (0 : Fin 2) * 5000 + 1 * p.val = t.val * 5000 + p.val; omega)
      (by show win11_0.index t (1 : Fin 2) * 50 + 1 * k.val = k.val; omega))
  · show V c main_arg8 (((cfg11.win 1).blk t).view.emb (ix2 k q)) = V c main_arg8 (ix2 k q)
    exact congrArg _ (Shape.idx_ext₂ (by show win11_1.index t (0 : Fin 2) * 50 + 1 * k.val = k.val; omega)
      (by show win11_1.index t (1 : Fin 2) * 60 + 1 * q.val = q.val; omega))

/-- The ten row blocks tile the array: row r lies in block r / 5000. -/
theorem linear11_covered (i : S50000x60.Idx) : ∃ t : Fin cfg11.N, (cfg11.win 2).flush t = true ∧ i ∈ ((cfg11.win 2).blk t).view.set := by
  have hi0 : (i 0).val < 50000 := (i 0).isLt
  have hi1 : (i 1).val < 60 := (i 1).isLt
  obtain ⟨t, ht⟩ : ∃ t : Fin cfg11.N, t.val = (i 0).val / 5000 :=
    ⟨⟨(i 0).val / 5000, by rw [show cfg11.N = 10 from N_11]; omega⟩, rfl⟩
  obtain ⟨-, -, -, -, e20, e21⟩ := linear11_index t
  refine ⟨t, flush11_2 t, ?_⟩
  show i ∈ ((View.whole main_v93).slice (win11_2.rect t)).set
  rw [View.set_slice_whole, Rect.mem_set_unit]
  intro a
  match a with
  | ⟨0, _⟩ => show win11_2.index t (0 : Fin 2) * 5000 ≤ (i 0).val ∧ (i 0).val < win11_2.index t (0 : Fin 2) * 5000 + 5000; omega
  | ⟨1, _⟩ => show win11_2.index t (1 : Fin 2) * 60 ≤ (i 1).val ∧ (i 1).val < win11_2.index t (1 : Fin 2) * 60 + 60; omega

theorem linear11 (V : (c : Dev nD) → (b : Ref sig .tc) → Buf (Elt Ideal) ((c : Thread nD τ).loc b)) (c : Dev nD) :
    (dat11 (F := Ideal) V c).arrAt 2 cfg11.N = Host.dotGeneral (F := Ideal) (φ₁ := .f32) (φ₂ := .f32) Cert.ReferenceIdeal.dot_S50000x50_S50x60_S50000x60_1_0_0_1_n_n none (V c main_v92) (V c main_arg8) :=
  (dat11 (F := Ideal) V c).arrAt_eq_of_cover 2 _ (fun t _ => linear11_flushed V c t) linear11_covered

end Cert.KernelIdeal.Val

end
-- ==== Proof.KernelEdgeScale12.lean ====
import proofs.«147321_j32504312496394_1_alg».proof.Proof.Gen.KernelIdeal.Frame
import proofs.«147321_j32504312496394_1_alg».proof.Proof.RefStages
import proofs.«147321_j32504312496394_1_alg».proof.Proof.KernelEdgeScaleLib
noncomputable section
namespace Cert.KernelIdeal.Val
open Cert.KernelIdeal Cert.KernelIdeal.Gen Idealize.ShloMosaic Idealize.ShloMosaic.TcCoe Idealize.ShloMosaic.ValueIdx

variable {F : FTy → Type} [FloatOps F]

/-- All three windows are blocked by rows: at grid point t each has block index (t, 0). -/
theorem edgeScale12_rowBlocks : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0 :=
  (by decide +kernel : ∀ t : Fin grid12.N, _)

variable (V : (c : Dev nD) → (b : Ref sig .tc) → Buf (Elt F) ((c : Thread nD τ).loc b))

/-- Point t writes back block t of the scaled rows, and the 85 row blocks tile the output array. -/
theorem edgeScale12 (c : Dev nD) :
    (dat12 V c).arrAt 2 cfg12.N = Cert.ReferenceIdeal.Val.scaleRows60 (V c main_v94) (V c main_v95) := by
  refine (dat12 V c).arrAt_eq_of_cover 2 _ (fun t _ => ?_) fun i => ?_
  · obtain ⟨e0, e1, e2, e3, e4, e5⟩ := edgeScale12_rowBlocks t
    show (cfg12.win 2).cut (grid12.coords t) ((dat12 V c).after 2 t) = _
    rw [after12_2]
    unfold out12_2
    rw [View.canon_unit_zero edgeScale_zeroOffsets]
    simp only [View.ld_unit_zero (S := S10000x60) edgeScale_zeroOffsets, View.ld_unit_zero (S := S10000x1) edgeScale_zeroOffsets]
    funext y
    exact edgeScale_block (R := 850000) (B := 60) (Rb := 10000) (V c main_v94) (V c main_v95) (iblk12 V c 0 t) (iblk12 V c 1 t)
      (t.val * 10000) (win12_0.rect t).emb (win12_1.rect t).emb (win12_2.rect t).emb (fun _ => rfl) (fun _ => rfl)
      (edgeScale_emb win12_0 t e0 e1) (edgeScale_emb win12_1 t e2 e3) (edgeScale_emb win12_2 t e4 e5) _ _ _ _ y
  · have hi : (i 0).val < 850000 := (i 0).isLt
    obtain ⟨t, ht⟩ : ∃ t : Fin cfg12.N, t.val = (i 0).val / 10000 :=
      ⟨⟨_, lt_of_lt_of_eq (by omega) N_12.symm⟩, rfl⟩
    obtain ⟨-, -, -, -, e4, e5⟩ := edgeScale12_rowBlocks t
    refine ⟨t, flush12_2 t, ?_⟩
    show i ∈ ((View.whole main_v96).slice (win12_2.rect t)).set
    rw [View.set_slice_whole]
    exact edgeScale_mem_rect win12_2 t i rfl fun (a : Fin 2) => match a with
      | ⟨0, _⟩ => ⟨(by decide : (0 : ℕ) < 10000), e4.trans ht⟩
      | ⟨1, _⟩ => ⟨(by decide : (0 : ℕ) < 60), e5.trans (Nat.div_eq_of_lt (i 1).isLt).symm⟩

end Cert.KernelIdeal.Val
end
-- ==== Proof.KernelBias13.lean ====
import proofs.«147321_j32504312496394_1_alg».proof.Proof.Gen.KernelIdeal.Frame
import proofs.«147321_j32504312496394_1_alg».proof.Proof.RefStages
import proofs.«147321_j32504312496394_1_alg».proof.Proof.KernelBiasLib
noncomputable section
namespace Cert.KernelIdeal.Val
open Cert.KernelIdeal Cert.KernelIdeal.Gen Idealize.ShloMosaic Idealize.ShloMosaic.TcCoe

variable {F : FTy → Type} [FloatOps F] (V : (c : Dev nD) → (b : Ref sig .tc) → Buf (Elt F) ((c : Thread nD τ).loc b))

theorem biasAt13 : ∀ t : Fin cfg13.N, biasAt (win13_0.index t) (win13_1.index t) (win13_2.index t) t.val :=
  (by decide +kernel : ∀ t : Fin grid13.N, _)

/-- The output array after the region is the reference's result of the region's two input arrays. -/
theorem bias13 (c : Dev nD) :
    (dat13 V c).arrAt 2 cfg13.N = Cert.ReferenceIdeal.Val.relu60 (Cert.ReferenceIdeal.Val.addRow60 (V c main_v99) (V c main_v100)) :=
  (dat13 V c).arrAt_eq_of_cover 2 _
    (fun t _ => by
      rw [Pipeline.Dat.flushed, after13_2, out13_2]
      exact funext fun j => bias_block biasClamp (biasAt13 t) (fun _ => rfl) (fun _ => rfl) j)
    fun i => (bias_cover (R := 5000) biasAt13 (by decide) i).imp fun t ht =>
      ⟨flush13_2 t, (View.set_slice_whole main_v101 (win13_2.rect t)).symm ▸ Rect.mem_set_unit.2 ht⟩

end Cert.KernelIdeal.Val
end
-- ==== Proof.KernelNormalize14.lean ====
import proofs.«147321_j32504312496394_1_alg».proof.Proof.Gen.KernelIdeal.Frame
import proofs.«147321_j32504312496394_1_alg».proof.Proof.RefStages
import proofs.«147321_j32504312496394_1_alg».proof.Proof.KernelNormalizeLib
noncomputable section
namespace Cert.KernelIdeal.Val
open Cert.KernelIdeal Cert.KernelIdeal.Gen Idealize.ShloMosaic Idealize.ShloMosaic.TcCoe Idealize.ShloMosaic.ValueIdx

theorem normalizeIndex14 : ∀ t : Fin cfg14.N, win14_0.index t = win14_5.index t ∧ win14_5.index t = ![t.val, 0] :=
  (by decide +kernel : ∀ t : Fin grid14.N, _)

variable (V : (c : Dev nD) → (b : Ref sig .tc) → Buf (Elt Ideal) ((c : Thread nD τ).loc b))

theorem normalize14 (c : Dev nD) :
    (dat14 (F := Ideal) V c).arrAt 5 cfg14.N = Cert.ReferenceIdeal.Val.normalize60 (F := Ideal) (V c main_v101) (V c main_v115) (V c main_v116) (V c main_v117) (V c main_v118) :=
  (dat14 (F := Ideal) V c).arrAt_eq_of_cover 5 _ (fun t _ => by
    show (cfg14.win 5).cut (grid14.coords t) ((dat14 V c).after 5 t) = _
    rw [after14_5]
    unfold out14_5
    rw [View.canon_unit_zero normalizeOffsets]
    simp only [View.ld_unit_zero (S := S5000x60) normalizeOffsets, View.ld_unit_zero (S := S1x60) normalizeOffsets]
    funext y
    exact normalize_block (R := 5000) (M := 50000) (B := 60) (V c main_v101) (V c main_v115) (V c main_v116) (V c main_v117) (V c main_v118) _ _ _ _
      (win14_0.rect_emb_val t) (win14_1.rect_emb_val t) (win14_2.rect_emb_val t) (win14_3.rect_emb_val t)
      (win14_4.rect_emb_val t) (win14_5.rect_emb_val t) (normalizeIndex14 t).1 y)
    fun i => (normalize_cover (R := 5000) win14_5.index (fun t => (normalizeIndex14 t).2) (by decide +kernel) i).imp fun t h => ⟨flush14_5 t, by
      show i ∈ ((View.whole main_v119).slice (win14_5.rect t)).set
      rw [View.set_slice_whole, Rect.mem_set_unit]
      exact h⟩

end Cert.KernelIdeal.Val
end
-- ==== Proof.KernelLayer4.lean ====
import proofs.«147321_j32504312496394_1_alg».proof.Proof.KernelCarried
import proofs.«147321_j32504312496394_1_alg».proof.Proof.KernelRegionsKeep
import proofs.«147321_j32504312496394_1_alg».proof.Proof.KernelKeep
import proofs.«147321_j32504312496394_1_alg».proof.Proof.KernelAggregate
import proofs.«147321_j32504312496394_1_alg».proof.Proof.KernelTake12
import proofs.«147321_j32504312496394_1_alg».proof.Proof.KernelLinear11
import proofs.«147321_j32504312496394_1_alg».proof.Proof.KernelEdgeScale12
import proofs.«147321_j32504312496394_1_alg».proof.Proof.KernelBias13
import proofs.«147321_j32504312496394_1_alg».proof.Proof.KernelNormalize14

set_option maxRecDepth 16384

noncomputable section

namespace Cert.KernelIdeal.Val

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

/-- Each segment's output is its lemma's value at the inputs already found; the carried buffers pass every segment. -/
theorem layer4_read (c : Dev nD) (s d : IVec S850000 32) (n : FVec Ideal S850000 .f32) (H : FVec Ideal S50000x50 .f32)
    (hs : Cert.Val.NodeIdx s) (hC : Carried m c (W25 m ρ c) s d n) (hH : W25 m ρ c (Proc.devRef .tc main_v92) = H) :
    Carried m c (W33 m ρ c) s d n ∧ W33 m ρ c (Proc.devRef .tc main_v119) = Cert.ReferenceIdeal.Val.batchNorm60 (F := Ideal) (Cert.ReferenceIdeal.Val.layer4 (F := Ideal) H (m ((c.tc : Thread nD τ).loc main_arg8)) (m ((c.tc : Thread nD τ).loc main_arg9)) s d n) (m ((c.tc : Thread nD τ).loc main_arg18)) (m ((c.tc : Thread nD τ).loc main_arg19)) := by
  have C1 := hC.of_keep_ne main_v93 (keep_region11 m ρ c) (by decide) (by decide) (by decide) (by decide)
  have v1 := ((out_region11 m ρ c).trans (linear11 (V25 m ρ) c)).trans (congrArg₂ _ hH (hC.args main_arg8 (by decide)))
  have C2 := C1.of_keep written_hostOps12 (keep_hostOps12 (W26 m ρ c)) (by decide) (by decide) (by decide) (by decide)
  have v2 := (take_hostOps12 (W26 m ρ c) (C1.src.symm ▸ hs)).trans (congrArg₂ _ v1 C1.src)
  have C3 := C2.of_keep written_hostOps12_1 (keep_hostOps12_1 (W27 m ρ c)) (by decide) (by decide) (by decide) (by decide)
  have v3 := (normCol_hostOps12_1 (W27 m ρ c)).trans (congrArg _ C2.nrm)
  have C4 := C3.of_keep_ne main_v96 (keep_region12 m ρ c) (by decide) (by decide) (by decide) (by decide)
  have v4 := ((out_region12 m ρ c).trans (edgeScale12 (V28 m ρ) c)).trans
    (congrArg₂ _ ((keep_hostOps12_1 (W27 m ρ c) main_v94 (by decide)).trans v2) v3)
  have C5 := C4.of_keep written_hostOps13 (keep_hostOps13 (W29 m ρ c)) (by decide) (by decide) (by decide) (by decide)
  have v5 := (sum_hostOps13 (W29 m ρ c)).trans (congrArg₂ _ v4 C4.dst)
  have r5 := (row_hostOps13 (W29 m ρ c)).trans (congrArg _ (C4.args main_arg9 (by decide)))
  have C6 := C5.of_keep_ne main_v101 (keep_region13 m ρ c) (by decide) (by decide) (by decide) (by decide)
  have v6 := ((out_region13 m ρ c).trans (bias13 (V30 m ρ) c)).trans (congrArg _ (congrArg₂ _ v5 r5))
  have C7 := C6.of_keep written_hostOps14 (keep_hostOps14 (W31 m ρ c)) (by decide) (by decide) (by decide) (by decide)
  obtain ⟨e1, e2, e3, e4⟩ := stats_hostOps14 (F := Ideal) (W31 m ρ c)
  have v8 := ((out_region14 m ρ c).trans (normalize14 (V32 m ρ) c)).trans
    (congr (congr (congr (congrArg₂ _ ((keep_hostOps14 (W31 m ρ c) main_v101 (by decide)).trans v6)
      (e1.trans (congrArg _ (congrArg _ v6)))) (e2.trans (congrArg _ (congrArg _ v6))))
      (e3.trans (congrArg _ (C6.args main_arg18 (by decide))))) (e4.trans (congrArg _ (C6.args main_arg19 (by decide)))))
  exact ⟨C7.of_keep_ne main_v119 (keep_region14 m ρ c) (by decide) (by decide) (by decide) (by decide), v8⟩

end Cert.KernelIdeal.Val

end
-- ==== Proof.KernelTake16.lean ====
/-
  The kernel's row gather of stretch 16, at width 70: on node indices it leaves in its result buffer the rows the
  reference gathers.  The stretch is the seventeen operations of the take (wrap, range test, gather, select against a
  NaN word) laid inline; read in order they are the composition whose value `takeK70` gives.
-/
import proofs.«147321_j32504312496394_1_alg».proof.Proof.KernelTake

noncomputable section

namespace Cert.KernelIdeal.Val

open Cert.KernelIdeal Cert.KernelIdeal.Gen Idealize.ShloMosaic Idealize.ShloMosaic.TcCoe Idealize.ShloMosaic.StableHlo

variable {F : FTy → Type} [FloatOps F]

set_option maxHeartbeats 1000000 in
theorem take_hostOps16 (V : Valuation τ sig (Elt F)) (hs : Cert.Val.NodeIdx (S := S850000) (V (Proc.devRef .tc main_v3))) :
    after (hostOps16 (F := F)) V (Proc.devRef .tc main_v121) = Cert.ReferenceIdeal.Val.gatherRows70 (V (Proc.devRef .tc main_v120)) (V (Proc.devRef .tc main_v3)) := by
  show StableHlo.after hostOps16 V (Proc.devRef .tc main_v121) = _
  simp only [hostOps16]
  after_results_simp
  simp only [TRef.ofBuf, TRef.toBuf, cast_eq]
  exact takeK70 _ _ hs

end Cert.KernelIdeal.Val

end
-- ==== Proof.KernelLinear15.lean ====
import proofs.«147321_j32504312496394_1_alg».proof.Proof.Gen.KernelIdeal.Frame
import proofs.«147321_j32504312496394_1_alg».proof.Proof.RefStages
import proofs.«147321_j32504312496394_1_alg».proof.Proof.KernelLinearLib
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx Cert.Val

/-- At point t the left operand's and the output's block is block t of the rows; the weights' block is the whole array. -/
theorem linear15_index : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

/-- Point t writes back block t of the whole arrays' product: row p of the block is row t · 5000 + p of the array. -/
theorem linear15_flushed (V : (c : Dev nD) → (b : Ref sig .tc) → Buf (Elt Ideal) ((c : Thread nD τ).loc b)) (c : Dev nD) (t : Fin cfg15.N) :
    (dat15 (F := Ideal) V c).flushed 2 t = ((cfg15.win 2).blk t).view.read (Elt Ideal)
      (Host.dotGeneral (F := Ideal) (φ₁ := .f32) (φ₂ := .f32) Cert.ReferenceIdeal.dot_S50000x60_S60x70_S50000x70_1_0_0_1_n_n none (V c main_v119) (V c main_arg10)) := by
  show (cfg15.win 2).cut (grid15.coords t) ((dat15 V c).after 2 t) = _
  rw [after15_2]
  unfold out15_2
  rw [View.canon_unit_zero zeroOffsets2]
  simp only [View.ld_unit_zero (S := S5000x60) zeroOffsets2, View.ld_unit_zero (S := S60x70) zeroOffsets2]
  obtain ⟨e00, e01, e10, e11, e20, e21⟩ := linear15_index t
  have ht : t.val < 10 := Nat.lt_of_lt_of_eq t.isLt N_15
  funext j
  obtain ⟨p, q, rfl⟩ : ∃ (p : Fin 5000) (q : Fin 70), j = ix2 p q := ⟨j 0, j 1, eq_ix2 j⟩
  have hr : t.val * 5000 + p.val < 50000 := by omega
  have hout : ((cfg15.win 2).blk t).view.emb (ix2 p q) = ix2 (⟨t.val * 5000 + p.val, hr⟩ : Fin 50000) q :=
    Shape.idx_ext₂ (by show win15_2.index t (0 : Fin 2) * 5000 + 1 * p.val = t.val * 5000 + p.val; omega)
      (by show win15_2.index t (1 : Fin 2) * 70 + 1 * q.val = q.val; omega)
  show k15_pay1 (iblk15 V c 0 t) (iblk15 V c 1 t) (ix2 p q) = (Host.dotGeneral (F := Ideal) (φ₁ := .f32) (φ₂ := .f32) Cert.ReferenceIdeal.dot_S50000x60_S60x70_S50000x70_1_0_0_1_n_n none (V c main_v119) (V c main_arg10)) (((cfg15.win 2).blk t).view.emb (ix2 p q))
  rw [hout]
  unfold k15_pay1
  rw[shapeCast_self]
  refine Plain.block_eq_array ⟨rfl, rfl, rfl, rfl, rfl, rfl⟩ ⟨rfl, rfl, rfl, rfl, rfl, rfl⟩ none none .single _ _ (V c main_v119) (V c main_arg10) _ p q
    (fun k => ?_) (fun k => ?_)
  · show V c main_v119 (((cfg15.win 0).blk t).view.emb (ix2 p k)) = V c main_v119 (ix2 (⟨t.val * 5000 + p.val, hr⟩ : Fin 50000) k)
    exact congrArg _ (Shape.idx_ext₂ (by show win15_0.index t (0 : Fin 2) * 5000 + 1 * p.val = t.val * 5000 + p.val; omega)
      (by show win15_0.index t (1 : Fin 2) * 60 + 1 * k.val = k.val; omega))
  · show V c main_arg10 (((cfg15.win 1).blk t).view.emb (ix2 k q)) = V c main_arg10 (ix2 k q)
    exact congrArg _ (Shape.idx_ext₂ (by show win15_1.index t (0 : Fin 2) * 60 + 1 * k.val = k.val; omega)
      (by show win15_1.index t (1 : Fin 2) * 70 + 1 * q.val = q.val; omega))

/-- The ten row blocks tile the array: row r lies in block r / 5000. -/
theorem linear15_covered (i : S50000x70.Idx) : ∃ t : Fin cfg15.N, (cfg15.win 2).flush t = true ∧ i ∈ ((cfg15.win 2).blk t).view.set := by
  have hi0 : (i 0).val < 50000 := (i 0).isLt
  have hi1 : (i 1).val < 70 := (i 1).isLt
  obtain ⟨t, ht⟩ : ∃ t : Fin cfg15.N, t.val = (i 0).val / 5000 :=
    ⟨⟨(i 0).val / 5000, by rw [show cfg15.N = 10 from N_15]; omega⟩, rfl⟩
  obtain ⟨-, -, -, -, e20, e21⟩ := linear15_index t
  refine ⟨t, flush15_2 t, ?_⟩
  show i ∈ ((View.whole main_v120).slice (win15_2.rect t)).set
  rw [View.set_slice_whole, Rect.mem_set_unit]
  intro a
  match a with
  | ⟨0, _⟩ => show win15_2.index t (0 : Fin 2) * 5000 ≤ (i 0).val ∧ (i 0).val < win15_2.index t (0 : Fin 2) * 5000 + 5000; omega
  | ⟨1, _⟩ => show win15_2.index t (1 : Fin 2) * 70 ≤ (i 1).val ∧ (i 1).val < win15_2.index t (1 : Fin 2) * 70 + 70; omega

theorem linear15 (V : (c : Dev nD) → (b : Ref sig .tc) → Buf (Elt Ideal) ((c : Thread nD τ).loc b)) (c : Dev nD) :
    (dat15 (F := Ideal) V c).arrAt 2 cfg15.N = Host.dotGeneral (F := Ideal) (φ₁ := .f32) (φ₂ := .f32) Cert.ReferenceIdeal.dot_S50000x60_S60x70_S50000x70_1_0_0_1_n_n none (V c main_v119) (V c main_arg10) :=
  (dat15 (F := Ideal) V c).arrAt_eq_of_cover 2 _ (fun t _ => linear15_flushed V c t) linear15_covered

end Cert.KernelIdeal.Val

end
-- ==== Proof.KernelEdgeScale16.lean ====
import proofs.«147321_j32504312496394_1_alg».proof.Proof.Gen.KernelIdeal.Frame
import proofs.«147321_j32504312496394_1_alg».proof.Proof.RefStages
import proofs.«147321_j32504312496394_1_alg».proof.Proof.KernelEdgeScaleLib
noncomputable section
namespace Cert.KernelIdeal.Val
open Cert.KernelIdeal Cert.KernelIdeal.Gen Idealize.ShloMosaic Idealize.ShloMosaic.TcCoe Idealize.ShloMosaic.ValueIdx

variable {F : FTy → Type} [FloatOps F]

/-- All three windows are blocked by rows: at grid point t each has block index (t, 0). -/
theorem edgeScale16_rowBlocks : ∀ t : Fin cfg16.N, win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0 :=
  (by decide +kernel : ∀ t : Fin grid16.N, _)

variable (V : (c : Dev nD) → (b : Ref sig .tc) → Buf (Elt F) ((c : Thread nD τ).loc b))

/-- Point t writes back block t of the scaled rows, and the 85 row blocks tile the output array. -/
theorem edgeScale16 (c : Dev nD) :
    (dat16 V c).arrAt 2 cfg16.N = Cert.ReferenceIdeal.Val.scaleRows70 (V c main_v121) (V c main_v122) := by
  refine (dat16 V c).arrAt_eq_of_cover 2 _ (fun t _ => ?_) fun i => ?_
  · obtain ⟨e0, e1, e2, e3, e4, e5⟩ := edgeScale16_rowBlocks t
    show (cfg16.win 2).cut (grid16.coords t) ((dat16 V c).after 2 t) = _
    rw [after16_2]
    unfold out16_2
    rw [View.canon_unit_zero edgeScale_zeroOffsets]
    simp only [View.ld_unit_zero (S := S10000x70) edgeScale_zeroOffsets, View.ld_unit_zero (S := S10000x1) edgeScale_zeroOffsets]
    funext y
    exact edgeScale_block (R := 850000) (B := 70) (Rb := 10000) (V c main_v121) (V c main_v122) (iblk16 V c 0 t) (iblk16 V c 1 t)
      (t.val * 10000) (win16_0.rect t).emb (win16_1.rect t).emb (win16_2.rect t).emb (fun _ => rfl) (fun _ => rfl)
      (edgeScale_emb win16_0 t e0 e1) (edgeScale_emb win16_1 t e2 e3) (edgeScale_emb win16_2 t e4 e5) _ _ _ _ y
  · have hi : (i 0).val < 850000 := (i 0).isLt
    obtain ⟨t, ht⟩ : ∃ t : Fin cfg16.N, t.val = (i 0).val / 10000 :=
      ⟨⟨_, lt_of_lt_of_eq (by omega) N_16.symm⟩, rfl⟩
    obtain ⟨-, -, -, -, e4, e5⟩ := edgeScale16_rowBlocks t
    refine ⟨t, flush16_2 t, ?_⟩
    show i ∈ ((View.whole main_v123).slice (win16_2.rect t)).set
    rw [View.set_slice_whole]
    exact edgeScale_mem_rect win16_2 t i rfl fun (a : Fin 2) => match a with
      | ⟨0, _⟩ => ⟨(by decide : (0 : ℕ) < 10000), e4.trans ht⟩
      | ⟨1, _⟩ => ⟨(by decide : (0 : ℕ) < 70), e5.trans (Nat.div_eq_of_lt (i 1).isLt).symm⟩

end Cert.KernelIdeal.Val
end
-- ==== Proof.KernelBias17.lean ====
import proofs.«147321_j32504312496394_1_alg».proof.Proof.Gen.KernelIdeal.Frame
import proofs.«147321_j32504312496394_1_alg».proof.Proof.RefStages
import proofs.«147321_j32504312496394_1_alg».proof.Proof.KernelBiasLib
noncomputable section
namespace Cert.KernelIdeal.Val
open Cert.KernelIdeal Cert.KernelIdeal.Gen Idealize.ShloMosaic Idealize.ShloMosaic.TcCoe

variable {F : FTy → Type} [FloatOps F] (V : (c : Dev nD) → (b : Ref sig .tc) → Buf (Elt F) ((c : Thread nD τ).loc b))

theorem biasAt17 : ∀ t : Fin cfg17.N, biasAt (win17_0.index t) (win17_1.index t) (win17_2.index t) t.val :=
  (by decide +kernel : ∀ t : Fin grid17.N, _)

/-- The output array after the region is the reference's result of the region's two input arrays. -/
theorem bias17 (c : Dev nD) :
    (dat17 V c).arrAt 2 cfg17.N = Cert.ReferenceIdeal.Val.relu70 (Cert.ReferenceIdeal.Val.addRow70 (V c main_v126) (V c main_v127)) :=
  (dat17 V c).arrAt_eq_of_cover 2 _
    (fun t _ => by
      rw [Pipeline.Dat.flushed, after17_2, out17_2]
      exact funext fun j => bias_block biasClamp (biasAt17 t) (fun _ => rfl) (fun _ => rfl) j)
    fun i => (bias_cover (R := 5000) biasAt17 (by decide) i).imp fun t ht =>
      ⟨flush17_2 t, (View.set_slice_whole main_v128 (win17_2.rect t)).symm ▸ Rect.mem_set_unit.2 ht⟩

end Cert.KernelIdeal.Val
end
-- ==== Proof.KernelNormalize18.lean ====
import proofs.«147321_j32504312496394_1_alg».proof.Proof.Gen.KernelIdeal.Frame
import proofs.«147321_j32504312496394_1_alg».proof.Proof.RefStages
import proofs.«147321_j32504312496394_1_alg».proof.Proof.KernelNormalizeLib
noncomputable section
namespace Cert.KernelIdeal.Val
open Cert.KernelIdeal Cert.KernelIdeal.Gen Idealize.ShloMosaic Idealize.ShloMosaic.TcCoe Idealize.ShloMosaic.ValueIdx

theorem normalizeIndex18 : ∀ t : Fin cfg18.N, win18_0.index t = win18_5.index t ∧ win18_5.index t = ![t.val, 0] :=
  (by decide +kernel : ∀ t : Fin grid18.N, _)

variable (V : (c : Dev nD) → (b : Ref sig .tc) → Buf (Elt Ideal) ((c : Thread nD τ).loc b))

theorem normalize18 (c : Dev nD) :
    (dat18 (F := Ideal) V c).arrAt 5 cfg18.N = Cert.ReferenceIdeal.Val.normalize70 (F := Ideal) (V c main_v128) (V c main_v142) (V c main_v143) (V c main_v144) (V c main_v145) :=
  (dat18 (F := Ideal) V c).arrAt_eq_of_cover 5 _ (fun t _ => by
    show (cfg18.win 5).cut (grid18.coords t) ((dat18 V c).after 5 t) = _
    rw [after18_5]
    unfold out18_5
    rw [View.canon_unit_zero normalizeOffsets]
    simp only [View.ld_unit_zero (S := S5000x70) normalizeOffsets, View.ld_unit_zero (S := S1x70) normalizeOffsets]
    funext y
    exact normalize_block (R := 5000) (M := 50000) (B := 70) (V c main_v128) (V c main_v142) (V c main_v143) (V c main_v144) (V c main_v145) _ _ _ _
      (win18_0.rect_emb_val t) (win18_1.rect_emb_val t) (win18_2.rect_emb_val t) (win18_3.rect_emb_val t)
      (win18_4.rect_emb_val t) (win18_5.rect_emb_val t) (normalizeIndex18 t).1 y)
    fun i => (normalize_cover (R := 5000) win18_5.index (fun t => (normalizeIndex18 t).2) (by decide +kernel) i).imp fun t h => ⟨flush18_5 t, by
      show i ∈ ((View.whole main_v146).slice (win18_5.rect t)).set
      rw [View.set_slice_whole, Rect.mem_set_unit]
      exact h⟩

end Cert.KernelIdeal.Val
end
-- ==== Proof.KernelLayer5.lean ====
import proofs.«147321_j32504312496394_1_alg».proof.Proof.KernelCarried
import proofs.«147321_j32504312496394_1_alg».proof.Proof.KernelRegionsKeep
import proofs.«147321_j32504312496394_1_alg».proof.Proof.KernelKeep
import proofs.«147321_j32504312496394_1_alg».proof.Proof.KernelAggregate
import proofs.«147321_j32504312496394_1_alg».proof.Proof.KernelTake16
import proofs.«147321_j32504312496394_1_alg».proof.Proof.KernelLinear15
import proofs.«147321_j32504312496394_1_alg».proof.Proof.KernelEdgeScale16
import proofs.«147321_j32504312496394_1_alg».proof.Proof.KernelBias17
import proofs.«147321_j32504312496394_1_alg».proof.Proof.KernelNormalize18

set_option maxRecDepth 16384

noncomputable section

namespace Cert.KernelIdeal.Val

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

/-- Each segment's output is its lemma's value at the inputs already found; the carried buffers pass every segment. -/
theorem layer5_read (c : Dev nD) (s d : IVec S850000 32) (n : FVec Ideal S850000 .f32) (H : FVec Ideal S50000x60 .f32)
    (hs : Cert.Val.NodeIdx s) (hC : Carried m c (W33 m ρ c) s d n) (hH : W33 m ρ c (Proc.devRef .tc main_v119) = H) :
    Carried m c (W41 m ρ c) s d n ∧ W41 m ρ c (Proc.devRef .tc main_v146) = Cert.ReferenceIdeal.Val.batchNorm70 (F := Ideal) (Cert.ReferenceIdeal.Val.layer5 (F := Ideal) H (m ((c.tc : Thread nD τ).loc main_arg10)) (m ((c.tc : Thread nD τ).loc main_arg11)) s d n) (m ((c.tc : Thread nD τ).loc main_arg20)) (m ((c.tc : Thread nD τ).loc main_arg21)) := by
  have C1 := hC.of_keep_ne main_v120 (keep_region15 m ρ c) (by decide) (by decide) (by decide) (by decide)
  have v1 := ((out_region15 m ρ c).trans (linear15 (V33 m ρ) c)).trans (congrArg₂ _ hH (hC.args main_arg10 (by decide)))
  have C2 := C1.of_keep written_hostOps16 (keep_hostOps16 (W34 m ρ c)) (by decide) (by decide) (by decide) (by decide)
  have v2 := (take_hostOps16 (W34 m ρ c) (C1.src.symm ▸ hs)).trans (congrArg₂ _ v1 C1.src)
  have C3 := C2.of_keep written_hostOps16_1 (keep_hostOps16_1 (W35 m ρ c)) (by decide) (by decide) (by decide) (by decide)
  have v3 := (normCol_hostOps16_1 (W35 m ρ c)).trans (congrArg _ C2.nrm)
  have C4 := C3.of_keep_ne main_v123 (keep_region16 m ρ c) (by decide) (by decide) (by decide) (by decide)
  have v4 := ((out_region16 m ρ c).trans (edgeScale16 (V36 m ρ) c)).trans
    (congrArg₂ _ ((keep_hostOps16_1 (W35 m ρ c) main_v121 (by decide)).trans v2) v3)
  have C5 := C4.of_keep written_hostOps17 (keep_hostOps17 (W37 m ρ c)) (by decide) (by decide) (by decide) (by decide)
  have v5 := (sum_hostOps17 (W37 m ρ c)).trans (congrArg₂ _ v4 C4.dst)
  have r5 := (row_hostOps17 (W37 m ρ c)).trans (congrArg _ (C4.args main_arg11 (by decide)))
  have C6 := C5.of_keep_ne main_v128 (keep_region17 m ρ c) (by decide) (by decide) (by decide) (by decide)
  have v6 := ((out_region17 m ρ c).trans (bias17 (V38 m ρ) c)).trans (congrArg _ (congrArg₂ _ v5 r5))
  have C7 := C6.of_keep written_hostOps18 (keep_hostOps18 (W39 m ρ c)) (by decide) (by decide) (by decide) (by decide)
  obtain ⟨e1, e2, e3, e4⟩ := stats_hostOps18 (F := Ideal) (W39 m ρ c)
  have v8 := ((out_region18 m ρ c).trans (normalize18 (V40 m ρ) c)).trans
    (congr (congr (congr (congrArg₂ _ ((keep_hostOps18 (W39 m ρ c) main_v128 (by decide)).trans v6)
      (e1.trans (congrArg _ (congrArg _ v6)))) (e2.trans (congrArg _ (congrArg _ v6))))
      (e3.trans (congrArg _ (C6.args main_arg20 (by decide))))) (e4.trans (congrArg _ (C6.args main_arg21 (by decide)))))
  exact ⟨C7.of_keep_ne main_v146 (keep_region18 m ρ c) (by decide) (by decide) (by decide) (by decide), v8⟩

end Cert.KernelIdeal.Val

end
-- ==== Proof.KernelTake20.lean ====
/-
  The kernel's row gather of stretch 20, at width 88: on node indices it leaves in its result buffer the rows the
  reference gathers.  The stretch is the seventeen operations of the take (wrap, range test, gather, select against a
  NaN word) laid inline; read in order they are the composition whose value `takeK88` gives.
-/
import proofs.«147321_j32504312496394_1_alg».proof.Proof.KernelTake

noncomputable section

namespace Cert.KernelIdeal.Val

open Cert.KernelIdeal Cert.KernelIdeal.Gen Idealize.ShloMosaic Idealize.ShloMosaic.TcCoe Idealize.ShloMosaic.StableHlo

variable {F : FTy → Type} [FloatOps F]

set_option maxHeartbeats 1000000 in
theorem take_hostOps20 (V : Valuation τ sig (Elt F)) (hs : Cert.Val.NodeIdx (S := S850000) (V (Proc.devRef .tc main_v3))) :
    after (hostOps20 (F := F)) V (Proc.devRef .tc main_v148) = Cert.ReferenceIdeal.Val.gatherRows88 (V (Proc.devRef .tc main_v147)) (V (Proc.devRef .tc main_v3)) := by
  show StableHlo.after hostOps20 V (Proc.devRef .tc main_v148) = _
  simp only [hostOps20]
  after_results_simp
  simp only [TRef.ofBuf, TRef.toBuf, cast_eq]
  exact takeK88 _ _ hs

end Cert.KernelIdeal.Val

end
-- ==== Proof.KernelLinear19.lean ====
import proofs.«147321_j32504312496394_1_alg».proof.Proof.Gen.KernelIdeal.Frame
import proofs.«147321_j32504312496394_1_alg».proof.Proof.RefStages
import proofs.«147321_j32504312496394_1_alg».proof.Proof.KernelLinearLib
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx Cert.Val

/-- At point t the left operand's and the output's block is block t of the rows; the weights' block is the whole array. -/
theorem linear19_index : ∀ t : Fin cfg19.N, win19_0.index t (0 : Fin 2) = t.val ∧ win19_0.index t (1 : Fin 2) = 0
    ∧ win19_1.index t (0 : Fin 2) = 0 ∧ win19_1.index t (1 : Fin 2) = 0
    ∧ win19_2.index t (0 : Fin 2) = t.val ∧ win19_2.index t (1 : Fin 2) = 0 :=
  (by decide +kernel : ∀ t : Fin grid19.N, _)

/-- Point t writes back block t of the whole arrays' product: row p of the block is row t · 5000 + p of the array. -/
theorem linear19_flushed (V : (c : Dev nD) → (b : Ref sig .tc) → Buf (Elt Ideal) ((c : Thread nD τ).loc b)) (c : Dev nD) (t : Fin cfg19.N) :
    (dat19 (F := Ideal) V c).flushed 2 t = ((cfg19.win 2).blk t).view.read (Elt Ideal)
      (Host.dotGeneral (F := Ideal) (φ₁ := .f32) (φ₂ := .f32) Cert.ReferenceIdeal.dot_S50000x70_S70x88_S50000x88_1_0_0_1_n_n none (V c main_v146) (V c main_arg12)) := by
  show (cfg19.win 2).cut (grid19.coords t) ((dat19 V c).after 2 t) = _
  rw [after19_2]
  unfold out19_2
  rw [View.canon_unit_zero zeroOffsets2]
  simp only [View.ld_unit_zero (S := S5000x70) zeroOffsets2, View.ld_unit_zero (S := S70x88) zeroOffsets2]
  obtain ⟨e00, e01, e10, e11, e20, e21⟩ := linear19_index t
  have ht : t.val < 10 := Nat.lt_of_lt_of_eq t.isLt N_19
  funext j
  obtain ⟨p, q, rfl⟩ : ∃ (p : Fin 5000) (q : Fin 88), j = ix2 p q := ⟨j 0, j 1, eq_ix2 j⟩
  have hr : t.val * 5000 + p.val < 50000 := by omega
  have hout : ((cfg19.win 2).blk t).view.emb (ix2 p q) = ix2 (⟨t.val * 5000 + p.val, hr⟩ : Fin 50000) q :=
    Shape.idx_ext₂ (by show win19_2.index t (0 : Fin 2) * 5000 + 1 * p.val = t.val * 5000 + p.val; omega)
      (by show win19_2.index t (1 : Fin 2) * 88 + 1 * q.val = q.val; omega)
  show k19_pay1 (iblk19 V c 0 t) (iblk19 V c 1 t) (ix2 p q) = (Host.dotGeneral (F := Ideal) (φ₁ := .f32) (φ₂ := .f32) Cert.ReferenceIdeal.dot_S50000x70_S70x88_S50000x88_1_0_0_1_n_n none (V c main_v146) (V c main_arg12)) (((cfg19.win 2).blk t).view.emb (ix2 p q))
  rw [hout]
  unfold k19_pay1
  rw[shapeCast_self]
  refine Plain.block_eq_array ⟨rfl, rfl, rfl, rfl, rfl, rfl⟩ ⟨rfl, rfl, rfl, rfl, rfl, rfl⟩ none none .single _ _ (V c main_v146) (V c main_arg12) _ p q
    (fun k => ?_) (fun k => ?_)
  · show V c main_v146 (((cfg19.win 0).blk t).view.emb (ix2 p k)) = V c main_v146 (ix2 (⟨t.val * 5000 + p.val, hr⟩ : Fin 50000) k)
    exact congrArg _ (Shape.idx_ext₂ (by show win19_0.index t (0 : Fin 2) * 5000 + 1 * p.val = t.val * 5000 + p.val; omega)
      (by show win19_0.index t (1 : Fin 2) * 70 + 1 * k.val = k.val; omega))
  · show V c main_arg12 (((cfg19.win 1).blk t).view.emb (ix2 k q)) = V c main_arg12 (ix2 k q)
    exact congrArg _ (Shape.idx_ext₂ (by show win19_1.index t (0 : Fin 2) * 70 + 1 * k.val = k.val; omega)
      (by show win19_1.index t (1 : Fin 2) * 88 + 1 * q.val = q.val; omega))

/-- The ten row blocks tile the array: row r lies in block r / 5000. -/
theorem linear19_covered (i : S50000x88.Idx) : ∃ t : Fin cfg19.N, (cfg19.win 2).flush t = true ∧ i ∈ ((cfg19.win 2).blk t).view.set := by
  have hi0 : (i 0).val < 50000 := (i 0).isLt
  have hi1 : (i 1).val < 88 := (i 1).isLt
  obtain ⟨t, ht⟩ : ∃ t : Fin cfg19.N, t.val = (i 0).val / 5000 :=
    ⟨⟨(i 0).val / 5000, by rw [show cfg19.N = 10 from N_19]; omega⟩, rfl⟩
  obtain ⟨-, -, -, -, e20, e21⟩ := linear19_index t
  refine ⟨t, flush19_2 t, ?_⟩
  show i ∈ ((View.whole main_v147).slice (win19_2.rect t)).set
  rw [View.set_slice_whole, Rect.mem_set_unit]
  intro a
  match a with
  | ⟨0, _⟩ => show win19_2.index t (0 : Fin 2) * 5000 ≤ (i 0).val ∧ (i 0).val < win19_2.index t (0 : Fin 2) * 5000 + 5000; omega
  | ⟨1, _⟩ => show win19_2.index t (1 : Fin 2) * 88 ≤ (i 1).val ∧ (i 1).val < win19_2.index t (1 : Fin 2) * 88 + 88; omega

theorem linear19 (V : (c : Dev nD) → (b : Ref sig .tc) → Buf (Elt Ideal) ((c : Thread nD τ).loc b)) (c : Dev nD) :
    (dat19 (F := Ideal) V c).arrAt 2 cfg19.N = Host.dotGeneral (F := Ideal) (φ₁ := .f32) (φ₂ := .f32) Cert.ReferenceIdeal.dot_S50000x70_S70x88_S50000x88_1_0_0_1_n_n none (V c main_v146) (V c main_arg12) :=
  (dat19 (F := Ideal) V c).arrAt_eq_of_cover 2 _ (fun t _ => linear19_flushed V c t) linear19_covered

end Cert.KernelIdeal.Val

end
-- ==== Proof.KernelEdgeScale20.lean ====
import proofs.«147321_j32504312496394_1_alg».proof.Proof.Gen.KernelIdeal.Frame
import proofs.«147321_j32504312496394_1_alg».proof.Proof.RefStages
import proofs.«147321_j32504312496394_1_alg».proof.Proof.KernelEdgeScaleLib
noncomputable section
namespace Cert.KernelIdeal.Val
open Cert.KernelIdeal Cert.KernelIdeal.Gen Idealize.ShloMosaic Idealize.ShloMosaic.TcCoe Idealize.ShloMosaic.ValueIdx

variable {F : FTy → Type} [FloatOps F]

/-- All three windows are blocked by rows: at grid point t each has block index (t, 0). -/
theorem edgeScale20_rowBlocks : ∀ t : Fin cfg20.N, win20_0.index t (0 : Fin 2) = t.val ∧ win20_0.index t (1 : Fin 2) = 0
    ∧ win20_1.index t (0 : Fin 2) = t.val ∧ win20_1.index t (1 : Fin 2) = 0
    ∧ win20_2.index t (0 : Fin 2) = t.val ∧ win20_2.index t (1 : Fin 2) = 0 :=
  (by decide +kernel : ∀ t : Fin grid20.N, _)

variable (V : (c : Dev nD) → (b : Ref sig .tc) → Buf (Elt F) ((c : Thread nD τ).loc b))

/-- Point t writes back block t of the scaled rows, and the 85 row blocks tile the output array. -/
theorem edgeScale20 (c : Dev nD) :
    (dat20 V c).arrAt 2 cfg20.N = Cert.ReferenceIdeal.Val.scaleRows88 (V c main_v148) (V c main_v149) := by
  refine (dat20 V c).arrAt_eq_of_cover 2 _ (fun t _ => ?_) fun i => ?_
  · obtain ⟨e0, e1, e2, e3, e4, e5⟩ := edgeScale20_rowBlocks t
    show (cfg20.win 2).cut (grid20.coords t) ((dat20 V c).after 2 t) = _
    rw [after20_2]
    unfold out20_2
    rw [View.canon_unit_zero edgeScale_zeroOffsets]
    simp only [View.ld_unit_zero (S := S10000x88) edgeScale_zeroOffsets, View.ld_unit_zero (S := S10000x1) edgeScale_zeroOffsets]
    funext y
    exact edgeScale_block (R := 850000) (B := 88) (Rb := 10000) (V c main_v148) (V c main_v149) (iblk20 V c 0 t) (iblk20 V c 1 t)
      (t.val * 10000) (win20_0.rect t).emb (win20_1.rect t).emb (win20_2.rect t).emb (fun _ => rfl) (fun _ => rfl)
      (edgeScale_emb win20_0 t e0 e1) (edgeScale_emb win20_1 t e2 e3) (edgeScale_emb win20_2 t e4 e5) _ _ _ _ y
  · have hi : (i 0).val < 850000 := (i 0).isLt
    obtain ⟨t, ht⟩ : ∃ t : Fin cfg20.N, t.val = (i 0).val / 10000 :=
      ⟨⟨_, lt_of_lt_of_eq (by omega) N_20.symm⟩, rfl⟩
    obtain ⟨-, -, -, -, e4, e5⟩ := edgeScale20_rowBlocks t
    refine ⟨t, flush20_2 t, ?_⟩
    show i ∈ ((View.whole main_v150).slice (win20_2.rect t)).set
    rw [View.set_slice_whole]
    exact edgeScale_mem_rect win20_2 t i rfl fun (a : Fin 2) => match a with
      | ⟨0, _⟩ => ⟨(by decide : (0 : ℕ) < 10000), e4.trans ht⟩
      | ⟨1, _⟩ => ⟨(by decide : (0 : ℕ) < 88), e5.trans (Nat.div_eq_of_lt (i 1).isLt).symm⟩

end Cert.KernelIdeal.Val
end
-- ==== Proof.KernelBias21.lean ====
import proofs.«147321_j32504312496394_1_alg».proof.Proof.Gen.KernelIdeal.Frame
import proofs.«147321_j32504312496394_1_alg».proof.Proof.RefStages
import proofs.«147321_j32504312496394_1_alg».proof.Proof.KernelBiasLib
noncomputable section
namespace Cert.KernelIdeal.Val
open Cert.KernelIdeal Cert.KernelIdeal.Gen Idealize.ShloMosaic Idealize.ShloMosaic.TcCoe

variable {F : FTy → Type} [FloatOps F] (V : (c : Dev nD) → (b : Ref sig .tc) → Buf (Elt F) ((c : Thread nD τ).loc b))

theorem biasAt21 : ∀ t : Fin cfg21.N, biasAt (win21_0.index t) (win21_1.index t) (win21_2.index t) t.val :=
  (by decide +kernel : ∀ t : Fin grid21.N, _)

/-- The output array after the region is the reference's result of the region's two input arrays. -/
theorem bias21 (c : Dev nD) :
    (dat21 V c).arrAt 2 cfg21.N =  Cert.ReferenceIdeal.Val.addRow88 (V c main_v153) (V c main_v154) :=
  (dat21 V c).arrAt_eq_of_cover 2 _
    (fun t _ => by
      rw [Pipeline.Dat.flushed, after21_2, out21_2]
      exact funext fun j => bias_block id (biasAt21 t) (fun _ => rfl) (fun _ => rfl) j)
    fun i => (bias_cover (R := 5000) biasAt21 (by decide) i).imp fun t ht =>
      ⟨flush21_2 t, (View.set_slice_whole main_v155 (win21_2.rect t)).symm ▸ Rect.mem_set_unit.2 ht⟩

end Cert.KernelIdeal.Val
end
-- ==== Proof.KernelLayer6.lean ====
import proofs.«147321_j32504312496394_1_alg».proof.Proof.KernelCarried
import proofs.«147321_j32504312496394_1_alg».proof.Proof.KernelRegionsKeep
import proofs.«147321_j32504312496394_1_alg».proof.Proof.KernelKeep
import proofs.«147321_j32504312496394_1_alg».proof.Proof.KernelAggregate
import proofs.«147321_j32504312496394_1_alg».proof.Proof.KernelTake20
import proofs.«147321_j32504312496394_1_alg».proof.Proof.KernelLinear19
import proofs.«147321_j32504312496394_1_alg».proof.Proof.KernelEdgeScale20
import proofs.«147321_j32504312496394_1_alg».proof.Proof.KernelBias21

set_option maxRecDepth 16384

noncomputable section

namespace Cert.KernelIdeal.Val

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

/-- Each segment's output is its lemma's value at the inputs already found; the carried buffers pass every segment. -/
theorem layer6_read (c : Dev nD) (s d : IVec S850000 32) (n : FVec Ideal S850000 .f32) (H : FVec Ideal S50000x70 .f32)
    (hs : Cert.Val.NodeIdx s) (hC : Carried m c (W41 m ρ c) s d n) (hH : W41 m ρ c (Proc.devRef .tc main_v146) = H) :
    Carried m c (W47 m ρ c) s d n ∧ W47 m ρ c (Proc.devRef .tc main_v155) = Cert.ReferenceIdeal.Val.layer6 (F := Ideal) H (m ((c.tc : Thread nD τ).loc main_arg12)) (m ((c.tc : Thread nD τ).loc main_arg13)) s d n := by
  have C1 := hC.of_keep_ne main_v147 (keep_region19 m ρ c) (by decide) (by decide) (by decide) (by decide)
  have v1 := ((out_region19 m ρ c).trans (linear19 (V41 m ρ) c)).trans (congrArg₂ _ hH (hC.args main_arg12 (by decide)))
  have C2 := C1.of_keep written_hostOps20 (keep_hostOps20 (W42 m ρ c)) (by decide) (by decide) (by decide) (by decide)
  have v2 := (take_hostOps20 (W42 m ρ c) (C1.src.symm ▸ hs)).trans (congrArg₂ _ v1 C1.src)
  have C3 := C2.of_keep written_hostOps20_1 (keep_hostOps20_1 (W43 m ρ c)) (by decide) (by decide) (by decide) (by decide)
  have v3 := (normCol_hostOps20_1 (W43 m ρ c)).trans (congrArg _ C2.nrm)
  have C4 := C3.of_keep_ne main_v150 (keep_region20 m ρ c) (by decide) (by decide) (by decide) (by decide)
  have v4 := ((out_region20 m ρ c).trans (edgeScale20 (V44 m ρ) c)).trans
    (congrArg₂ _ ((keep_hostOps20_1 (W43 m ρ c) main_v148 (by decide)).trans v2) v3)
  have C5 := C4.of_keep written_hostOps21 (keep_hostOps21 (W45 m ρ c)) (by decide) (by decide) (by decide) (by decide)
  have v5 := (sum_hostOps21 (W45 m ρ c)).trans (congrArg₂ _ v4 C4.dst)
  have r5 := (row_hostOps21 (W45 m ρ c)).trans (congrArg _ (C4.args main_arg13 (by decide)))
  have v6 := ((out_region21 m ρ c).trans (bias21 (V46 m ρ) c)).trans (congrArg₂ _ v5 r5)
  exact ⟨C5.of_keep_ne main_v155 (keep_region21 m ρ c) (by decide) (by decide) (by decide) (by decide), v6⟩

end Cert.KernelIdeal.Val

end
-- ==== Proof.KernelValue.lean ====
import proofs.«147321_j32504312496394_1_alg».proof.Proof.KernelGraph
import proofs.«147321_j32504312496394_1_alg».proof.Proof.KernelLayer1
import proofs.«147321_j32504312496394_1_alg».proof.Proof.KernelLayer2
import proofs.«147321_j32504312496394_1_alg».proof.Proof.KernelLayer3
import proofs.«147321_j32504312496394_1_alg».proof.Proof.KernelLayer4
import proofs.«147321_j32504312496394_1_alg».proof.Proof.KernelLayer5
import proofs.«147321_j32504312496394_1_alg».proof.Proof.KernelLayer6

set_option maxRecDepth 16384

noncomputable section

namespace Cert.KernelIdeal.Val

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

theorem carried_atRegion0 (c : Dev nD) :
    Carried m c (W3 m ρ c) (Cert.ReferenceIdeal.Val.srcIdx (m ((c.tc : Thread nD τ).loc main_arg1))) (Cert.ReferenceIdeal.Val.dstIdx (m ((c.tc : Thread nD τ).loc main_arg1)))
      (Cert.ReferenceIdeal.Val.edgeNorm (F := Ideal) (Cert.ReferenceIdeal.Val.srcIdx (m ((c.tc : Thread nD τ).loc main_arg1))) (Cert.ReferenceIdeal.Val.dstIdx (m ((c.tc : Thread nD τ).loc main_arg1)))) :=
  ⟨src_atRegion0 (F := Ideal) (W0 m ρ c), dst_atRegion0 (F := Ideal) (W0 m ρ c), norm_atRegion0 (F := Ideal) (W0 m ρ c),
   fun b hb =>
    (keep_hostOps0_2 (W2 m ρ c) b ((by decide : ∀ b ∈ argRefs, b ∉ written_hostOps0_2) b hb)).trans
      ((keep_hostOps0_1 (W1 m ρ c) b ((by decide : ∀ b ∈ argRefs, b ∉ written_hostOps0_1) b hb)).trans
        ((keep_hostOps0 (W0 m ρ c) b ((by decide : ∀ b ∈ argRefs, b ∉ written_hostOps0) b hb)).trans rfl))⟩

theorem kernel_value (c : Dev nD) (he : Cert.Val.NodeIdx (S := S2x800000) (m ((c.tc : Thread nD τ).loc main_arg1))) :
    W47 m ρ c (Proc.devRef .tc main_v155) = Cert.ReferenceIdeal.Val.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  have hs := srcIdx_nodeIdx (m ((c.tc : Thread nD τ).loc main_arg1)) he
  have C3 := carried_atRegion0 m ρ c
  obtain ⟨C11, v11⟩ := layer1_read m ρ c _ _ _ _ hs C3 (C3.args main_arg0 (by decide))
  obtain ⟨C19, v19⟩ := layer2_read m ρ c _ _ _ _ hs C11 v11
  obtain ⟨C25, v25⟩ := layer3_read m ρ c _ _ _ _ hs C19 v19
  obtain ⟨C33, v33⟩ := layer4_read m ρ c _ _ _ _ hs C25 v25
  obtain ⟨C41, v41⟩ := layer5_read m ρ c _ _ _ _ hs C33 v33
  obtain ⟨_, v47⟩ := layer6_read m ρ c _ _ _ _ hs C41 v41
  exact v47

end Cert.KernelIdeal.Val

end
-- ==== Proof.EdgeRange.lean ====
import proofs.«147321_j32504312496394_1_alg».proof.Proof.Gen.Pre_finite_inputs
import proofs.«147321_j32504312496394_1_alg».proof.Proof.NodeIdx
import Idealize.ShloMosaic.Lib.ReduceAll
import Idealize.ShloMosaic.Lib.StableHlo.Predicate

namespace Cert.Val

open Cert.Pre_finite_inputs Idealize.ShloMosaic

instance subsingleton_S_Idx : Subsingleton S_.Idx := ⟨fun _ _ => funext fun d => d.elim0⟩

theorem nodeIdx_of_part6 {F : FTy → Type} [FloatOps F] (a1 : IVec S2x800000 32) (v98 : IVec S_ 1) (v101 : IVec S70 1)
    (c39 : IVec S_ 1) (j0 : S_.Idx) (h : fn_part6 (F := F) a1 v98 v101 c39 j0 = 1#1) : NodeIdx a1 := by
  intro j
  dsimp only [fn_part6] at h

  have hall := (IntOp.andi_eq_one.1 h).2

  have hj := Host.reduce_andi_all _ _ _ _ j0 hall j
  obtain ⟨hge, hlt⟩ := IntOp.andi_eq_one.1 hj

  have hge' : (0#32 : BitVec 32).toInt ≤ (a1 j).toInt := IntOp.cmpi_sge.1 hge
  have hlt' : (a1 j).toInt < (50000#32 : BitVec 32).toInt := IntOp.cmpi_slt.1 hlt
  have z0 : (0#32 : BitVec 32).toInt = 0 := by decide
  have z1 : (50000#32 : BitVec 32).toInt = 50000 := by decide
  rw [z0] at hge'
  rw [z1] at hlt'
  exact ⟨hge', hlt'⟩

theorem edge_nodeIdx_of_pre {F : FTy → Type} [FloatOps F] (a0 : FVec F S50000x88 .f32) (a1 : IVec S2x800000 32) (a2 : FVec F S88x70 .f32) (a3 : FVec F S70 .f32) (a4 : FVec F S70x60 .f32) (a5 : FVec F S60 .f32) (a6 : FVec F S60x50 .f32) (a7 : FVec F S50 .f32) (a8 : FVec F S50x60 .f32) (a9 : FVec F S60 .f32) (a10 : FVec F S60x70 .f32) (a11 : FVec F S70 .f32) (a12 : FVec F S70x88 .f32) (a13 : FVec F S88 .f32) (a14 : FVec F S70 .f32) (a15 : FVec F S70 .f32) (a16 : FVec F S60 .f32) (a17 : FVec F S60 .f32) (a18 : FVec F S60 .f32) (a19 : FVec F S60 .f32) (a20 : FVec F S70 .f32) (a21 : FVec F S70 .f32)
    (h : Cert.Pre_finite_inputs.fn (F := F) a0 a1 a2 a3 a4 a5 a6 a7 a8 a9 a10 a11 a12 a13 a14 a15 a16 a17 a18 a19 a20 a21 = fun _ => 1#1) :
    NodeIdx a1 := by
  have h0 := congrFun h (fun d => d.elim0)
  exact nodeIdx_of_part6 (F := F) a1 _ _ _ _ h0

end Cert.Val
-- ==== Proof.RefChunk.lean ====
import proofs.«147321_j32504312496394_1_alg».proof.Proof.RefOps

noncomputable section

namespace Cert.ReferenceIdeal.Fold

open Cert.ReferenceIdeal Idealize.ShloMosaic Idealize.ShloMosaic.StableHlo

variable {F : FTy → Type} [FloatOps F]

abbrev chunk (a b : Nat) : List (HloOp τ sig (Elt F)) := ((ops (F := F)).drop a).take (b - a)

end Cert.ReferenceIdeal.Fold

end
-- ==== Proof.RefRead1.lean ====
import proofs.«147321_j32504312496394_1_alg».proof.Proof.RefChunk
import proofs.«147321_j32504312496394_1_alg».proof.Proof.RefStages
import Idealize.ShloMosaic.Lib.StableHlo.Run

noncomputable section

namespace Cert.ReferenceIdeal.Val

open Cert.ReferenceIdeal Cert.ReferenceIdeal.Gen Cert.ReferenceIdeal.Fold Idealize.ShloMosaic Idealize.ShloMosaic.TcCoe Idealize.ShloMosaic.StableHlo

variable {F : FTy → Type} [FloatOps F]

private theorem drop_cut {α : Type} (l : List α) {a b : Nat} (h : a ≤ b) :
    l.drop a = (l.drop a).take (b - a) ++ l.drop b := by
  have e : l.drop b = (l.drop a).drop (b - a) := by rw [List.drop_drop]; congr 1; omega
  rw [e, List.take_append_drop]

set_option maxRecDepth 8192 in

theorem ops_cut : (ops (F := F)) = chunk 0 40 ++ (chunk 40 63 ++ (chunk 63 93 ++ (chunk 93 116 ++ (chunk 116 146 ++ (chunk 146 166 ++ (chunk 166 189 ++ (chunk 189 219 ++ (chunk 219 242 ++ (chunk 242 272 ++ chunk 272 292))))))))) := by
  have h292 : (ops (F := F)).drop 292 = [] := rfl
  calc (ops (F := F)) = (ops (F := F)).drop 0 := rfl
    _ = chunk 0 40 ++ (ops (F := F)).drop 40 := drop_cut _ (by omega)
    _ = _ := by
      rw [drop_cut (ops (F := F)) (a := 40) (b := 63) (by omega), drop_cut (ops (F := F)) (a := 63) (b := 93) (by omega),
        drop_cut (ops (F := F)) (a := 93) (b := 116) (by omega), drop_cut (ops (F := F)) (a := 116) (b := 146) (by omega),
        drop_cut (ops (F := F)) (a := 146) (b := 166) (by omega), drop_cut (ops (F := F)) (a := 166) (b := 189) (by omega),
        drop_cut (ops (F := F)) (a := 189) (b := 219) (by omega), drop_cut (ops (F := F)) (a := 219) (b := 242) (by omega),
        drop_cut (ops (F := F)) (a := 242) (b := 272) (by omega), drop_cut (ops (F := F)) (a := 272) (b := 292) (by omega),
        h292, List.append_nil]

macro "stretch_literal" : tactic =>
  `(tactic| simp only [chunk, ops, Nat.reduceSub, List.drop_succ_cons, List.drop_zero, List.take_succ_cons, List.take_zero])

set_option maxHeartbeats 1000000 in

theorem read_graph (V : Valuation τ sig (Elt F)) :
    after (chunk (F := F) 0 40) V (Proc.devRef .tc main_v3) = srcIdx (V (Proc.devRef .tc main_arg1))
    ∧ after (chunk (F := F) 0 40) V (Proc.devRef .tc main_v6) = dstIdx (V (Proc.devRef .tc main_arg1))
    ∧ after (chunk (F := F) 0 40) V (Proc.devRef .tc main_v29)
        = edgeNorm (F := F) (srcIdx (V (Proc.devRef .tc main_arg1))) (dstIdx (V (Proc.devRef .tc main_arg1))) := by
  refine ⟨?_, ?_, ?_⟩
  · stretch_literal
    after_results
    rfl
  · stretch_literal
    after_results
    rfl
  · stretch_literal
    after_results_simp
    simp only [TRef.ofBuf, TRef.toBuf, cast_eq]
    unfold edgeNorm invSqrtDeg degree idxCol wrapCol srcIdx dstIdx
    rfl

set_option maxHeartbeats 1000000 in

theorem read_layer1 (V : Valuation τ sig (Elt F)) :
    after (chunk (F := F) 40 63) V (Proc.devRef .tc main_v47)
      = layer1 (V (Proc.devRef .tc main_arg0)) (V (Proc.devRef .tc main_arg2)) (V (Proc.devRef .tc main_arg3)) (V (Proc.devRef .tc main_v3)) (V (Proc.devRef .tc main_v6)) (V (Proc.devRef .tc main_v29)) := by
  stretch_literal
  after_results_simp
  simp only [TRef.ofBuf, TRef.toBuf, cast_eq]
  unfold layer1 relu70 addRow70 downRows70 rowOf70 sumByDst70 scaleRows70 gatherRows70 normCol idxCol wrapCol
  rfl

set_option maxHeartbeats 1000000 in

theorem read_norm1 (V : Valuation τ sig (Elt F)) :
    after (chunk (F := F) 63 93) V (Proc.devRef .tc main_v72)
      = batchNorm70 (V (Proc.devRef .tc main_v47)) (V (Proc.devRef .tc main_arg14)) (V (Proc.devRef .tc main_arg15)) := by
  stretch_literal
  after_results_simp
  unfold batchNorm70 normalize70 invStd70 colVar70 colMean70 downRows70 rowOf70
  rfl

set_option maxHeartbeats 1000000 in

theorem read_layer2 (V : Valuation τ sig (Elt F)) :
    after (chunk (F := F) 93 116) V (Proc.devRef .tc main_v90)
      = layer2 (V (Proc.devRef .tc main_v72)) (V (Proc.devRef .tc main_arg4)) (V (Proc.devRef .tc main_arg5)) (V (Proc.devRef .tc main_v3)) (V (Proc.devRef .tc main_v6)) (V (Proc.devRef .tc main_v29)) := by
  stretch_literal
  after_results_simp
  simp only [TRef.ofBuf, TRef.toBuf, cast_eq]
  unfold layer2 relu60 addRow60 downRows60 rowOf60 sumByDst60 scaleRows60 gatherRows60 normCol idxCol wrapCol
  rfl

set_option maxHeartbeats 1000000 in

theorem read_norm2 (V : Valuation τ sig (Elt F)) :
    after (chunk (F := F) 116 146) V (Proc.devRef .tc main_v115)
      = batchNorm60 (V (Proc.devRef .tc main_v90)) (V (Proc.devRef .tc main_arg16)) (V (Proc.devRef .tc main_arg17)) := by
  stretch_literal
  after_results_simp
  unfold batchNorm60 normalize60 invStd60 colVar60 colMean60 downRows60 rowOf60
  rfl

set_option maxHeartbeats 1000000 in

theorem read_layer3 (V : Valuation τ sig (Elt F)) :
    after (chunk (F := F) 146 166) V (Proc.devRef .tc main_v132)
      = layer3 (V (Proc.devRef .tc main_v115)) (V (Proc.devRef .tc main_arg6)) (V (Proc.devRef .tc main_arg7)) (V (Proc.devRef .tc main_v3)) (V (Proc.devRef .tc main_v6)) (V (Proc.devRef .tc main_v29)) := by
  stretch_literal
  after_results_simp
  unfold layer3 addRow50 downRows50 rowOf50 sumByDst50 scaleRows50 gatherRows50 normCol idxCol wrapCol
  rfl

end Cert.ReferenceIdeal.Val

end
-- ==== Proof.RefKeep1.lean ====
import proofs.«147321_j32504312496394_1_alg».proof.Proof.RefChunk
import Idealize.ShloMosaic.Lib.StableHlo.Run

noncomputable section

namespace Cert.ReferenceIdeal.Val

open Cert.ReferenceIdeal Cert.ReferenceIdeal.Gen Cert.ReferenceIdeal.Fold Idealize.ShloMosaic Idealize.ShloMosaic.TcCoe Idealize.ShloMosaic.StableHlo

variable {F : FTy → Type} [FloatOps F]

/-- Operations whose written sets are, in order, the singletons of the references in `W` change no reference outside `W`. -/
private theorem refKeep_of_results {ops : List (HloOp τ sig (Elt F))} {W : List (Ref sig .tc)} (V : Valuation τ sig (Elt F))
    {b : Ref sig .tc} (hb : b ∉ W) (h : ops.map HloOp.writes = W.map fun y => {Proc.devRef .tc y}) :
    after ops V (Proc.devRef .tc b) = V (Proc.devRef .tc b) :=
  after_of_writes_sub ops V (List.forall_iff_forall_mem.mpr fun op hop => by
    obtain ⟨y, hy, e⟩ := List.mem_map.mp (h ▸ List.mem_map_of_mem hop : op.writes ∈ W.map _)
    exact e ▸ Finset.singleton_subset_iff.mpr (List.mem_toFinset.mpr (List.mem_map_of_mem hy))) hb

def written_0_40 : List (Ref sig .tc) :=
  [main_v0, main_v1, main_v2, main_v3, main_v4, main_v5, main_v6, main_cst, main_v7, main_cst_0, main_v8, main_v9,
   main_v10, main_cst_1, main_v11, main_v12, main_v13, main_cst_2, main_call0_v0, main_call0_v1, main_v14, main_c,
   main_v15, main_v16, main_c_3, main_v17, main_v18, main_v19, main_v20, main_v21, main_c_4, main_v22, main_v23,
   main_c_5, main_v24, main_v25, main_v26, main_v27, main_v28, main_v29]

theorem keep_0_40 (V : Valuation τ sig (Elt F)) (b : Ref sig .tc) (hb : b ∉ written_0_40) :
    after (chunk (F := F) 0 40) V (Proc.devRef .tc b) = V (Proc.devRef .tc b) :=
  refKeep_of_results V hb rfl

def written_40_63 : List (Ref sig .tc) :=
  [main_v30, main_c_6, main_v31, main_v32, main_c_7, main_v33, main_v34, main_v35, main_v36, main_v37, main_v38,
   main_v39, main_v40, main_cst_8, main_v41, main_v42, main_v43, main_v44, main_v45, main_v46, main_call1_cst,
   main_call1_v0, main_v47]

theorem keep_40_63 (V : Valuation τ sig (Elt F)) (b : Ref sig .tc) (hb : b ∉ written_40_63) :
    after (chunk (F := F) 40 63) V (Proc.devRef .tc b) = V (Proc.devRef .tc b) :=
  refKeep_of_results V hb rfl

def written_63_93 : List (Ref sig .tc) :=
  [main_cst_9, main_v48, main_cst_10, main_v49, main_v50, main_v51, main_v52, main_v53, main_v54, main_cst_11, main_v55,
   main_cst_12, main_v56, main_v57, main_v58, main_v59, main_v60, main_v61, main_v62, main_v63, main_cst_13, main_v64,
   main_v65, main_v66, main_v67, main_v68, main_v69, main_v70, main_v71, main_v72]

theorem keep_63_93 (V : Valuation τ sig (Elt F)) (b : Ref sig .tc) (hb : b ∉ written_63_93) :
    after (chunk (F := F) 63 93) V (Proc.devRef .tc b) = V (Proc.devRef .tc b) :=
  refKeep_of_results V hb rfl

def written_93_116 : List (Ref sig .tc) :=
  [main_v73, main_c_14, main_v74, main_v75, main_c_15, main_v76, main_v77, main_v78, main_v79, main_v80, main_v81,
   main_v82, main_v83, main_cst_16, main_v84, main_v85, main_v86, main_v87, main_v88, main_v89, main_call2_cst,
   main_call2_v0, main_v90]

theorem keep_93_116 (V : Valuation τ sig (Elt F)) (b : Ref sig .tc) (hb : b ∉ written_93_116) :
    after (chunk (F := F) 93 116) V (Proc.devRef .tc b) = V (Proc.devRef .tc b) :=
  refKeep_of_results V hb rfl

def written_116_146 : List (Ref sig .tc) :=
  [main_cst_17, main_v91, main_cst_18, main_v92, main_v93, main_v94, main_v95, main_v96, main_v97, main_cst_19,
   main_v98, main_cst_20, main_v99, main_v100, main_v101, main_v102, main_v103, main_v104, main_v105, main_v106,
   main_cst_21, main_v107, main_v108, main_v109, main_v110, main_v111, main_v112, main_v113, main_v114, main_v115]

theorem keep_116_146 (V : Valuation τ sig (Elt F)) (b : Ref sig .tc) (hb : b ∉ written_116_146) :
    after (chunk (F := F) 116 146) V (Proc.devRef .tc b) = V (Proc.devRef .tc b) :=
  refKeep_of_results V hb rfl

def written_146_166 : List (Ref sig .tc) :=
  [main_v116, main_c_22, main_v117, main_v118, main_c_23, main_v119, main_v120, main_v121, main_v122, main_v123,
   main_v124, main_v125, main_v126, main_cst_24, main_v127, main_v128, main_v129, main_v130, main_v131, main_v132]

theorem keep_146_166 (V : Valuation τ sig (Elt F)) (b : Ref sig .tc) (hb : b ∉ written_146_166) :
    after (chunk (F := F) 146 166) V (Proc.devRef .tc b) = V (Proc.devRef .tc b) :=
  refKeep_of_results V hb rfl

end Cert.ReferenceIdeal.Val

end
-- ==== Proof.RefKeep2.lean ====
import proofs.«147321_j32504312496394_1_alg».proof.Proof.RefChunk
import Idealize.ShloMosaic.Lib.StableHlo.Run

noncomputable section

namespace Cert.ReferenceIdeal.Val

open Cert.ReferenceIdeal Cert.ReferenceIdeal.Gen Cert.ReferenceIdeal.Fold Idealize.ShloMosaic Idealize.ShloMosaic.TcCoe Idealize.ShloMosaic.StableHlo

variable {F : FTy → Type} [FloatOps F]

/-- Operations whose written sets are, in order, the singletons of the references in `W` change no reference outside `W`. -/
private theorem refKeep_of_results {ops : List (HloOp τ sig (Elt F))} {W : List (Ref sig .tc)} (V : Valuation τ sig (Elt F))
    {b : Ref sig .tc} (hb : b ∉ W) (h : ops.map HloOp.writes = W.map fun y => {Proc.devRef .tc y}) :
    after ops V (Proc.devRef .tc b) = V (Proc.devRef .tc b) :=
  after_of_writes_sub ops V (List.forall_iff_forall_mem.mpr fun op hop => by
    obtain ⟨y, hy, e⟩ := List.mem_map.mp (h ▸ List.mem_map_of_mem hop : op.writes ∈ W.map _)
    exact e ▸ Finset.singleton_subset_iff.mpr (List.mem_toFinset.mpr (List.mem_map_of_mem hy))) hb

abbrev ops_166_189 : List (HloOp τ sig (Elt F)) :=
  [ binary main_v132 main_arg8 main_v133 ((fun l r => Host.dotGeneral dot_S50000x50_S50x60_S50000x60_1_0_0_1_n_n none l r) : (⟨S50000x50, .f32⟩ : BufTy).Contents (Elt F) → (⟨S50x60, .f32⟩ : BufTy).Contents (Elt F) → (⟨S50000x60, .f32⟩ : BufTy).Contents (Elt F)),
    nullary main_c_25 (constantI S_ 32 0#32),
    unary main_c_25 main_v134 (broadcastInDim S850000 ![] bcast_S_S850000 : (⟨S_, .i32⟩ : BufTy).Contents (Elt F) → (⟨S850000, .i32⟩ : BufTy).Contents (Elt F)),
    binary main_v3 main_v134 main_v135 (cmpi .slt : (⟨S850000, .i32⟩ : BufTy).Contents (Elt F) → (⟨S850000, .i32⟩ : BufTy).Contents (Elt F) → (⟨S850000, .i1⟩ : BufTy).Contents (Elt F)),
    nullary main_c_26 (constantI S_ 32 50000#32),
    unary main_c_26 main_v136 (broadcastInDim S850000 ![] bcast_S_S850000 : (⟨S_, .i32⟩ : BufTy).Contents (Elt F) → (⟨S850000, .i32⟩ : BufTy).Contents (Elt F)),
    binary main_v3 main_v136 main_v137 (addi : (⟨S850000, .i32⟩ : BufTy).Contents (Elt F) → (⟨S850000, .i32⟩ : BufTy).Contents (Elt F) → (⟨S850000, .i32⟩ : BufTy).Contents (Elt F)),
    ternary main_v135 main_v137 main_v3 main_v138 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v138 main_v139 (broadcastInDim S850000x1 ![0] bcast_S850000_S850000x1_0 : (⟨S850000, .i32⟩ : BufTy).Contents (Elt F) → (⟨S850000x1, .i32⟩ : BufTy).Contents (Elt F)),
    binary main_v133 main_v139 main_v140 ((fun x i => Host.gather gather_S50000x60_S850000x1_S850000x60_1_0_n_n_0_1_160 x i) : (⟨S50000x60, .f32⟩ : BufTy).Contents (Elt F) → (⟨S850000x1, .i32⟩ : BufTy).Contents (Elt F) → (⟨S850000x60, .f32⟩ : BufTy).Contents (Elt F)),
    unary main_v29 main_v141 (broadcastInDim S850000x1 ![0] bcast_S850000_S850000x1_0 : (⟨S850000, .f32⟩ : BufTy).Contents (Elt F) → (⟨S850000x1, .f32⟩ : BufTy).Contents (Elt F)),
    unary main_v141 main_v142 (broadcastInDim S850000x60 ![0, 1] bcast_S850000x1_S850000x60_0_1 : (⟨S850000x1, .f32⟩ : BufTy).Contents (Elt F) → (⟨S850000x60, .f32⟩ : BufTy).Contents (Elt F)),
    binary main_v140 main_v142 main_v143 (mulf : (⟨S850000x60, .f32⟩ : BufTy).Contents (Elt F) → (⟨S850000x60, .f32⟩ : BufTy).Contents (Elt F) → (⟨S850000x60, .f32⟩ : BufTy).Contents (Elt F)),
    nullary main_cst_27 (constant S_ .f32 0x00000000#32),
    unary main_cst_27 main_v144 (broadcastInDim S50000x60 ![] bcast_S_S50000x60 : (⟨S_, .f32⟩ : BufTy).Contents (Elt F) → (⟨S50000x60, .f32⟩ : BufTy).Contents (Elt F)),
    unary main_v6 main_v145 (broadcastInDim S850000x1 ![0] bcast_S850000_S850000x1_0 : (⟨S850000, .i32⟩ : BufTy).Contents (Elt F) → (⟨S850000x1, .i32⟩ : BufTy).Contents (Elt F)),
    ternary main_v144 main_v145 main_v143 main_v146 ((fun x i u => Host.scatterAdd scatter_S50000x60_S850000x1_S850000x60_1_0_0_1 x i u) : (⟨S50000x60, .f32⟩ : BufTy).Contents (Elt F) → (⟨S850000x1, .i32⟩ : BufTy).Contents (Elt F) → (⟨S850000x60, .f32⟩ : BufTy).Contents (Elt F) → (⟨S50000x60, .f32⟩ : BufTy).Contents (Elt F)),
    unary main_arg9 main_v147 (broadcastInDim S1x60 ![1] bcast_S60_S1x60_1 : (⟨S60, .f32⟩ : BufTy).Contents (Elt F) → (⟨S1x60, .f32⟩ : BufTy).Contents (Elt F)),
    unary main_v147 main_v148 (broadcastInDim S50000x60 ![0, 1] bcast_S1x60_S50000x60_0_1 : (⟨S1x60, .f32⟩ : BufTy).Contents (Elt F) → (⟨S50000x60, .f32⟩ : BufTy).Contents (Elt F)),
    binary main_v146 main_v148 main_v149 (addf : (⟨S50000x60, .f32⟩ : BufTy).Contents (Elt F) → (⟨S50000x60, .f32⟩ : BufTy).Contents (Elt F) → (⟨S50000x60, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x60, .f32⟩) main_call3_v0) (broadcastInDim S50000x60 ![] bcast_S_S50000x60),
    TRef.binary (TRef.of (T := ⟨S50000x60, .f32⟩) main_v149) (TRef.of (T := ⟨S50000x60, .f32⟩) main_call3_v0) (TRef.of (T := ⟨S50000x60, .f32⟩) main_v150) maximumf ]

set_option maxRecDepth 8192 in
theorem chunk_166_189 : chunk (F := F) 166 189 = ops_166_189 := rfl

def written_166_189 : List (Ref sig .tc) :=
  [main_v133, main_c_25, main_v134, main_v135, main_c_26, main_v136, main_v137, main_v138, main_v139, main_v140,
   main_v141, main_v142, main_v143, main_cst_27, main_v144, main_v145, main_v146, main_v147, main_v148, main_v149,
   main_call3_cst, main_call3_v0, main_v150]

theorem keep_166_189 (V : Valuation τ sig (Elt F)) (b : Ref sig .tc) (hb : b ∉ written_166_189) :
    after (chunk (F := F) 166 189) V (Proc.devRef .tc b) = V (Proc.devRef .tc b) := by
  rw [chunk_166_189]; exact refKeep_of_results V hb rfl

abbrev ops_189_219 : List (HloOp τ sig (Elt F)) :=
  [ nullary main_cst_28 (constant S_ .f32 0x00000000#32),
    binary main_v150 main_cst_28 main_v151 ((fun x v => Host.reduceAdd x v reducesTo_S50000x60_S60_d0 h_S_) : (⟨S50000x60, .f32⟩ : BufTy).Contents (Elt F) → (⟨S_, .f32⟩ : BufTy).Contents (Elt F) → (⟨S60, .f32⟩ : BufTy).Contents (Elt F)),
    nullary main_cst_29 (constant S_ .f32 0x47435000#32),
    unary main_cst_29 main_v152 (broadcastInDim S60 ![] bcast_S_S60 : (⟨S_, .f32⟩ : BufTy).Contents (Elt F) → (⟨S60, .f32⟩ : BufTy).Contents (Elt F)),
    binary main_v151 main_v152 main_v153 (Host.divf : (⟨S60, .f32⟩ : BufTy).Contents (Elt F) → (⟨S60, .f32⟩ : BufTy).Contents (Elt F) → (⟨S60, .f32⟩ : BufTy).Contents (Elt F)),
    unary main_v153 main_v154 (broadcastInDim S1x60 ![1] bcast_S60_S1x60_1 : (⟨S60, .f32⟩ : BufTy).Contents (Elt F) → (⟨S1x60, .f32⟩ : BufTy).Contents (Elt F)),
    unary main_v154 main_v155 (broadcastInDim S50000x60 ![0, 1] bcast_S1x60_S50000x60_0_1 : (⟨S1x60, .f32⟩ : BufTy).Contents (Elt F) → (⟨S50000x60, .f32⟩ : BufTy).Contents (Elt F)),
    binary main_v150 main_v155 main_v156 (subf : (⟨S50000x60, .f32⟩ : BufTy).Contents (Elt F) → (⟨S50000x60, .f32⟩ : BufTy).Contents (Elt F) → (⟨S50000x60, .f32⟩ : BufTy).Contents (Elt F)),
    binary main_v156 main_v156 main_v157 (mulf : (⟨S50000x60, .f32⟩ : BufTy).Contents (Elt F) → (⟨S50000x60, .f32⟩ : BufTy).Contents (Elt F) → (⟨S50000x60, .f32⟩ : BufTy).Contents (Elt F)),
    nullary main_cst_30 (constant S_ .f32 0x00000000#32),
    binary main_v157 main_cst_30 main_v158 ((fun x v => Host.reduceAdd x v reducesTo_S50000x60_S60_d0 h_S_) : (⟨S50000x60, .f32⟩ : BufTy).Contents (Elt F) → (⟨S_, .f32⟩ : BufTy).Contents (Elt F) → (⟨S60, .f32⟩ : BufTy).Contents (Elt F)),
    nullary main_cst_31 (constant S_ .f32 0x47435000#32),
    unary main_cst_31 main_v159 (broadcastInDim S60 ![] bcast_S_S60 : (⟨S_, .f32⟩ : BufTy).Contents (Elt F) → (⟨S60, .f32⟩ : BufTy).Contents (Elt F)),
    binary main_v158 main_v159 main_v160 (Host.divf : (⟨S60, .f32⟩ : BufTy).Contents (Elt F) → (⟨S60, .f32⟩ : BufTy).Contents (Elt F) → (⟨S60, .f32⟩ : BufTy).Contents (Elt F)),
    unary main_v153 main_v161 (broadcastInDim S1x60 ![1] bcast_S60_S1x60_1 : (⟨S60, .f32⟩ : BufTy).Contents (Elt F) → (⟨S1x60, .f32⟩ : BufTy).Contents (Elt F)),
    unary main_v161 main_v162 (broadcastInDim S50000x60 ![0, 1] bcast_S1x60_S50000x60_0_1 : (⟨S1x60, .f32⟩ : BufTy).Contents (Elt F) → (⟨S50000x60, .f32⟩ : BufTy).Contents (Elt F)),
    binary main_v150 main_v162 main_v163 (subf : (⟨S50000x60, .f32⟩ : BufTy).Contents (Elt F) → (⟨S50000x60, .f32⟩ : BufTy).Contents (Elt F) → (⟨S50000x60, .f32⟩ : BufTy).Contents (Elt F)),
    unary main_arg18 main_v164 (broadcastInDim S1x60 ![1] bcast_S60_S1x60_1 : (⟨S60, .f32⟩ : BufTy).Contents (Elt F) → (⟨S1x60, .f32⟩ : BufTy).Contents (Elt F)),
    unary main_v164 main_v165 (broadcastInDim S50000x60 ![0, 1] bcast_S1x60_S50000x60_0_1 : (⟨S1x60, .f32⟩ : BufTy).Contents (Elt F) → (⟨S50000x60, .f32⟩ : BufTy).Contents (Elt F)),
    binary main_v165 main_v163 main_v166 (mulf : (⟨S50000x60, .f32⟩ : BufTy).Contents (Elt F) → (⟨S50000x60, .f32⟩ : BufTy).Contents (Elt F) → (⟨S50000x60, .f32⟩ : BufTy).Contents (Elt F)),
    nullary main_cst_32 (constant S_ .f32 0x3727C5AC#32),
    unary main_cst_32 main_v167 (broadcastInDim S60 ![] bcast_S_S60 : (⟨S_, .f32⟩ : BufTy).Contents (Elt F) → (⟨S60, .f32⟩ : BufTy).Contents (Elt F)),
    binary main_v160 main_v167 main_v168 (addf : (⟨S60, .f32⟩ : BufTy).Contents (Elt F) → (⟨S60, .f32⟩ : BufTy).Contents (Elt F) → (⟨S60, .f32⟩ : BufTy).Contents (Elt F)),
    unary main_v168 main_v169 (Host.rsqrt : (⟨S60, .f32⟩ : BufTy).Contents (Elt F) → (⟨S60, .f32⟩ : BufTy).Contents (Elt F)),
    unary main_v169 main_v170 (broadcastInDim S1x60 ![1] bcast_S60_S1x60_1 : (⟨S60, .f32⟩ : BufTy).Contents (Elt F) → (⟨S1x60, .f32⟩ : BufTy).Contents (Elt F)),
    unary main_v170 main_v171 (broadcastInDim S50000x60 ![0, 1] bcast_S1x60_S50000x60_0_1 : (⟨S1x60, .f32⟩ : BufTy).Contents (Elt F) → (⟨S50000x60, .f32⟩ : BufTy).Contents (Elt F)),
    binary main_v166 main_v171 main_v172 (mulf : (⟨S50000x60, .f32⟩ : BufTy).Contents (Elt F) → (⟨S50000x60, .f32⟩ : BufTy).Contents (Elt F) → (⟨S50000x60, .f32⟩ : BufTy).Contents (Elt F)),
    unary main_arg19 main_v173 (broadcastInDim S1x60 ![1] bcast_S60_S1x60_1 : (⟨S60, .f32⟩ : BufTy).Contents (Elt F) → (⟨S1x60, .f32⟩ : BufTy).Contents (Elt F)),
    unary main_v173 main_v174 (broadcastInDim S50000x60 ![0, 1] bcast_S1x60_S50000x60_0_1 : (⟨S1x60, .f32⟩ : BufTy).Contents (Elt F) → (⟨S50000x60, .f32⟩ : BufTy).Contents (Elt F)),
    binary main_v172 main_v174 main_v175 (addf : (⟨S50000x60, .f32⟩ : BufTy).Contents (Elt F) → (⟨S50000x60, .f32⟩ : BufTy).Contents (Elt F) → (⟨S50000x60, .f32⟩ : BufTy).Contents (Elt F)) ]

set_option maxRecDepth 8192 in
theorem chunk_189_219 : chunk (F := F) 189 219 = ops_189_219 := rfl

def written_189_219 : List (Ref sig .tc) :=
  [main_cst_28, main_v151, main_cst_29, main_v152, main_v153, main_v154, main_v155, main_v156, main_v157, main_cst_30,
   main_v158, main_cst_31, main_v159, main_v160, main_v161, main_v162, main_v163, main_v164, main_v165, main_v166,
   main_cst_32, main_v167, main_v168, main_v169, main_v170, main_v171, main_v172, main_v173, main_v174, main_v175]

theorem keep_189_219 (V : Valuation τ sig (Elt F)) (b : Ref sig .tc) (hb : b ∉ written_189_219) :
    after (chunk (F := F) 189 219) V (Proc.devRef .tc b) = V (Proc.devRef .tc b) := by
  rw [chunk_189_219]; exact refKeep_of_results V hb rfl

abbrev ops_219_242 : List (HloOp τ sig (Elt F)) :=
  [ binary main_v175 main_arg10 main_v176 ((fun l r => Host.dotGeneral dot_S50000x60_S60x70_S50000x70_1_0_0_1_n_n none l r) : (⟨S50000x60, .f32⟩ : BufTy).Contents (Elt F) → (⟨S60x70, .f32⟩ : BufTy).Contents (Elt F) → (⟨S50000x70, .f32⟩ : BufTy).Contents (Elt F)),
    nullary main_c_33 (constantI S_ 32 0#32),
    unary main_c_33 main_v177 (broadcastInDim S850000 ![] bcast_S_S850000 : (⟨S_, .i32⟩ : BufTy).Contents (Elt F) → (⟨S850000, .i32⟩ : BufTy).Contents (Elt F)),
    binary main_v3 main_v177 main_v178 (cmpi .slt : (⟨S850000, .i32⟩ : BufTy).Contents (Elt F) → (⟨S850000, .i32⟩ : BufTy).Contents (Elt F) → (⟨S850000, .i1⟩ : BufTy).Contents (Elt F)),
    nullary main_c_34 (constantI S_ 32 50000#32),
    unary main_c_34 main_v179 (broadcastInDim S850000 ![] bcast_S_S850000 : (⟨S_, .i32⟩ : BufTy).Contents (Elt F) → (⟨S850000, .i32⟩ : BufTy).Contents (Elt F)),
    binary main_v3 main_v179 main_v180 (addi : (⟨S850000, .i32⟩ : BufTy).Contents (Elt F) → (⟨S850000, .i32⟩ : BufTy).Contents (Elt F) → (⟨S850000, .i32⟩ : BufTy).Contents (Elt F)),
    ternary main_v178 main_v180 main_v3 main_v181 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v181 main_v182 (broadcastInDim S850000x1 ![0] bcast_S850000_S850000x1_0 : (⟨S850000, .i32⟩ : BufTy).Contents (Elt F) → (⟨S850000x1, .i32⟩ : BufTy).Contents (Elt F)),
    binary main_v176 main_v182 main_v183 ((fun x i => Host.gather gather_S50000x70_S850000x1_S850000x70_1_0_n_n_0_1_170 x i) : (⟨S50000x70, .f32⟩ : BufTy).Contents (Elt F) → (⟨S850000x1, .i32⟩ : BufTy).Contents (Elt F) → (⟨S850000x70, .f32⟩ : BufTy).Contents (Elt F)),
    unary main_v29 main_v184 (broadcastInDim S850000x1 ![0] bcast_S850000_S850000x1_0 : (⟨S850000, .f32⟩ : BufTy).Contents (Elt F) → (⟨S850000x1, .f32⟩ : BufTy).Contents (Elt F)),
    unary main_v184 main_v185 (broadcastInDim S850000x70 ![0, 1] bcast_S850000x1_S850000x70_0_1 : (⟨S850000x1, .f32⟩ : BufTy).Contents (Elt F) → (⟨S850000x70, .f32⟩ : BufTy).Contents (Elt F)),
    binary main_v183 main_v185 main_v186 (mulf : (⟨S850000x70, .f32⟩ : BufTy).Contents (Elt F) → (⟨S850000x70, .f32⟩ : BufTy).Contents (Elt F) → (⟨S850000x70, .f32⟩ : BufTy).Contents (Elt F)),
    nullary main_cst_35 (constant S_ .f32 0x00000000#32),
    unary main_cst_35 main_v187 (broadcastInDim S50000x70 ![] bcast_S_S50000x70 : (⟨S_, .f32⟩ : BufTy).Contents (Elt F) → (⟨S50000x70, .f32⟩ : BufTy).Contents (Elt F)),
    unary main_v6 main_v188 (broadcastInDim S850000x1 ![0] bcast_S850000_S850000x1_0 : (⟨S850000, .i32⟩ : BufTy).Contents (Elt F) → (⟨S850000x1, .i32⟩ : BufTy).Contents (Elt F)),
    ternary main_v187 main_v188 main_v186 main_v189 ((fun x i u => Host.scatterAdd scatter_S50000x70_S850000x1_S850000x70_1_0_0_1 x i u) : (⟨S50000x70, .f32⟩ : BufTy).Contents (Elt F) → (⟨S850000x1, .i32⟩ : BufTy).Contents (Elt F) → (⟨S850000x70, .f32⟩ : BufTy).Contents (Elt F) → (⟨S50000x70, .f32⟩ : BufTy).Contents (Elt F)),
    unary main_arg11 main_v190 (broadcastInDim S1x70 ![1] bcast_S70_S1x70_1 : (⟨S70, .f32⟩ : BufTy).Contents (Elt F) → (⟨S1x70, .f32⟩ : BufTy).Contents (Elt F)),
    unary main_v190 main_v191 (broadcastInDim S50000x70 ![0, 1] bcast_S1x70_S50000x70_0_1 : (⟨S1x70, .f32⟩ : BufTy).Contents (Elt F) → (⟨S50000x70, .f32⟩ : BufTy).Contents (Elt F)),
    binary main_v189 main_v191 main_v192 (addf : (⟨S50000x70, .f32⟩ : BufTy).Contents (Elt F) → (⟨S50000x70, .f32⟩ : BufTy).Contents (Elt F) → (⟨S50000x70, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x70, .f32⟩) main_call4_v0) (broadcastInDim S50000x70 ![] bcast_S_S50000x70),
    TRef.binary (TRef.of (T := ⟨S50000x70, .f32⟩) main_v192) (TRef.of (T := ⟨S50000x70, .f32⟩) main_call4_v0) (TRef.of (T := ⟨S50000x70, .f32⟩) main_v193) maximumf ]

set_option maxRecDepth 8192 in
theorem chunk_219_242 : chunk (F := F) 219 242 = ops_219_242 := rfl

def written_219_242 : List (Ref sig .tc) :=
  [main_v176, main_c_33, main_v177, main_v178, main_c_34, main_v179, main_v180, main_v181, main_v182, main_v183,
   main_v184, main_v185, main_v186, main_cst_35, main_v187, main_v188, main_v189, main_v190, main_v191, main_v192,
   main_call4_cst, main_call4_v0, main_v193]

theorem keep_219_242 (V : Valuation τ sig (Elt F)) (b : Ref sig .tc) (hb : b ∉ written_219_242) :
    after (chunk (F := F) 219 242) V (Proc.devRef .tc b) = V (Proc.devRef .tc b) := by
  rw [chunk_219_242]; exact refKeep_of_results V hb rfl

abbrev ops_242_272 : List (HloOp τ sig (Elt F)) :=
  [ nullary main_cst_36 (constant S_ .f32 0x00000000#32),
    binary main_v193 main_cst_36 main_v194 ((fun x v => Host.reduceAdd x v reducesTo_S50000x70_S70_d0 h_S_) : (⟨S50000x70, .f32⟩ : BufTy).Contents (Elt F) → (⟨S_, .f32⟩ : BufTy).Contents (Elt F) → (⟨S70, .f32⟩ : BufTy).Contents (Elt F)),
    nullary main_cst_37 (constant S_ .f32 0x47435000#32),
    unary main_cst_37 main_v195 (broadcastInDim S70 ![] bcast_S_S70 : (⟨S_, .f32⟩ : BufTy).Contents (Elt F) → (⟨S70, .f32⟩ : BufTy).Contents (Elt F)),
    binary main_v194 main_v195 main_v196 (Host.divf : (⟨S70, .f32⟩ : BufTy).Contents (Elt F) → (⟨S70, .f32⟩ : BufTy).Contents (Elt F) → (⟨S70, .f32⟩ : BufTy).Contents (Elt F)),
    unary main_v196 main_v197 (broadcastInDim S1x70 ![1] bcast_S70_S1x70_1 : (⟨S70, .f32⟩ : BufTy).Contents (Elt F) → (⟨S1x70, .f32⟩ : BufTy).Contents (Elt F)),
    unary main_v197 main_v198 (broadcastInDim S50000x70 ![0, 1] bcast_S1x70_S50000x70_0_1 : (⟨S1x70, .f32⟩ : BufTy).Contents (Elt F) → (⟨S50000x70, .f32⟩ : BufTy).Contents (Elt F)),
    binary main_v193 main_v198 main_v199 (subf : (⟨S50000x70, .f32⟩ : BufTy).Contents (Elt F) → (⟨S50000x70, .f32⟩ : BufTy).Contents (Elt F) → (⟨S50000x70, .f32⟩ : BufTy).Contents (Elt F)),
    binary main_v199 main_v199 main_v200 (mulf : (⟨S50000x70, .f32⟩ : BufTy).Contents (Elt F) → (⟨S50000x70, .f32⟩ : BufTy).Contents (Elt F) → (⟨S50000x70, .f32⟩ : BufTy).Contents (Elt F)),
    nullary main_cst_38 (constant S_ .f32 0x00000000#32),
    binary main_v200 main_cst_38 main_v201 ((fun x v => Host.reduceAdd x v reducesTo_S50000x70_S70_d0 h_S_) : (⟨S50000x70, .f32⟩ : BufTy).Contents (Elt F) → (⟨S_, .f32⟩ : BufTy).Contents (Elt F) → (⟨S70, .f32⟩ : BufTy).Contents (Elt F)),
    nullary main_cst_39 (constant S_ .f32 0x47435000#32),
    unary main_cst_39 main_v202 (broadcastInDim S70 ![] bcast_S_S70 : (⟨S_, .f32⟩ : BufTy).Contents (Elt F) → (⟨S70, .f32⟩ : BufTy).Contents (Elt F)),
    binary main_v201 main_v202 main_v203 (Host.divf : (⟨S70, .f32⟩ : BufTy).Contents (Elt F) → (⟨S70, .f32⟩ : BufTy).Contents (Elt F) → (⟨S70, .f32⟩ : BufTy).Contents (Elt F)),
    unary main_v196 main_v204 (broadcastInDim S1x70 ![1] bcast_S70_S1x70_1 : (⟨S70, .f32⟩ : BufTy).Contents (Elt F) → (⟨S1x70, .f32⟩ : BufTy).Contents (Elt F)),
    unary main_v204 main_v205 (broadcastInDim S50000x70 ![0, 1] bcast_S1x70_S50000x70_0_1 : (⟨S1x70, .f32⟩ : BufTy).Contents (Elt F) → (⟨S50000x70, .f32⟩ : BufTy).Contents (Elt F)),
    binary main_v193 main_v205 main_v206 (subf : (⟨S50000x70, .f32⟩ : BufTy).Contents (Elt F) → (⟨S50000x70, .f32⟩ : BufTy).Contents (Elt F) → (⟨S50000x70, .f32⟩ : BufTy).Contents (Elt F)),
    unary main_arg20 main_v207 (broadcastInDim S1x70 ![1] bcast_S70_S1x70_1 : (⟨S70, .f32⟩ : BufTy).Contents (Elt F) → (⟨S1x70, .f32⟩ : BufTy).Contents (Elt F)),
    unary main_v207 main_v208 (broadcastInDim S50000x70 ![0, 1] bcast_S1x70_S50000x70_0_1 : (⟨S1x70, .f32⟩ : BufTy).Contents (Elt F) → (⟨S50000x70, .f32⟩ : BufTy).Contents (Elt F)),
    binary main_v208 main_v206 main_v209 (mulf : (⟨S50000x70, .f32⟩ : BufTy).Contents (Elt F) → (⟨S50000x70, .f32⟩ : BufTy).Contents (Elt F) → (⟨S50000x70, .f32⟩ : BufTy).Contents (Elt F)),
    nullary main_cst_40 (constant S_ .f32 0x3727C5AC#32),
    unary main_cst_40 main_v210 (broadcastInDim S70 ![] bcast_S_S70 : (⟨S_, .f32⟩ : BufTy).Contents (Elt F) → (⟨S70, .f32⟩ : BufTy).Contents (Elt F)),
    binary main_v203 main_v210 main_v211 (addf : (⟨S70, .f32⟩ : BufTy).Contents (Elt F) → (⟨S70, .f32⟩ : BufTy).Contents (Elt F) → (⟨S70, .f32⟩ : BufTy).Contents (Elt F)),
    unary main_v211 main_v212 (Host.rsqrt : (⟨S70, .f32⟩ : BufTy).Contents (Elt F) → (⟨S70, .f32⟩ : BufTy).Contents (Elt F)),
    unary main_v212 main_v213 (broadcastInDim S1x70 ![1] bcast_S70_S1x70_1 : (⟨S70, .f32⟩ : BufTy).Contents (Elt F) → (⟨S1x70, .f32⟩ : BufTy).Contents (Elt F)),
    unary main_v213 main_v214 (broadcastInDim S50000x70 ![0, 1] bcast_S1x70_S50000x70_0_1 : (⟨S1x70, .f32⟩ : BufTy).Contents (Elt F) → (⟨S50000x70, .f32⟩ : BufTy).Contents (Elt F)),
    binary main_v209 main_v214 main_v215 (mulf : (⟨S50000x70, .f32⟩ : BufTy).Contents (Elt F) → (⟨S50000x70, .f32⟩ : BufTy).Contents (Elt F) → (⟨S50000x70, .f32⟩ : BufTy).Contents (Elt F)),
    unary main_arg21 main_v216 (broadcastInDim S1x70 ![1] bcast_S70_S1x70_1 : (⟨S70, .f32⟩ : BufTy).Contents (Elt F) → (⟨S1x70, .f32⟩ : BufTy).Contents (Elt F)),
    unary main_v216 main_v217 (broadcastInDim S50000x70 ![0, 1] bcast_S1x70_S50000x70_0_1 : (⟨S1x70, .f32⟩ : BufTy).Contents (Elt F) → (⟨S50000x70, .f32⟩ : BufTy).Contents (Elt F)),
    binary main_v215 main_v217 main_v218 (addf : (⟨S50000x70, .f32⟩ : BufTy).Contents (Elt F) → (⟨S50000x70, .f32⟩ : BufTy).Contents (Elt F) → (⟨S50000x70, .f32⟩ : BufTy).Contents (Elt F)) ]

set_option maxRecDepth 8192 in
theorem chunk_242_272 : chunk (F := F) 242 272 = ops_242_272 := rfl

def written_242_272 : List (Ref sig .tc) :=
  [main_cst_36, main_v194, main_cst_37, main_v195, main_v196, main_v197, main_v198, main_v199, main_v200, main_cst_38,
   main_v201, main_cst_39, main_v202, main_v203, main_v204, main_v205, main_v206, main_v207, main_v208, main_v209,
   main_cst_40, main_v210, main_v211, main_v212, main_v213, main_v214, main_v215, main_v216, main_v217, main_v218]

theorem keep_242_272 (V : Valuation τ sig (Elt F)) (b : Ref sig .tc) (hb : b ∉ written_242_272) :
    after (chunk (F := F) 242 272) V (Proc.devRef .tc b) = V (Proc.devRef .tc b) := by
  rw [chunk_242_272]; exact refKeep_of_results V hb rfl

abbrev ops_272_292 : List (HloOp τ sig (Elt F)) :=
  [ binary main_v218 main_arg12 main_v219 ((fun l r => Host.dotGeneral dot_S50000x70_S70x88_S50000x88_1_0_0_1_n_n none l r) : (⟨S50000x70, .f32⟩ : BufTy).Contents (Elt F) → (⟨S70x88, .f32⟩ : BufTy).Contents (Elt F) → (⟨S50000x88, .f32⟩ : BufTy).Contents (Elt F)),
    nullary main_c_41 (constantI S_ 32 0#32),
    unary main_c_41 main_v220 (broadcastInDim S850000 ![] bcast_S_S850000 : (⟨S_, .i32⟩ : BufTy).Contents (Elt F) → (⟨S850000, .i32⟩ : BufTy).Contents (Elt F)),
    binary main_v3 main_v220 main_v221 (cmpi .slt : (⟨S850000, .i32⟩ : BufTy).Contents (Elt F) → (⟨S850000, .i32⟩ : BufTy).Contents (Elt F) → (⟨S850000, .i1⟩ : BufTy).Contents (Elt F)),
    nullary main_c_42 (constantI S_ 32 50000#32),
    unary main_c_42 main_v222 (broadcastInDim S850000 ![] bcast_S_S850000 : (⟨S_, .i32⟩ : BufTy).Contents (Elt F) → (⟨S850000, .i32⟩ : BufTy).Contents (Elt F)),
    binary main_v3 main_v222 main_v223 (addi : (⟨S850000, .i32⟩ : BufTy).Contents (Elt F) → (⟨S850000, .i32⟩ : BufTy).Contents (Elt F) → (⟨S850000, .i32⟩ : BufTy).Contents (Elt F)),
    ternary main_v221 main_v223 main_v3 main_v224 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v224 main_v225 (broadcastInDim S850000x1 ![0] bcast_S850000_S850000x1_0 : (⟨S850000, .i32⟩ : BufTy).Contents (Elt F) → (⟨S850000x1, .i32⟩ : BufTy).Contents (Elt F)),
    binary main_v219 main_v225 main_v226 ((fun x i => Host.gather gather_S50000x88_S850000x1_S850000x88_1_0_n_n_0_1_188 x i) : (⟨S50000x88, .f32⟩ : BufTy).Contents (Elt F) → (⟨S850000x1, .i32⟩ : BufTy).Contents (Elt F) → (⟨S850000x88, .f32⟩ : BufTy).Contents (Elt F)),
    unary main_v29 main_v227 (broadcastInDim S850000x1 ![0] bcast_S850000_S850000x1_0 : (⟨S850000, .f32⟩ : BufTy).Contents (Elt F) → (⟨S850000x1, .f32⟩ : BufTy).Contents (Elt F)),
    unary main_v227 main_v228 (broadcastInDim S850000x88 ![0, 1] bcast_S850000x1_S850000x88_0_1 : (⟨S850000x1, .f32⟩ : BufTy).Contents (Elt F) → (⟨S850000x88, .f32⟩ : BufTy).Contents (Elt F)),
    binary main_v226 main_v228 main_v229 (mulf : (⟨S850000x88, .f32⟩ : BufTy).Contents (Elt F) → (⟨S850000x88, .f32⟩ : BufTy).Contents (Elt F) → (⟨S850000x88, .f32⟩ : BufTy).Contents (Elt F)),
    nullary main_cst_43 (constant S_ .f32 0x00000000#32),
    unary main_cst_43 main_v230 (broadcastInDim S50000x88 ![] bcast_S_S50000x88 : (⟨S_, .f32⟩ : BufTy).Contents (Elt F) → (⟨S50000x88, .f32⟩ : BufTy).Contents (Elt F)),
    unary main_v6 main_v231 (broadcastInDim S850000x1 ![0] bcast_S850000_S850000x1_0 : (⟨S850000, .i32⟩ : BufTy).Contents (Elt F) → (⟨S850000x1, .i32⟩ : BufTy).Contents (Elt F)),
    ternary main_v230 main_v231 main_v229 main_v232 ((fun x i u => Host.scatterAdd scatter_S50000x88_S850000x1_S850000x88_1_0_0_1 x i u) : (⟨S50000x88, .f32⟩ : BufTy).Contents (Elt F) → (⟨S850000x1, .i32⟩ : BufTy).Contents (Elt F) → (⟨S850000x88, .f32⟩ : BufTy).Contents (Elt F) → (⟨S50000x88, .f32⟩ : BufTy).Contents (Elt F)),
    unary main_arg13 main_v233 (broadcastInDim S1x88 ![1] bcast_S88_S1x88_1 : (⟨S88, .f32⟩ : BufTy).Contents (Elt F) → (⟨S1x88, .f32⟩ : BufTy).Contents (Elt F)),
    unary main_v233 main_v234 (broadcastInDim S50000x88 ![0, 1] bcast_S1x88_S50000x88_0_1 : (⟨S1x88, .f32⟩ : BufTy).Contents (Elt F) → (⟨S50000x88, .f32⟩ : BufTy).Contents (Elt F)),
    binary main_v232 main_v234 main_v235 (addf : (⟨S50000x88, .f32⟩ : BufTy).Contents (Elt F) → (⟨S50000x88, .f32⟩ : BufTy).Contents (Elt F) → (⟨S50000x88, .f32⟩ : BufTy).Contents (Elt F)) ]

set_option maxRecDepth 8192 in
theorem chunk_272_292 : chunk (F := F) 272 292 = ops_272_292 := rfl

def written_272_292 : List (Ref sig .tc) :=
  [main_v219, main_c_41, main_v220, main_v221, main_c_42, main_v222, main_v223, main_v224, main_v225, main_v226,
   main_v227, main_v228, main_v229, main_cst_43, main_v230, main_v231, main_v232, main_v233, main_v234, main_v235]

theorem keep_272_292 (V : Valuation τ sig (Elt F)) (b : Ref sig .tc) (hb : b ∉ written_272_292) :
    after (chunk (F := F) 272 292) V (Proc.devRef .tc b) = V (Proc.devRef .tc b) := by
  rw [chunk_272_292]; exact refKeep_of_results V hb rfl

end Cert.ReferenceIdeal.Val

end
-- ==== Proof.RefRead2.lean ====
import proofs.«147321_j32504312496394_1_alg».proof.Proof.RefKeep2
import proofs.«147321_j32504312496394_1_alg».proof.Proof.RefStages
import Idealize.ShloMosaic.Lib.StableHlo.Run

noncomputable section

namespace Cert.ReferenceIdeal.Val

open Cert.ReferenceIdeal Cert.ReferenceIdeal.Gen Cert.ReferenceIdeal.Fold Idealize.ShloMosaic Idealize.ShloMosaic.TcCoe Idealize.ShloMosaic.StableHlo

variable {F : FTy → Type} [FloatOps F]

set_option maxRecDepth 8192 in
set_option maxHeartbeats 2000000 in

theorem read_layer4 (V : Valuation τ sig (Elt F)) :
    after (chunk (F := F) 166 189) V (Proc.devRef .tc main_v150)
      = layer4 (V (Proc.devRef .tc main_v132)) (V (Proc.devRef .tc main_arg8)) (V (Proc.devRef .tc main_arg9))
          (V (Proc.devRef .tc main_v3)) (V (Proc.devRef .tc main_v6)) (V (Proc.devRef .tc main_v29)) := by
  rw [chunk_166_189]
  unfold ops_166_189
  after_results

  simp only [TRef.ofBuf, TRef.toBuf, cast_eq]
  rfl

set_option maxRecDepth 8192 in
set_option maxHeartbeats 2000000 in

theorem read_norm3 (V : Valuation τ sig (Elt F)) :
    after (chunk (F := F) 189 219) V (Proc.devRef .tc main_v175)
      = batchNorm60 (V (Proc.devRef .tc main_v150)) (V (Proc.devRef .tc main_arg18)) (V (Proc.devRef .tc main_arg19)) := by
  rw [chunk_189_219]
  unfold ops_189_219
  after_results
  rfl

set_option maxRecDepth 8192 in
set_option maxHeartbeats 2000000 in

theorem read_layer5 (V : Valuation τ sig (Elt F)) :
    after (chunk (F := F) 219 242) V (Proc.devRef .tc main_v193)
      = layer5 (V (Proc.devRef .tc main_v175)) (V (Proc.devRef .tc main_arg10)) (V (Proc.devRef .tc main_arg11))
          (V (Proc.devRef .tc main_v3)) (V (Proc.devRef .tc main_v6)) (V (Proc.devRef .tc main_v29)) := by
  rw [chunk_219_242]
  unfold ops_219_242
  after_results
  simp only [TRef.ofBuf, TRef.toBuf, cast_eq]
  rfl

set_option maxRecDepth 8192 in
set_option maxHeartbeats 2000000 in

theorem read_norm4 (V : Valuation τ sig (Elt F)) :
    after (chunk (F := F) 242 272) V (Proc.devRef .tc main_v218)
      = batchNorm70 (V (Proc.devRef .tc main_v193)) (V (Proc.devRef .tc main_arg20)) (V (Proc.devRef .tc main_arg21)) := by
  rw [chunk_242_272]
  unfold ops_242_272
  after_results
  rfl

set_option maxRecDepth 8192 in
set_option maxHeartbeats 2000000 in

theorem read_layer6 (V : Valuation τ sig (Elt F)) :
    after (chunk (F := F) 272 292) V (Proc.devRef .tc main_v235)
      = layer6 (V (Proc.devRef .tc main_v218)) (V (Proc.devRef .tc main_arg12)) (V (Proc.devRef .tc main_arg13))
          (V (Proc.devRef .tc main_v3)) (V (Proc.devRef .tc main_v6)) (V (Proc.devRef .tc main_v29)) := by
  rw [chunk_272_292]
  unfold ops_272_292
  after_results
  rfl

end Cert.ReferenceIdeal.Val

end
-- ==== Proof.RefValue.lean ====
import proofs.«147321_j32504312496394_1_alg».proof.Proof.RefRead1
import proofs.«147321_j32504312496394_1_alg».proof.Proof.RefKeep1
import proofs.«147321_j32504312496394_1_alg».proof.Proof.RefRead2
import Idealize.ShloMosaic.Lib.Pipeline.Frame

noncomputable section

namespace Cert.ReferenceIdeal.Val

open Cert.ReferenceIdeal Cert.ReferenceIdeal.Gen Cert.ReferenceIdeal.Fold Idealize.ShloMosaic Idealize.ShloMosaic.TcCoe Idealize.ShloMosaic.StableHlo

variable {F : FTy → Type} [FloatOps F]

theorem after_ops_cut (V : Valuation τ sig (Elt F)) :
    after (ops (F := F)) V
      = after (chunk 272 292) (after (chunk 242 272) (after (chunk 219 242) (after (chunk 189 219) (after (chunk 166 189)
          (after (chunk 146 166) (after (chunk 116 146) (after (chunk 93 116) (after (chunk 63 93) (after (chunk 40 63)
            (after (chunk 0 40) V)))))))))) := by
  conv_lhs => rw [ops_cut]
  simp only [StableHlo.after_append]

macro "carried_through " keep:ident : tactic =>
  `(tactic| repeat (rw [$keep:ident]; rotate_left; decide))

set_option maxHeartbeats 1000000 in

theorem ref_value (m : (ℓ : Loc nD τ sig) → Buf (Elt F) ℓ) (c : Dev nD) :
    after (ops (F := F)) (launchContents m c) (Proc.devRef .tc main_v235)
      = network (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) (m ((c.tc : Thread nD τ).loc main_arg15))
          (m ((c.tc : Thread nD τ).loc main_arg16)) (m ((c.tc : Thread nD τ).loc main_arg17)) (m ((c.tc : Thread nD τ).loc main_arg18)) (m ((c.tc : Thread nD τ).loc main_arg19))
          (m ((c.tc : Thread nD τ).loc main_arg20)) (m ((c.tc : Thread nD τ).loc main_arg21)) := by
  rw [after_ops_cut]

  rw [read_layer6]

  rw [read_norm4]; carried_through keep_242_272
  rw [read_layer5]; carried_through keep_219_242

  rw [read_norm3]; carried_through keep_189_219
  rw [read_layer4]; carried_through keep_166_189

  rw [read_layer3]; carried_through keep_146_166

  rw [read_norm2]; carried_through keep_116_146
  rw [read_layer2]; carried_through keep_93_116

  rw [read_norm1]; carried_through keep_63_93
  rw [read_layer1]; carried_through keep_40_63

  rw [(read_graph _).1, (read_graph _).2.1, (read_graph _).2.2]; carried_through keep_0_40
  rfl

def argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20, main_arg21]

theorem argRefs_not_written : ∀ b ∈ argRefs,
    b ∉ written_0_40 ∧ b ∉ written_40_63 ∧ b ∉ written_63_93 ∧ b ∉ written_93_116 ∧ b ∉ written_116_146 ∧ b ∉ written_146_166
    ∧ b ∉ written_166_189 ∧ b ∉ written_189_219 ∧ b ∉ written_219_242 ∧ b ∉ written_242_272 ∧ b ∉ written_272_292 := by
  decide

theorem ref_arg_kept (m : (ℓ : Loc nD τ sig) → Buf (Elt F) ℓ) (c : Dev nD) (b : Ref sig .tc)
    (hb : b ∈ [main_arg0, main_arg1, main_arg2, main_arg3, main_arg4, main_arg5, main_arg6, main_arg7, main_arg8, main_arg9, main_arg10,
      main_arg11, main_arg12, main_arg13, main_arg14, main_arg15, main_arg16, main_arg17, main_arg18, main_arg19, main_arg20, main_arg21]) :
    after (ops (F := F)) (launchContents m c) (Proc.devRef .tc b) = m ((c.tc : Thread nD τ).loc b) := by
  obtain ⟨h0, h1, h2, h3, h4, h5, h6, h7, h8, h9, h10⟩ := argRefs_not_written b hb
  rw [after_ops_cut, keep_272_292 _ b h10, keep_242_272 _ b h9, keep_219_242 _ b h8, keep_189_219 _ b h7, keep_166_189 _ b h6,
    keep_146_166 _ b h5, keep_116_146 _ b h4, keep_93_116 _ b h3, keep_63_93 _ b h2, keep_40_63 _ b h1, keep_0_40 _ b h0]

end Cert.ReferenceIdeal.Val

end
-- ==== Proof.lean ====
import proofs.«147321_j32504312496394_1_alg».proof.Defs
import proofs.«147321_j32504312496394_1_alg».proof.Proof.Gen.Kernel.Frame
import proofs.«147321_j32504312496394_1_alg».proof.Proof.Gen.Pre_finite_inputs
import proofs.«147321_j32504312496394_1_alg».proof.Proof.KernelRun
import proofs.«147321_j32504312496394_1_alg».proof.Proof.KernelValue
import proofs.«147321_j32504312496394_1_alg».proof.Proof.EdgeRange
import proofs.«147321_j32504312496394_1_alg».proof.Proof.RefValue

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's operations write none of its arguments, so each ends as launched. -/
theorem frame_reference : Cert.frame_ReferenceIdeal := fun m ρ _ =>
  (θ_run Cert.ReferenceIdeal.defs _ _).mono (fun _ h c => by
    have k := fun b hb => (h c b).trans (Cert.ReferenceIdeal.Val.ref_arg_kept m c b hb)
    exact ⟨k _ (by decide), k _ (by decide), k _ (by decide), k _ (by decide), k _ (by decide), k _ (by decide),
      k _ (by decide), k _ (by decide), k _ (by decide), k _ (by decide), k _ (by decide), k _ (by decide),
      k _ (by decide), k _ (by decide), k _ (by decide), k _ (by decide), k _ (by decide), k _ (by decide),
      k _ (by decide), k _ (by decide), k _ (by decide), k _ (by decide)⟩)
    (Cert.ReferenceIdeal.Fold.run_fold (F := Ideal) m ρ)

/-- Both programs end at the reference network of the kernel's argument arrays. -/
theorem algebraic : Cert.algebraic_KernelIdeal_ReferenceIdeal := by
  intro m ρ m' ρ' hpre hagree
  refine ⟨_, (θ_run Cert.KernelIdeal.defs _ _).mono (fun r h c =>
      ⟨(h c).1.trans (Cert.KernelIdeal.Val.kernel_value m ρ c
        (Cert.Val.edge_nodeIdx_of_pre _ _ _ _ _ _ _ _ _ _ _ _ _ _ _ _ _ _ _ _ _ _ (hpre c))), (h c).2⟩)
    (Cert.KernelIdeal.Gen.run_result m ρ), ?_⟩
  refine (θ_run Cert.ReferenceIdeal.defs _ _).mono (fun r h c => ?_) (Cert.ReferenceIdeal.Fold.run_fold (F := Ideal) m' ρ')
  have k := fun b hb => (h c b).trans (Cert.ReferenceIdeal.Val.ref_arg_kept m' c b hb)
  obtain ⟨a0, a1, a2, a3, a4, a5, a6, a7, a8, a9, a10, a11, a12, a13, a14, a15, a16, a17, a18, a19, a20, a21⟩ := hagree c
  refine ⟨?_, k _ (by decide), k _ (by decide), k _ (by decide), k _ (by decide), k _ (by decide), k _ (by decide),
    k _ (by decide), k _ (by decide), k _ (by decide), k _ (by decide), k _ (by decide), k _ (by decide),
    k _ (by decide), k _ (by decide), k _ (by decide), k _ (by decide), k _ (by decide), k _ (by decide),
    k _ (by decide), k _ (by decide), k _ (by decide), k _ (by decide)⟩
  rw [h c Cert.ReferenceIdeal.main_v235, Cert.ReferenceIdeal.Val.ref_value m' c, a0, a1, a2, a3, a4, a5, a6, a7, a8, a9, a10, a11, a12,
    a13, a14, a15, a16, a17, a18, a19, a20, a21]

theorem claim : Cert.Claim :=
  ⟨Cert.Kernel.Gen.facts, Cert.KernelIdeal.Gen.facts, Cert.ReferenceIdeal.Gen.facts, Cert.Pre_finite_inputs.Gen.facts,
   frame_kernel, frame_kernelIdeal, frame_reference, trivial, algebraic⟩

end Cert.Proof

end
